-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S100000x128 : Shape := ⟨2, ![100000, 128]⟩
abbrev S200000 : Shape := ⟨1, ![200000]⟩
abbrev S400000 : Shape := ⟨1, ![400000]⟩
abbrev S128x128 : Shape := ⟨2, ![128, 128]⟩
abbrev S128 : Shape := ⟨1, ![128]⟩
abbrev S256x256 : Shape := ⟨2, ![256, 256]⟩
abbrev S256 : Shape := ⟨1, ![256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S200000 : S_.BroadcastsInDim S200000 (![] : Fin 0 → Fin S200000.rank)
  reducesTo_S200000_S_d0 : S200000.ReducesTo [0] S_
  bcast_S_S400000 : S_.BroadcastsInDim S400000 (![] : Fin 0 → Fin S400000.rank)
  reducesTo_S400000_S_d0 : S400000.ReducesTo [0] S_

variable [Facts]

def fn_part3 {F : FTy → Type} [FloatOps F] (main_arg2 : IVec S400000 32) (main_v50 : IVec S_ 1) : IVec S_ 1 :=
  let main_c_19 : IVec S_ 32 := constantI S_ 32 0#32
  let main_v51 : IVec S400000 32 := broadcastInDim S400000 ![] bcast_S_S400000 main_c_19
  let main_v52 : IVec S400000 1 := cmpi .sge main_arg2 main_v51
  let main_c_20 : IVec S_ 32 := constantI S_ 32 99999#32
  let main_v53 : IVec S400000 32 := broadcastInDim S400000 ![] bcast_S_S400000 main_c_20
  let main_v54 : IVec S400000 1 := cmpi .sle main_arg2 main_v53
  let main_v55 : IVec S400000 1 := andi main_v52 main_v54
  let main_c_21 : IVec S_ 1 := constantI S_ 1 1#1
  let main_v56 : IVec S_ 1 := (fun x v => Host.reduce IntOp.andi x v reducesTo_S400000_S_d0 h_S_) main_v55 main_c_21
  let main_v57 : IVec S_ 1 := andi main_v50 main_v56
  main_v57

def fn_part2 {F : FTy → Type} [FloatOps F] (main_arg1 : IVec S200000 32) (main_arg2 : IVec S400000 32) (main_arg9 : FVec F S256x256 .f32) (main_arg10 : FVec F S256 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_c_16 : IVec S_ 32 := constantI S_ 32 0#32
  let main_v44 : IVec S200000 32 := broadcastInDim S200000 ![] bcast_S_S200000 main_c_16
  let main_v45 : IVec S200000 1 := cmpi .sge main_arg1 main_v44
  let main_c_17 : IVec S_ 32 := constantI S_ 32 99999#32
  let main_v46 : IVec S200000 32 := broadcastInDim S200000 ![] bcast_S_S200000 main_c_17
  let main_v47 : IVec S200000 1 := cmpi .sle main_arg1 main_v46
  let main_v48 : IVec S200000 1 := andi main_v45 main_v47
  let main_c_18 : IVec S_ 1 := constantI S_ 1 1#1
  let main_v49 : IVec S_ 1 := (fun x v => Host.reduce IntOp.andi x v reducesTo_S200000_S_d0 h_S_) main_v48 main_c_18
  let main_v50 : IVec S_ 1 := andi main_v43 main_v49
  fn_part3 (F := F) main_arg2 main_v50

def fn_part1 {F : FTy → Type} [FloatOps F] (main_arg1 : IVec S200000 32) (main_arg2 : IVec S400000 32) (main_arg6 : FVec F S128 .f32) (main_arg7 : FVec F S256x256 .f32) (main_arg8 : FVec F S256 .f32) (main_arg9 : FVec F S256x256 .f32) (main_arg10 : FVec F S256 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_arg2 main_arg9 main_arg10 main_v33

def fn {F : FTy → Type} [FloatOps F] (main_arg0 : FVec F S100000x128 .f32) (main_arg1 : IVec S200000 32) (main_arg2 : IVec S400000 32) (main_arg3 : FVec F S128x128 .f32) (main_arg4 : FVec F S128 .f32) (main_arg5 : FVec F S128x128 .f32) (main_arg6 : FVec F S128 .f32) (main_arg7 : FVec F S256x256 .f32) (main_arg8 : FVec F S256 .f32) (main_arg9 : FVec F S256x256 .f32) (main_arg10 : FVec F S256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg2 main_arg6 main_arg7 main_arg8 main_arg9 main_arg10 main_v13 main_v16
-- ==== Kernel.lean ====
abbrev S100000x128 : Shape := ⟨2, ![100000, 128]⟩
abbrev S200000 : Shape := ⟨1, ![200000]⟩
abbrev S400000 : Shape := ⟨1, ![400000]⟩
abbrev S128x128 : Shape := ⟨2, ![128, 128]⟩
abbrev S128 : Shape := ⟨1, ![128]⟩
abbrev S256x256 : Shape := ⟨2, ![256, 256]⟩
abbrev S256 : Shape := ⟨1, ![256]⟩
abbrev S1x128 : Shape := ⟨2, ![1, 128]⟩
abbrev S2000x128 : Shape := ⟨2, ![2000, 128]⟩
abbrev S_ : Shape := ⟨0, ![]⟩
abbrev S704 : Shape := ⟨1, ![704]⟩
abbrev S200704 : Shape := ⟨1, ![200704]⟩
abbrev S1408 : Shape := ⟨1, ![1408]⟩
abbrev S401408 : Shape := ⟨1, ![401408]⟩
abbrev S600000x128 : Shape := ⟨2, ![600000, 128]⟩
abbrev S401408x128 : Shape := ⟨2, ![401408, 128]⟩
abbrev S448 : Shape := ⟨1, ![448]⟩
abbrev S448x128 : Shape := ⟨2, ![448, 128]⟩
abbrev S1x256 : Shape := ⟨2, ![1, 256]⟩
abbrev S1000x256 : Shape := ⟨2, ![1000, 256]⟩
abbrev S600000 : Shape := ⟨1, ![600000]⟩

abbrev nBuf : Table → Nat
  | .hbm => 26
  | .local .tc .vmem => 16
  | .local .scVector .vmem => 4
  | _ => 0

abbrev bufTy : (tb : Table) → Fin (nBuf tb) → BufTy
  | .hbm, ⟨0, _⟩ => ⟨S100000x128, .f32⟩
  | .hbm, ⟨1, _⟩ => ⟨S200000, .i32⟩
  | .hbm, ⟨2, _⟩ => ⟨S400000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S1x128, .f32⟩
  | .hbm, ⟨12, _⟩ => ⟨S1x128, .f32⟩
  | .hbm, ⟨13, _⟩ => ⟨S100000x128, .f32⟩
  | .hbm, ⟨14, _⟩ => ⟨S_, .i32⟩
  | .hbm, ⟨15, _⟩ => ⟨S704, .i32⟩
  | .hbm, ⟨16, _⟩ => ⟨S200704, .i32⟩
  | .hbm, ⟨17, _⟩ => ⟨S_, .i32⟩
  | .hbm, ⟨18, _⟩ => ⟨S1408, .i32⟩
  | .hbm, ⟨19, _⟩ => ⟨S401408, .i32⟩
  | .hbm, ⟨20, _⟩ => ⟨S600000x128, .f32⟩
  | .hbm, ⟨21, _⟩ => ⟨S401408x128, .f32⟩
  | .hbm, ⟨22, _⟩ => ⟨S1x256, .f32⟩
  | .hbm, ⟨23, _⟩ => ⟨S1x256, .f32⟩
  | .hbm, ⟨24, _⟩ => ⟨S600000x128, .f32⟩
  | .hbm, ⟨25, _⟩ => ⟨S600000, .i32⟩
  | .local .tc .vmem, ⟨0, _⟩ => ⟨S2000x128, .f32⟩
  | .local .tc .vmem, ⟨1, _⟩ => ⟨S2000x128, .f32⟩
  | .local .tc .vmem, ⟨2, _⟩ => ⟨S128x128, .f32⟩
  | .local .tc .vmem, ⟨3, _⟩ => ⟨S1x128, .f32⟩
  | .local .tc .vmem, ⟨4, _⟩ => ⟨S128x128, .f32⟩
  | .local .tc .vmem, ⟨5, _⟩ => ⟨S1x128, .f32⟩
  | .local .tc .vmem, ⟨6, _⟩ => ⟨S2000x128, .f32⟩
  | .local .tc .vmem, ⟨7, _⟩ => ⟨S2000x128, .f32⟩
  | .local .tc .vmem, ⟨8, _⟩ => ⟨S2000x128, .f32⟩
  | .local .tc .vmem, ⟨9, _⟩ => ⟨S2000x128, .f32⟩
  | .local .tc .vmem, ⟨10, _⟩ => ⟨S256x256, .f32⟩
  | .local .tc .vmem, ⟨11, _⟩ => ⟨S1x256, .f32⟩
  | .local .tc .vmem, ⟨12, _⟩ => ⟨S256x256, .f32⟩
  | .local .tc .vmem, ⟨13, _⟩ => ⟨S1x256, .f32⟩
  | .local .tc .vmem, ⟨14, _⟩ => ⟨S2000x128, .f32⟩
  | .local .tc .vmem, ⟨15, _⟩ => ⟨S2000x128, .f32⟩
  | .local .scVector .vmem, ⟨0, _⟩ => ⟨S448, .i32⟩
  | .local .scVector .vmem, ⟨1, _⟩ => ⟨S448, .i32⟩
  | .local .scVector .vmem, ⟨2, _⟩ => ⟨S448x128, .f32⟩
  | .local .scVector .vmem, ⟨3, _⟩ => ⟨S448x128, .f32⟩
  | _, _ => ⟨S100000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => false
  | ⟨13, _⟩ => false
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTables nBuf rfl bufTy 4 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_arg0_scv : Ref sig .scVector := ⟨.hbm, 0, rfl⟩
abbrev main_v2_scv : Ref sig .scVector := ⟨.hbm, 13, rfl⟩
abbrev main_v4_scv : Ref sig .scVector := ⟨.hbm, 16, rfl⟩
abbrev main_v6_scv : Ref sig .scVector := ⟨.hbm, 19, rfl⟩
abbrev main_v7_0_scv : Ref sig .scVector := ⟨.hbm, 20, rfl⟩
abbrev main_v7_1_scv : Ref sig .scVector := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg3_0 : Ref sig .tc := ⟨.vmem, 12, rfl⟩
abbrev cc2_stg4_0 : Ref sig .tc := ⟨.vmem, 13, rfl⟩
abbrev cc2_stg5_0 : Ref sig .tc := ⟨.vmem, 14, rfl⟩
abbrev cc2_stg5_1 : Ref sig .tc := ⟨.vmem, 15, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem5_1 : DmaSem sig := 21
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c448_i32 : BitVec 32 := 448#32
  let v2 : BitVec 32 := Scalar.muli v1 c448_i32
  ![v2.toNat]
@[reducible] def k1_t1_loop : Scf.Loop 32 :=
  let c0_i32_0 : BitVec 32 := 0#32
  let c7_i32 : BitVec 32 := 7#32
  let v5 : BitVec 32 := Scalar.addi c0_i32_0 c7_i32
  let c1_i32 : BitVec 32 := 1#32
  ⟨c0_i32_0, v5, c1_i32⟩
def k1_cond2 (k1_t1 : Fin k1_t1_loop.trips) : BitVec 1 :=
  let c2_i32_23 : BitVec 32 := 2#32
  let c0_i32_0 : BitVec 32 := 0#32
  let c1_i32 : BitVec 32 := 1#32
  let arg18 : BitVec 32 := Scf.iv c0_i32_0 c1_i32 k1_t1
  let v18 : BitVec 32 := Scalar.muli c2_i32_23 arg18
  let c1_i32_30 : BitVec 32 := 1#32
  let v25 : BitVec 32 := Scalar.addi v18 c1_i32_30
  let c14_i32_31 : BitVec 32 := 14#32
  let v26 : BitVec 1 := Scalar.cmpi .slt v25 c14_i32_31
  let v27 : BitVec 32 := Scalar.extui v26
  let c0_i32_32 : BitVec 32 := 0#32
  let v28 : BitVec 1 := Scalar.cmpi .ne v27 c0_i32_32
  v28

def k1_off2 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_56 : BitVec 32 := 32#32
  let c2_i32_23 : BitVec 32 := 2#32
  let c0_i32_0 : BitVec 32 := 0#32
  let c1_i32 : BitVec 32 := 1#32
  let arg18 : BitVec 32 := Scf.iv c0_i32_0 c1_i32 k1_t1
  let v18 : BitVec 32 := Scalar.muli c2_i32_23 arg18
  let c1_i32_55 : BitVec 32 := 1#32
  let v53 : BitVec 32 := Scalar.addi v18 c1_i32_55
  let v54 : BitVec 32 := Scalar.muli c32_i32_56 v53
  let v55 : BitVec 32 := Scalar.addi v1 v54
  let c448_i32_57 : BitVec 32 := 448#32
  let v56 : BitVec 32 := Scalar.muli v55 c448_i32_57
  ![v56.toNat]
def k1_off3 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c2_i32_23 : BitVec 32 := 2#32
  let c0_i32_0 : BitVec 32 := 0#32
  let c1_i32 : BitVec 32 := 1#32
  let arg18 : BitVec 32 := Scf.iv c0_i32_0 c1_i32 k1_t1
  let v18 : BitVec 32 := Scalar.muli c2_i32_23 arg18
  let v30 : BitVec 32 := Scalar.muli c32_i32 v18
  let v31 : BitVec 32 := Scalar.addi v1 v30
  let c448_i32_35 : BitVec 32 := 448#32
  let v32 : BitVec 32 := Scalar.muli v31 c448_i32_35
  let c0_i32_36 : BitVec 32 := 0#32
  ![v32.toNat, 0]
def k1_cond4 (k1_t1 : Fin k1_t1_loop.trips) : BitVec 1 :=
  let c2_i32_38 : BitVec 32 := 2#32
  let c0_i32_0 : BitVec 32 := 0#32
  let c1_i32 : BitVec 32 := 1#32
  let arg18 : BitVec 32 := Scf.iv c0_i32_0 c1_i32 k1_t1
  let v35 : BitVec 32 := Scalar.muli c2_i32_38 arg18
  let c1_i32_39 : BitVec 32 := 1#32
  let v36 : BitVec 32 := Scalar.addi v35 c1_i32_39
  let c1_i32_46 : BitVec 32 := 1#32
  let v43 : BitVec 32 := Scalar.addi v36 c1_i32_46
  let c14_i32_47 : BitVec 32 := 14#32
  let v44 : BitVec 1 := Scalar.cmpi .slt v43 c14_i32_47
  let v45 : BitVec 32 := Scalar.extui v44
  let c0_i32_48 : BitVec 32 := 0#32
  let v46 : BitVec 1 := Scalar.cmpi .ne v45 c0_i32_48
  v46

def k1_off4 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_56 : BitVec 32 := 32#32
  let c2_i32_38 : BitVec 32 := 2#32
  let c0_i32_0 : BitVec 32 := 0#32
  let c1_i32 : BitVec 32 := 1#32
  let arg18 : BitVec 32 := Scf.iv c0_i32_0 c1_i32 k1_t1
  let v35 : BitVec 32 := Scalar.muli c2_i32_38 arg18
  let c1_i32_39 : BitVec 32 := 1#32
  let v36 : BitVec 32 := Scalar.addi v35 c1_i32_39
  let c1_i32_55 : BitVec 32 := 1#32
  let v53 : BitVec 32 := Scalar.addi v36 c1_i32_55
  let v54 : BitVec 32 := Scalar.muli c32_i32_56 v53
  let v55 : BitVec 32 := Scalar.addi v1 v54
  let c448_i32_57 : BitVec 32 := 448#32
  let v56 : BitVec 32 := Scalar.muli v55 c448_i32_57
  ![v56.toNat]
def k1_off5 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_51 : BitVec 32 := 32#32
  let c2_i32_38 : BitVec 32 := 2#32
  let c0_i32_0 : BitVec 32 := 0#32
  let c1_i32 : BitVec 32 := 1#32
  let arg18 : BitVec 32 := Scf.iv c0_i32_0 c1_i32 k1_t1
  let v35 : BitVec 32 := Scalar.muli c2_i32_38 arg18
  let c1_i32_39 : BitVec 32 := 1#32
  let v36 : BitVec 32 := Scalar.addi v35 c1_i32_39
  let v48 : BitVec 32 := Scalar.muli c32_i32_51 v36
  let v49 : BitVec 32 := Scalar.addi v1 v48
  let c448_i32_52 : BitVec 32 := 448#32
  let v50 : BitVec 32 := Scalar.muli v49 c448_i32_52
  let c0_i32_53 : BitVec 32 := 0#32
  ![v50.toNat, 0]
def k1_off6 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c448_i32_10 : BitVec 32 := 448#32
  let v10 : BitVec 32 := Scalar.muli v1 c448_i32_10
  ![v10.toNat]
@[reducible] def k1_t2_loop : Scf.Loop 32 :=
  let c0_i32_12 : BitVec 32 := 0#32
  let c14_i32 : BitVec 32 := 14#32
  let v13 : BitVec 32 := Scalar.addi c0_i32_12 c14_i32
  let c1_i32_13 : BitVec 32 := 1#32
  ⟨c0_i32_12, v13, c1_i32_13⟩
def k1_cond6 (k1_t2 : Fin k1_t2_loop.trips) : BitVec 1 :=
  let c2_i32_23 : BitVec 32 := 2#32
  let c0_i32_12 : BitVec 32 := 0#32
  let c1_i32_13 : BitVec 32 := 1#32
  let arg18 : BitVec 32 := Scf.iv c0_i32_12 c1_i32_13 k1_t2
  let v18 : BitVec 32 := Scalar.muli c2_i32_23 arg18
  let c1_i32_30 : BitVec 32 := 1#32
  let v25 : BitVec 32 := Scalar.addi v18 c1_i32_30
  let c28_i32 : BitVec 32 := 28#32
  let v26 : BitVec 1 := Scalar.cmpi .slt v25 c28_i32
  let v27 : BitVec 32 := Scalar.extui v26
  let c0_i32_31 : BitVec 32 := 0#32
  let v28 : BitVec 1 := Scalar.cmpi .ne v27 c0_i32_31
  v28

def k1_off7 (i : grid1.Coords) (k1_t2 : Fin k1_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_55 : BitVec 32 := 32#32
  let c2_i32_23 : BitVec 32 := 2#32
  let c0_i32_12 : BitVec 32 := 0#32
  let c1_i32_13 : BitVec 32 := 1#32
  let arg18 : BitVec 32 := Scf.iv c0_i32_12 c1_i32_13 k1_t2
  let v18 : BitVec 32 := Scalar.muli c2_i32_23 arg18
  let c1_i32_54 : BitVec 32 := 1#32
  let v53 : BitVec 32 := Scalar.addi v18 c1_i32_54
  let v54 : BitVec 32 := Scalar.muli c32_i32_55 v53
  let v55 : BitVec 32 := Scalar.addi v1 v54
  let c448_i32_56 : BitVec 32 := 448#32
  let v56 : BitVec 32 := Scalar.muli v55 c448_i32_56
  ![v56.toNat]
def k1_off8 (i : grid1.Coords) (k1_t2 : Fin k1_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c2_i32_23 : BitVec 32 := 2#32
  let c0_i32_12 : BitVec 32 := 0#32
  let c1_i32_13 : BitVec 32 := 1#32
  let arg18 : BitVec 32 := Scf.iv c0_i32_12 c1_i32_13 k1_t2
  let v18 : BitVec 32 := Scalar.muli c2_i32_23 arg18
  let v30 : BitVec 32 := Scalar.muli c32_i32 v18
  let v31 : BitVec 32 := Scalar.addi v1 v30
  let c448_i32_34 : BitVec 32 := 448#32
  let v32 : BitVec 32 := Scalar.muli v31 c448_i32_34
  let c0_i32_35 : BitVec 32 := 0#32
  ![v32.toNat, 0]
def k1_cond8 (k1_t2 : Fin k1_t2_loop.trips) : BitVec 1 :=
  let c2_i32_37 : BitVec 32 := 2#32
  let c0_i32_12 : BitVec 32 := 0#32
  let c1_i32_13 : BitVec 32 := 1#32
  let arg18 : BitVec 32 := Scf.iv c0_i32_12 c1_i32_13 k1_t2
  let v35 : BitVec 32 := Scalar.muli c2_i32_37 arg18
  let c1_i32_38 : BitVec 32 := 1#32
  let v36 : BitVec 32 := Scalar.addi v35 c1_i32_38
  let c1_i32_45 : BitVec 32 := 1#32
  let v43 : BitVec 32 := Scalar.addi v36 c1_i32_45
  let c28_i32_46 : BitVec 32 := 28#32
  let v44 : BitVec 1 := Scalar.cmpi .slt v43 c28_i32_46
  let v45 : BitVec 32 := Scalar.extui v44
  let c0_i32_47 : BitVec 32 := 0#32
  let v46 : BitVec 1 := Scalar.cmpi .ne v45 c0_i32_47
  v46

def k1_off9 (i : grid1.Coords) (k1_t2 : Fin k1_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_55 : BitVec 32 := 32#32
  let c2_i32_37 : BitVec 32 := 2#32
  let c0_i32_12 : BitVec 32 := 0#32
  let c1_i32_13 : BitVec 32 := 1#32
  let arg18 : BitVec 32 := Scf.iv c0_i32_12 c1_i32_13 k1_t2
  let v35 : BitVec 32 := Scalar.muli c2_i32_37 arg18
  let c1_i32_38 : BitVec 32 := 1#32
  let v36 : BitVec 32 := Scalar.addi v35 c1_i32_38
  let c1_i32_54 : BitVec 32 := 1#32
  let v53 : BitVec 32 := Scalar.addi v36 c1_i32_54
  let v54 : BitVec 32 := Scalar.muli c32_i32_55 v53
  let v55 : BitVec 32 := Scalar.addi v1 v54
  let c448_i32_56 : BitVec 32 := 448#32
  let v56 : BitVec 32 := Scalar.muli v55 c448_i32_56
  ![v56.toNat]
def k1_off10 (i : grid1.Coords) (k1_t2 : Fin k1_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_50 : BitVec 32 := 32#32
  let c2_i32_37 : BitVec 32 := 2#32
  let c0_i32_12 : BitVec 32 := 0#32
  let c1_i32_13 : BitVec 32 := 1#32
  let arg18 : BitVec 32 := Scf.iv c0_i32_12 c1_i32_13 k1_t2
  let v35 : BitVec 32 := Scalar.muli c2_i32_37 arg18
  let c1_i32_38 : BitVec 32 := 1#32
  let v36 : BitVec 32 := Scalar.addi v35 c1_i32_38
  let v48 : BitVec 32 := Scalar.muli c32_i32_50 v36
  let v49 : BitVec 32 := Scalar.addi v1 v48
  let c448_i32_51 : BitVec 32 := 448#32
  let v50 : BitVec 32 := Scalar.muli v49 c448_i32_51
  let c0_i32_52 : BitVec 32 := 0#32
  ![v50.toNat, 0]
abbrev grid2 : Pipeline.Grid := ⟨1, ![200], ![false]⟩

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c100_i32 : BitVec 32 := 100#32
  let v0 : BitVec 32 := Scalar.addi arg0 c100_i32
  let c0_i32 : BitVec 32 := 0#32
  let c0_i32_0 : BitVec 32 := 0#32
  ![v0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S704 : S_.BroadcastsInDim S704 (![] : Fin 0 → Fin S704.rank)
  concatenates_S200000_S704_S200704_d0 : Shape.Concatenates [S200000, S704] S200704 0
  bcast_S_S1408 : S_.BroadcastsInDim S1408 (![] : Fin 0 → Fin S1408.rank)
  concatenates_S400000_S1408_S401408_d0 : Shape.Concatenates [S400000, S1408] S401408 0
  inb_S600000x128_S448x128_0_0 : ∀ a, (![0, 0] : Fin 2 → Nat) a + S448x128.size a ≤ S600000x128.size a
  inb_S200704_S448_0 : ∀ a, (![0] : Fin 1 → Nat) a + S448.size a ≤ S200704.size a
  inb_S100000x128_S100000x128_0_0 : ∀ a, (![0, 0] : Fin 2 → Nat) a + S100000x128.size a ≤ S100000x128.size a
  gathers_S100000x128_S448x128 : S100000x128.Gathers 0 S448x128
  inb_S401408x128_S448x128_0_0 : ∀ a, (![0, 0] : Fin 2 → Nat) a + S448x128.size a ≤ S401408x128.size a
  inb_S401408_S448_0 : ∀ a, (![0] : Fin 1 → Nat) a + S448.size a ≤ S401408.size a
  shapeCasts_S256_S1x256 : S256.ShapeCasts S1x256
  shapeCasts_S2000x128_S2000x128 : S2000x128.ShapeCasts S2000x128
  shapeCasts_S2000x128_S1000x256 : S2000x128.ShapeCasts S1000x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  shapeCasts_S1000x256_S2000x128 : S1000x256.ShapeCasts S2000x128
  concatenates_S200000_S400000_S600000_d0 : Shape.Concatenates [S200000, S400000] S600000 0
  dot_S2000x128_S128x128_S2000x128_1_0_0_1_n_n_wf : DotDims.WF S2000x128 S128x128 S2000x128 [1] [0] [0] [1] [] []
  dot_S1000x256_S256x256_S1000x256_1_0_0_1_n_n_wf : DotDims.WF S1000x256 S256x256 S1000x256 [1] [0] [0] [1] [] []
  hcc1_scratch4 : 8 + S_.numel ≤ 22
  hcc1_scratch5 : 9 + S_.numel ≤ 22
  hcc1_scratch6 : 10 + S_.numel ≤ 22
  hcc1_scratch7 : 11 + S_.numel ≤ 22
  hcc1_scratch8 : 12 + S_.numel ≤ 22
  hcc1_scratch9 : 13 + S_.numel ≤ 22
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hcore1 : grid1.bound 0 ≤ τ.nSC
  hsub1 : grid1.bound 1 ≤ τ.nSub
  k1_off1_inb : ∀ i : grid1.Coords, ∀ a, (k1_off1 i) a + S448.size a ≤ S200704.size a
  k1_t1_ok : k1_t1_loop.OK
  k1_off2_inb : ∀ (i : grid1.Coords) (k1_t1 : Fin k1_t1_loop.trips), ∀ (k1_h2 : k1_cond2 k1_t1 = 1#1), ∀ a, (k1_off2 i k1_t1) a + S448.size a ≤ S200704.size a
  k1_off3_inb : ∀ (i : grid1.Coords) (k1_t1 : Fin k1_t1_loop.trips), ∀ a, (k1_off3 i k1_t1) a + S448x128.size a ≤ S600000x128.size a
  k1_off4_inb : ∀ (i : grid1.Coords) (k1_t1 : Fin k1_t1_loop.trips), ∀ (k1_h4 : k1_cond4 k1_t1 = 1#1), ∀ a, (k1_off4 i k1_t1) a + S448.size a ≤ S200704.size a
  k1_off5_inb : ∀ (i : grid1.Coords) (k1_t1 : Fin k1_t1_loop.trips), ∀ a, (k1_off5 i k1_t1) a + S448x128.size a ≤ S600000x128.size a
  k1_off6_inb : ∀ i : grid1.Coords, ∀ a, (k1_off6 i) a + S448.size a ≤ S401408.size a
  k1_t2_ok : k1_t2_loop.OK
  k1_off7_inb : ∀ (i : grid1.Coords) (k1_t2 : Fin k1_t2_loop.trips), ∀ (k1_h6 : k1_cond6 k1_t2 = 1#1), ∀ a, (k1_off7 i k1_t2) a + S448.size a ≤ S401408.size a
  k1_off8_inb : ∀ (i : grid1.Coords) (k1_t2 : Fin k1_t2_loop.trips), ∀ a, (k1_off8 i k1_t2) a + S448x128.size a ≤ S401408x128.size a
  k1_off9_inb : ∀ (i : grid1.Coords) (k1_t2 : Fin k1_t2_loop.trips), ∀ (k1_h8 : k1_cond8 k1_t2 = 1#1), ∀ a, (k1_off9 i k1_t2) a + S448.size a ≤ S401408.size a
  k1_off10_inb : ∀ (i : grid1.Coords) (k1_t2 : Fin k1_t2_loop.trips), ∀ a, (k1_off10 i k1_t2) a + S448x128.size a ≤ S401408x128.size a
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_1 i = cc2_transform_1 i'
  hstart2_0 : ∀ (i : grid2.Coords) a, cc2_transform_1 i a * S2000x128.size a < S401408x128.size a
  hwx2_0 : ∀ i : grid2.Coords, EltTy.bits .f32 = 32 ∨ (Rect.unit (s := S401408x128) (fun a => cc2_transform_1 i a * S2000x128.size a) (fun a => (Pipeline.Clip.of (cc2_transform_1 i a) (S2000x128.size a) (S401408x128.size a)).extent (S2000x128.size a)) fun a => Pipeline.Clip.inb (Pipeline.Clip.ok_of (hstart2_0 i a))).WholeWords (EltTy.packing .f32)
  hwxs2_0 : ∀ i : grid2.Coords, EltTy.bits .f32 = 32 ∨ (Rect.unit (s := S2000x128) (fun _ => 0) (fun a => (Pipeline.Clip.of (cc2_transform_1 i a) (S2000x128.size a) (S401408x128.size a)).extent (S2000x128.size a)) fun a => (Nat.zero_add _).trans_le (Pipeline.Clip.extent_le (Pipeline.Clip.ok_of (hstart2_0 i a)))).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_2 i = cc2_transform_2 i'
  hinb2_1 : ∀ (i : grid2.Coords) a, (cc2_transform_2 i a + 1) * S256x256.size a ≤ S256x256.size a
  hwx2_1 : ∀ i : grid2.Coords, EltTy.bits .f32 = 32 ∨ (Rect.block (s := S256x256) S256x256.size (cc2_transform_2 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_3 i = cc2_transform_3 i'
  hinb2_2 : ∀ (i : grid2.Coords) a, (cc2_transform_3 i a + 1) * S1x256.size a ≤ S1x256.size a
  hwx2_2 : ∀ i : grid2.Coords, EltTy.bits .f32 = 32 ∨ (Rect.block (s := S1x256) S1x256.size (cc2_transform_3 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_4 i = cc2_transform_4 i'
  hinb2_3 : ∀ (i : grid2.Coords) a, (cc2_transform_4 i a + 1) * S256x256.size a ≤ S256x256.size a
  hwx2_3 : ∀ i : grid2.Coords, EltTy.bits .f32 = 32 ∨ (Rect.block (s := S256x256) S256x256.size (cc2_transform_4 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_5 i = cc2_transform_5 i'
  hinb2_4 : ∀ (i : grid2.Coords) a, (cc2_transform_5 i a + 1) * S1x256.size a ≤ S1x256.size a
  hwx2_4 : ∀ i : grid2.Coords, EltTy.bits .f32 = 32 ∨ (Rect.block (s := S1x256) S1x256.size (cc2_transform_5 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_6 i = cc2_transform_6 i'
  hinb2_5 : ∀ (i : grid2.Coords) a, (cc2_transform_6 i a + 1) * S2000x128.size a ≤ S600000x128.size a
  hwx2_5 : ∀ i : grid2.Coords, EltTy.bits .f32 = 32 ∨ (Rect.block (s := S600000x128) S2000x128.size (cc2_transform_6 i) (hinb2_5 i)).WholeWords (EltTy.packing .f32)

variable [Facts₀]

abbrev cc1_scratch4 : DmaSems sig S_ := SemArray.consecutive 8 S_ hcc1_scratch4
abbrev cc1_scratch5 : DmaSems sig S_ := SemArray.consecutive 9 S_ hcc1_scratch5
abbrev cc1_scratch6 : DmaSems sig S_ := SemArray.consecutive 10 S_ hcc1_scratch6
abbrev cc1_scratch7 : DmaSems sig S_ := SemArray.consecutive 11 S_ hcc1_scratch7
abbrev cc1_scratch8 : DmaSems sig S_ := SemArray.consecutive 12 S_ hcc1_scratch8
abbrev cc1_scratch9 : DmaSems sig S_ := SemArray.consecutive 13 S_ hcc1_scratch9
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win2_0 : Pipeline.Window sig grid2 :=
  Pipeline.Window.ofSpecClip (Memref.whole main_v7_1) S2000x128.size cc2_transform_1 reads2_0 false false 2 stage2_0 sem2_0
    hrank2 hreads2_0 hstart2_0 nbuf2_0 (Memref.isWhole_whole _) hwx2_0 hwxs2_0 hstage2_0

abbrev win2_1 : Pipeline.Window sig grid2 :=
  Pipeline.Window.ofSpec (Memref.whole main_arg7) S256x256.size cc2_transform_2 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x256.size cc2_transform_3 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S256x256.size cc2_transform_4 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v9) S1x256.size cc2_transform_5 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v10) S2000x128.size cc2_transform_6 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S200000 : Shape := ⟨1, ![200000]⟩
abbrev S400000 : Shape := ⟨1, ![400000]⟩
abbrev S128x128 : Shape := ⟨2, ![128, 128]⟩
abbrev S128 : Shape := ⟨1, ![128]⟩
abbrev S256x256 : Shape := ⟨2, ![256, 256]⟩
abbrev S256 : Shape := ⟨1, ![256]⟩
abbrev S_ : Shape := ⟨0, ![]⟩
abbrev S200000x1 : Shape := ⟨2, ![200000, 1]⟩
abbrev S1 : Shape := ⟨1, ![1]⟩
abbrev S1x1 : Shape := ⟨2, ![1, 1]⟩
abbrev S200000x128 : Shape := ⟨2, ![200000, 128]⟩
abbrev S1x128 : Shape := ⟨2, ![1, 128]⟩
abbrev S400000x1 : Shape := ⟨2, ![400000, 1]⟩
abbrev S400000x128 : Shape := ⟨2, ![400000, 128]⟩
abbrev S200000x256 : Shape := ⟨2, ![200000, 256]⟩
abbrev S1x256 : Shape := ⟨2, ![1, 256]⟩
abbrev S600000x128 : Shape := ⟨2, ![600000, 128]⟩
abbrev S600000 : Shape := ⟨1, ![600000]⟩

abbrev nBuf : Space → Nat
  | .hbm => 85
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S200000, .i32⟩
  | .hbm, ⟨2, _⟩ => ⟨S400000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S_, .i32⟩
  | .hbm, ⟨12, _⟩ => ⟨S200000, .i32⟩
  | .hbm, ⟨13, _⟩ => ⟨S200000, .i1⟩
  | .hbm, ⟨14, _⟩ => ⟨S_, .i32⟩
  | .hbm, ⟨15, _⟩ => ⟨S200000, .i32⟩
  | .hbm, ⟨16, _⟩ => ⟨S200000, .i32⟩
  | .hbm, ⟨17, _⟩ => ⟨S200000, .i32⟩
  | .hbm, ⟨18, _⟩ => ⟨S200000x1, .i32⟩
  | .hbm, ⟨19, _⟩ => ⟨S1, .i32⟩
  | .hbm, ⟨20, _⟩ => ⟨S_, .i32⟩
  | .hbm, ⟨21, _⟩ => ⟨S200000x1, .i32⟩
  | .hbm, ⟨22, _⟩ => ⟨S200000x1, .i1⟩
  | .hbm, ⟨23, _⟩ => ⟨S1x1, .i32⟩
  | .hbm, ⟨24, _⟩ => ⟨S200000x1, .i32⟩
  | .hbm, ⟨25, _⟩ => ⟨S200000x1, .i1⟩
  | .hbm, ⟨26, _⟩ => ⟨S200000x1, .i1⟩
  | .hbm, ⟨27, _⟩ => ⟨S_, .i1⟩
  | .hbm, ⟨28, _⟩ => ⟨S200000, .i1⟩
  | .hbm, ⟨29, _⟩ => ⟨S200000x128, .f32⟩
  | .hbm, ⟨30, _⟩ => ⟨S200000x128, .i1⟩
  | .hbm, ⟨31, _⟩ => ⟨S_, .f32⟩
  | .hbm, ⟨32, _⟩ => ⟨S200000x128, .f32⟩
  | .hbm, ⟨33, _⟩ => ⟨S200000x128, .f32⟩
  | .hbm, ⟨34, _⟩ => ⟨S200000x128, .f32⟩
  | .hbm, ⟨35, _⟩ => ⟨S1x128, .f32⟩
  | .hbm, ⟨36, _⟩ => ⟨S200000x128, .f32⟩
  | .hbm, ⟨37, _⟩ => ⟨S200000x128, .f32⟩
  | .hbm, ⟨38, _⟩ => ⟨S_, .f32⟩
  | .hbm, ⟨39, _⟩ => ⟨S200000x128, .f32⟩
  | .hbm, ⟨40, _⟩ => ⟨S200000x128, .f32⟩
  | .hbm, ⟨41, _⟩ => ⟨S200000x128, .f32⟩
  | .hbm, ⟨42, _⟩ => ⟨S1x128, .f32⟩
  | .hbm, ⟨43, _⟩ => ⟨S200000x128, .f32⟩
  | .hbm, ⟨44, _⟩ => ⟨S200000x128, .f32⟩
  | .hbm, ⟨45, _⟩ => ⟨S200000x128, .f32⟩
  | .hbm, ⟨46, _⟩ => ⟨S_, .i32⟩
  | .hbm, ⟨47, _⟩ => ⟨S400000, .i32⟩
  | .hbm, ⟨48, _⟩ => ⟨S400000, .i1⟩
  | .hbm, ⟨49, _⟩ => ⟨S_, .i32⟩
  | .hbm, ⟨50, _⟩ => ⟨S400000, .i32⟩
  | .hbm, ⟨51, _⟩ => ⟨S400000, .i32⟩
  | .hbm, ⟨52, _⟩ => ⟨S400000, .i32⟩
  | .hbm, ⟨53, _⟩ => ⟨S400000x1, .i32⟩
  | .hbm, ⟨54, _⟩ => ⟨S1, .i32⟩
  | .hbm, ⟨55, _⟩ => ⟨S_, .i32⟩
  | .hbm, ⟨56, _⟩ => ⟨S400000x1, .i32⟩
  | .hbm, ⟨57, _⟩ => ⟨S400000x1, .i1⟩
  | .hbm, ⟨58, _⟩ => ⟨S1x1, .i32⟩
  | .hbm, ⟨59, _⟩ => ⟨S400000x1, .i32⟩
  | .hbm, ⟨60, _⟩ => ⟨S400000x1, .i1⟩
  | .hbm, ⟨61, _⟩ => ⟨S400000x1, .i1⟩
  | .hbm, ⟨62, _⟩ => ⟨S_, .i1⟩
  | .hbm, ⟨63, _⟩ => ⟨S400000, .i1⟩
  | .hbm, ⟨64, _⟩ => ⟨S400000x128, .f32⟩
  | .hbm, ⟨65, _⟩ => ⟨S400000x128, .i1⟩
  | .hbm, ⟨66, _⟩ => ⟨S_, .f32⟩
  | .hbm, ⟨67, _⟩ => ⟨S400000x128, .f32⟩
  | .hbm, ⟨68, _⟩ => ⟨S400000x128, .f32⟩
  | .hbm, ⟨69, _⟩ => ⟨S200000x256, .f32⟩
  | .hbm, ⟨70, _⟩ => ⟨S200000x256, .f32⟩
  | .hbm, ⟨71, _⟩ => ⟨S1x256, .f32⟩
  | .hbm, ⟨72, _⟩ => ⟨S200000x256, .f32⟩
  | .hbm, ⟨73, _⟩ => ⟨S200000x256, .f32⟩
  | .hbm, ⟨74, _⟩ => ⟨S_, .f32⟩
  | .hbm, ⟨75, _⟩ => ⟨S200000x256, .f32⟩
  | .hbm, ⟨76, _⟩ => ⟨S200000x256, .f32⟩
  | .hbm, ⟨77, _⟩ => ⟨S200000x256, .f32⟩
  | .hbm, ⟨78, _⟩ => ⟨S1x256, .f32⟩
  | .hbm, ⟨79, _⟩ => ⟨S200000x256, .f32⟩
  | .hbm, ⟨80, _⟩ => ⟨S200000x256, .f32⟩
  | .hbm, ⟨81, _⟩ => ⟨S200000x256, .f32⟩
  | .hbm, ⟨82, _⟩ => ⟨S400000x128, .f32⟩
  | .hbm, ⟨83, _⟩ => ⟨S600000x128, .f32⟩
  | .hbm, ⟨84, _⟩ => ⟨S600000, .i32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_call1_cst : Ref sig .tc := ⟨.hbm, 38, rfl⟩
abbrev main_call1_v0 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_call2_c : Ref sig .tc := ⟨.hbm, 46, rfl⟩
abbrev main_call2_v0 : Ref sig .tc := ⟨.hbm, 47, rfl⟩
abbrev main_call2_v1 : Ref sig .tc := ⟨.hbm, 48, rfl⟩
abbrev main_call2_c_0 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_call2_v5 : Ref sig .tc := ⟨.hbm, 53, rfl⟩
abbrev main_call2_c_1 : Ref sig .tc := ⟨.hbm, 54, rfl⟩
abbrev main_call2_c_2 : Ref sig .tc := ⟨.hbm, 55, rfl⟩
abbrev main_call2_v6 : Ref sig .tc := ⟨.hbm, 56, rfl⟩
abbrev main_call2_v7 : Ref sig .tc := ⟨.hbm, 57, rfl⟩
abbrev main_call2_v8 : Ref sig .tc := ⟨.hbm, 58, rfl⟩
abbrev main_call2_v9 : Ref sig .tc := ⟨.hbm, 59, rfl⟩
abbrev main_call2_v10 : Ref sig .tc := ⟨.hbm, 60, rfl⟩
abbrev main_call2_v11 : Ref sig .tc := ⟨.hbm, 61, rfl⟩
abbrev main_call2_c_3 : Ref sig .tc := ⟨.hbm, 62, rfl⟩
abbrev main_call2_v12 : Ref sig .tc := ⟨.hbm, 63, rfl⟩
abbrev main_call2_v13 : Ref sig .tc := ⟨.hbm, 64, rfl⟩
abbrev main_call2_v14 : Ref sig .tc := ⟨.hbm, 65, rfl⟩
abbrev main_call2_cst : Ref sig .tc := ⟨.hbm, 66, rfl⟩
abbrev main_call2_v15 : Ref sig .tc := ⟨.hbm, 67, rfl⟩
abbrev main_v11 : Ref sig .tc := ⟨.hbm, 68, rfl⟩
abbrev main_v12 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_call3_cst : Ref sig .tc := ⟨.hbm, 74, rfl⟩
abbrev main_call3_v0 : Ref sig .tc := ⟨.hbm, 75, rfl⟩
abbrev main_v17 : Ref sig .tc := ⟨.hbm, 76, rfl⟩
abbrev main_v18 : Ref sig .tc := ⟨.hbm, 77, rfl⟩
abbrev main_v19 : Ref sig .tc := ⟨.hbm, 78, rfl⟩
abbrev main_v20 : Ref sig .tc := ⟨.hbm, 79, rfl⟩
abbrev main_v21 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩

abbrev nD : Nat := 1
abbrev τ : Topo := Topo.v7x

variable {F : FTy → Type} [FloatOps F]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  reducesTo_S200000x1_S200000_d1 : S200000x1.ReducesTo [1] S200000
  h_S_ : 0 < S_.numel
  bcast_S200000_S200000x128_0 : S200000.BroadcastsInDim S200000x128 (![0] : Fin 1 → Fin S200000x128.rank)
  bcast_S_S200000x128 : S_.BroadcastsInDim S200000x128 (![] : Fin 0 → Fin S200000x128.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1x1_S400000x1_0_1 : S1x1.BroadcastsInDim S400000x1 (![0, 1] : Fin 2 → Fin S400000x1.rank)
  reducesTo_S400000x1_S400000_d1 : S400000x1.ReducesTo [1] S400000
  bcast_S400000_S400000x128_0 : S400000.BroadcastsInDim S400000x128 (![0] : Fin 1 → Fin S400000x128.rank)
  bcast_S_S400000x128 : S_.BroadcastsInDim S400000x128 (![] : Fin 0 → Fin S400000x128.rank)
  shapeCasts_S400000x128_S200000x256 : S400000x128.ShapeCasts S200000x256
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  bcast_S_S200000x256 : S_.BroadcastsInDim S200000x256 (![] : Fin 0 → Fin S200000x256.rank)
  shapeCasts_S200000x256_S400000x128 : S200000x256.ShapeCasts S400000x128
  concatenates_S200000x128_S400000x128_S600000x128_d0 : Shape.Concatenates [S200000x128, S400000x128] S600000x128 0
  concatenates_S200000_S400000_S600000_d0 : Shape.Concatenates [S200000, S400000] S600000 0
  gather_S100000x128_S200000x1_S200000x128_1_0_n_n_0_1_1128_wf : GatherDims.WF S100000x128 S200000x1 S200000x128 [1] [0] [] [0] [] 1 ![1, 128]
  dot_S200000x128_S128x128_S200000x128_1_0_0_1_n_n_wf : DotDims.WF S200000x128 S128x128 S200000x128 [1] [0] [0] [1] [] []
  gather_S100000x128_S400000x1_S400000x128_1_0_n_n_0_1_1128_wf : GatherDims.WF S100000x128 S400000x1 S400000x128 [1] [0] [] [0] [] 1 ![1, 128]
  dot_S200000x256_S256x256_S200000x256_1_0_0_1_n_n_wf : DotDims.WF S200000x256 S256x256 S200000x256 [1] [0] [0] [1] [] []

variable [Facts₀]

def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def dot_S200000x256_S256x256_S200000x256_1_0_0_1_n_n : DotDims S200000x256 S256x256 S200000x256 where
  lhsContracting := [1]
  rhsContracting := [0]
  lhsNonContracting := [0]
  rhsNonContracting := [1]
  lhsBatch := []
  rhsBatch := []
  wf := dot_S200000x256_S256x256_S200000x256_1_0_0_1_n_n_wf

class Facts : Prop extends Facts₀ where

variable [Facts]
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

def resMlp {n : ℕ} (W1 : Fin n → Fin n → EReal) (b1 : Fin n → EReal) (W2 : Fin n → Fin n → EReal) (b2 : Fin n → EReal)
    (v : Fin n → EReal) (j : Fin n) : EReal :=
  v j + ((∑ k : Fin n, max ((∑ l : Fin n, v l * W1 l k) + b1 k) 0 * W2 k j) + b2 j)

theorem resMlp_assoc {n : ℕ} (W1 : Fin n → Fin n → EReal) (b1 : Fin n → EReal) (W2 : Fin n → Fin n → EReal) (b2 : Fin n → EReal)
    (v : Fin n → EReal) (j : Fin n) :
    (v j + ∑ k : Fin n, max ((∑ l : Fin n, v l * W1 l k) + b1 k) 0 * W2 k j) + b2 j = resMlp W1 b1 W2 b2 v j :=
  add_assoc _ _ _

def node (w : BitVec 32) : Fin 100000 := ⟨min w.toNat 99999, by omega⟩

def unaryRow (x : Fin 100000 → Fin 128 → EReal)
    (uW1 : Fin 128 → Fin 128 → EReal) (ub1 : Fin 128 → EReal) (uW2 : Fin 128 → Fin 128 → EReal) (ub2 : Fin 128 → EReal)
    (p : Fin 100000) (c : Fin 128) : EReal :=
  resMlp uW1 ub1 uW2 ub2 (x p) c

def pairRow (x : Fin 100000 → Fin 128 → EReal) (ib : Fin 400000 → BitVec 32) (P : Fin 200000) (q : Fin 256) : EReal :=
  x (node (ib ⟨2 * P.val + q.val / 128, by have := P.isLt; have := q.isLt; omega⟩)) ⟨q.val % 128, Nat.mod_lt _ (by decide)⟩

def out (x : Fin 100000 → Fin 128 → EReal) (iu : Fin 200000 → BitVec 32) (ib : Fin 400000 → BitVec 32)
    (uW1 : Fin 128 → Fin 128 → EReal) (ub1 : Fin 128 → EReal) (uW2 : Fin 128 → Fin 128 → EReal) (ub2 : Fin 128 → EReal)
    (bW1 : Fin 256 → Fin 256 → EReal) (bb1 : Fin 256 → EReal) (bW2 : Fin 256 → Fin 256 → EReal) (bb2 : Fin 256 → EReal)
    (r : Fin 600000) (c : Fin 128) : EReal :=
  if h : r.val < 200000 then unaryRow x uW1 ub1 uW2 ub2 (node (iu ⟨r.val, h⟩)) c
  else
    resMlp bW1 bb1 bW2 bb2 (pairRow x ib ⟨(r.val - 200000) / 2, by have := r.isLt; omega⟩)
      ⟨((r.val - 200000) % 2) * 128 + c.val, by have := c.isLt; have := Nat.mod_lt (r.val - 200000) (show 0 < 2 by decide); omega⟩

def outIdx (iu : Fin 200000 → BitVec 32) (ib : Fin 400000 → BitVec 32) (r : Fin 600000) : BitVec 32 :=
  if h : r.val < 200000 then iu ⟨r.val, h⟩ else ib ⟨r.val - 200000, by have := r.isLt; omega⟩

abbrev SX : Shape := ⟨2, ![100000, 128]⟩
abbrev SIu : Shape := ⟨1, ![200000]⟩
abbrev SIb : Shape := ⟨1, ![400000]⟩
abbrev SWu : Shape := ⟨2, ![128, 128]⟩
abbrev SBu : Shape := ⟨1, ![128]⟩
abbrev SWb : Shape := ⟨2, ![256, 256]⟩
abbrev SBb : Shape := ⟨1, ![256]⟩
abbrev SOut : Shape := ⟨2, ![600000, 128]⟩
abbrev SOutIdx : Shape := ⟨1, ![600000]⟩

def outArr (x : SX.Idx → EReal) (iu : SIu.Idx → BitVec 32) (ib : SIb.Idx → BitVec 32)
    (uW1 : SWu.Idx → EReal) (ub1 : SBu.Idx → EReal) (uW2 : SWu.Idx → EReal) (ub2 : SBu.Idx → EReal)
    (bW1 : SWb.Idx → EReal) (bb1 : SBb.Idx → EReal) (bW2 : SWb.Idx → EReal) (bb2 : SBb.Idx → EReal) : SOut.Idx → EReal :=
  fun i => out (fun p q => x (ix2 p q)) (fun r => iu (ix1 r)) (fun r => ib (ix1 r))
    (fun l k => uW1 (ix2 l k)) (fun k => ub1 (ix1 k)) (fun k j => uW2 (ix2 k j)) (fun j => ub2 (ix1 j))
    (fun l k => bW1 (ix2 l k)) (fun k => bb1 (ix1 k)) (fun k j => bW2 (ix2 k j)) (fun j => bb2 (ix1 j)) (i 0) (i 1)

def outIdxArr (iu : SIu.Idx → BitVec 32) (ib : SIb.Idx → BitVec 32) : SOutIdx.Idx → BitVec 32 :=
  fun i => outIdx (fun r => iu (ix1 r)) (fun r => ib (ix1 r)) (i 0)

end Cert.Spec

end
-- ==== Proof.PreDecode.lean ====
import proofs.«214604_g3212635537896_cont_8to1_b_1509_14_alg».proof.Pre_input_domain
import proofs.«214604_g3212635537896_cont_8to1_b_1509_14_alg».proof.Proof.Gen.Pre_input_domain
import Idealize.ShloMosaic.Lib.StableHlo.Predicate
import Idealize.ShloMosaic.Lib.ReduceAll

namespace Cert.PreDecode

open Idealize.ShloMosaic Cert.Pre_input_domain

variable {F : FTy → Type} [FloatOps F]

instance subsingleton_scalar_idx : Subsingleton S_.Idx := ⟨fun a b => funext fun d => d.elim0⟩

theorem toNat_lt_of_signed_range (w : BitVec 32) (h0 : (0#32).toInt ≤ w.toInt)
    (h1 : w.toInt ≤ (99999#32).toInt) : w.toNat < 100000 := by
  have e0 : (0#32 : BitVec 32).toInt = 0 := by decide
  have e1 : (99999#32 : BitVec 32).toInt = 99999 := by decide
  rw [e0] at h0
  rw [e1] at h1
  rw [BitVec.toInt_eq_toNat_cond] at h0 h1
  have hw := w.isLt
  split at h0 <;> omega

theorem toNat_lt_of_test (w : BitVec 32)
    (h : IntOp.andi (IntOp.cmpi .sge w 0#32) (IntOp.cmpi .sle w 99999#32) = 1#1) : w.toNat < 100000 := by
  obtain ⟨hge, hle⟩ := IntOp.andi_eq_one.1 h
  exact toNat_lt_of_signed_range w (IntOp.cmpi_sge.1 hge) (IntOp.cmpi_sle.1 hle)

theorem idx_ranges [Cert.Pre_input_domain.Facts]
    (a0 : FVec F S100000x128 .f32) (a1 : IVec S200000 32) (a2 : IVec S400000 32)
    (a3 : FVec F S128x128 .f32) (a4 : FVec F S128 .f32) (a5 : FVec F S128x128 .f32) (a6 : FVec F S128 .f32)
    (a7 : FVec F S256x256 .f32) (a8 : FVec F S256 .f32) (a9 : FVec F S256x256 .f32) (a10 : FVec F S256 .f32)
    (h : Cert.Pre_input_domain.fn (F := F) a0 a1 a2 a3 a4 a5 a6 a7 a8 a9 a10 = fun _ => 1#1) :
    (∀ i, (a1 i).toNat < 100000) ∧ (∀ i, (a2 i).toNat < 100000) := by
  have h0 := congrFun h (fun d => d.elim0)
  dsimp only [fn, fn_part1, fn_part2, fn_part3] at h0

  obtain ⟨h50, h56⟩ := IntOp.andi_eq_one.1 h0
  obtain ⟨-, h49⟩ := IntOp.andi_eq_one.1 h50
  refine ⟨fun i => ?_, fun i => ?_⟩
  · have e := Host.reduce_andi_all _ _ _ _ _ h49 i
    exact toNat_lt_of_test _ e
  · have e := Host.reduce_andi_all _ _ _ _ _ h56 i
    exact toNat_lt_of_test _ e

end Cert.PreDecode
-- ==== Proof.RefOps.lean ====
import proofs.«214604_g3212635537896_cont_8to1_b_1509_14_alg».proof.Defs
import proofs.«214604_g3212635537896_cont_8to1_b_1509_14_alg».proof.Proof.Gen.ReferenceIdeal
import Idealize.ShloMosaic.Lib.StableHlo.Run

noncomputable section

namespace Cert.RefValue

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F] [Cert.ReferenceIdeal.Facts]

abbrev opsHead : List (HloOp τ sig (Elt F)) :=
  [ TRef.nullary main_call0.c (constantI S_ 32 0#32),
    TRef.unary main_call0.c main_call0.v0 (broadcastInDim S200000 ![] bcast_S_S200000),
    TRef.binary (.of main_arg1 : TRef sig ⟨S200000, .i32⟩) main_call0.v0 main_call0.v1 (cmpi .slt),
    TRef.nullary main_call0.c_0 (constantI S_ 32 100000#32),
    TRef.unary main_call0.c_0 main_call0.v2 (broadcastInDim S200000 ![] bcast_S_S200000),
    TRef.binary (.of main_arg1 : TRef sig ⟨S200000, .i32⟩) main_call0.v2 main_call0.v3 addi,
    TRef.ternary main_call0.v1 main_call0.v3 (.of main_arg1 : TRef sig ⟨S200000, .i32⟩) main_call0.call0.v0 select,
    TRef.unary main_call0.call0.v0 main_call0.v5 (broadcastInDim S200000x1 ![0] bcast_S200000_S200000x1_0),
    TRef.nullary main_call0.c_1 (constantI S1 32 99999#32),
    TRef.nullary main_call0.c_2 (constantI S_ 32 0#32),
    TRef.unary main_call0.c_2 main_call0.v6 (broadcastInDim S200000x1 ![] bcast_S_S200000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S200000x1 ![0, 1] bcast_S1x1_S200000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S200000x1_S200000_d1 h_S_),
    TRef.binary (.of main_arg0 : TRef sig ⟨S100000x128, .f32⟩) main_call0.v5 main_call0.v13 (fun x i => Host.gather gather_S100000x128_S200000x1_S200000x128_1_0_n_n_0_1_1128 x i),
    TRef.unary main_call0.v12 main_call0.v14 (broadcastInDim S200000x128 ![0] bcast_S200000_S200000x128_0),
    TRef.nullary main_call0.cst (constant S_ .f32 0x7FC00000#32),
    TRef.unary main_call0.cst main_call0.v15 (broadcastInDim S200000x128 ![] bcast_S_S200000x128),
    TRef.ternary main_call0.v14 main_call0.v13 main_call0.v15 main_call0.v16 select,
    binary main_v0 main_arg3 main_v1 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    unary main_arg4 main_v2 (broadcastInDim S1x128 ![1] bcast_S128_S1x128_1 : (⟨S128, .f32⟩ : BufTy).Contents (Elt F) → (⟨S1x128, .f32⟩ : BufTy).Contents (Elt F)),
    unary main_v2 main_v3 (broadcastInDim S200000x128 ![0, 1] bcast_S1x128_S200000x128_0_1 : (⟨S1x128, .f32⟩ : BufTy).Contents (Elt F) → (⟨S200000x128, .f32⟩ : BufTy).Contents (Elt F)),
    binary main_v1 main_v3 main_v4 (addf : (⟨S200000x128, .f32⟩ : BufTy).Contents (Elt F) → (⟨S200000x128, .f32⟩ : BufTy).Contents (Elt F) → (⟨S200000x128, .f32⟩ : BufTy).Contents (Elt F)),
    TRef.nullary main_call1.cst (constant S_ .f32 0x00000000#32),
    TRef.unary main_call1.cst main_call1.v0 (broadcastInDim S200000x128 ![] bcast_S_S200000x128),
    TRef.binary (.of main_v4 : TRef sig ⟨S200000x128, .f32⟩) main_call1.v0 main_call1.v1 maximumf,
    binary main_v5 main_arg5 main_v6 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    unary main_arg6 main_v7 (broadcastInDim S1x128 ![1] bcast_S128_S1x128_1 : (⟨S128, .f32⟩ : BufTy).Contents (Elt F) → (⟨S1x128, .f32⟩ : BufTy).Contents (Elt F)),
    unary main_v7 main_v8 (broadcastInDim S200000x128 ![0, 1] bcast_S1x128_S200000x128_0_1 : (⟨S1x128, .f32⟩ : BufTy).Contents (Elt F) → (⟨S200000x128, .f32⟩ : BufTy).Contents (Elt F)),
    binary main_v6 main_v8 main_v9 (addf : (⟨S200000x128, .f32⟩ : BufTy).Contents (Elt F) → (⟨S200000x128, .f32⟩ : BufTy).Contents (Elt F) → (⟨S200000x128, .f32⟩ : BufTy).Contents (Elt F)),
    binary main_v0 main_v9 main_v10 (addf : (⟨S200000x128, .f32⟩ : BufTy).Contents (Elt F) → (⟨S200000x128, .f32⟩ : BufTy).Contents (Elt F) → (⟨S200000x128, .f32⟩ : BufTy).Contents (Elt F)),
    TRef.nullary main_call2.c (constantI S_ 32 0#32),
    TRef.unary main_call2.c main_call2.v0 (broadcastInDim S400000 ![] bcast_S_S400000),
    TRef.binary (.of main_arg2 : TRef sig ⟨S400000, .i32⟩) main_call2.v0 main_call2.v1 (cmpi .slt),
    TRef.nullary main_call2.c_0 (constantI S_ 32 100000#32),
    TRef.unary main_call2.c_0 main_call2.v2 (broadcastInDim S400000 ![] bcast_S_S400000),
    TRef.binary (.of main_arg2 : TRef sig ⟨S400000, .i32⟩) main_call2.v2 main_call2.v3 addi,
    TRef.ternary main_call2.v1 main_call2.v3 (.of main_arg2 : TRef sig ⟨S400000, .i32⟩) main_call2.call0.v0 select,
    TRef.unary main_call2.call0.v0 main_call2.v5 (broadcastInDim S400000x1 ![0] bcast_S400000_S400000x1_0),
    TRef.nullary main_call2.c_1 (constantI S1 32 99999#32),
    TRef.nullary main_call2.c_2 (constantI S_ 32 0#32),
    TRef.unary main_call2.c_2 main_call2.v6 (broadcastInDim S400000x1 ![] bcast_S_S400000x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S400000x1 ![0, 1] bcast_S1x1_S400000x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S400000x1_S400000_d1 h_S_),
    TRef.binary (.of main_arg0 : TRef sig ⟨S100000x128, .f32⟩) main_call2.v5 main_call2.v13 (fun x i => Host.gather gather_S100000x128_S400000x1_S400000x128_1_0_n_n_0_1_1128 x i),
    TRef.unary main_call2.v12 main_call2.v14 (broadcastInDim S400000x128 ![0] bcast_S400000_S400000x128_0),
    TRef.nullary main_call2.cst (constant S_ .f32 0x7FC00000#32),
    TRef.unary main_call2.cst main_call2.v15 (broadcastInDim S400000x128 ![] bcast_S_S400000x128),
    TRef.ternary main_call2.v14 main_call2.v13 main_call2.v15 main_call2.v16 select,
    reshape main_v11 main_v12 rfl shapeCasts_S400000x128_S200000x256,
    binary main_v12 main_arg7 main_v13 ((fun l r => Host.dotGeneral dot_S200000x256_S256x256_S200000x256_1_0_0_1_n_n none l r) : (⟨S200000x256, .f32⟩ : BufTy).Contents (Elt F) → (⟨S256x256, .f32⟩ : BufTy).Contents (Elt F) → (⟨S200000x256, .f32⟩ : BufTy).Contents (Elt F)),
    unary main_arg8 main_v14 (broadcastInDim S1x256 ![1] bcast_S256_S1x256_1 : (⟨S256, .f32⟩ : BufTy).Contents (Elt F) → (⟨S1x256, .f32⟩ : BufTy).Contents (Elt F)),
    unary main_v14 main_v15 (broadcastInDim S200000x256 ![0, 1] bcast_S1x256_S200000x256_0_1 : (⟨S1x256, .f32⟩ : BufTy).Contents (Elt F) → (⟨S200000x256, .f32⟩ : BufTy).Contents (Elt F)),
    binary main_v13 main_v15 main_v16 (addf : (⟨S200000x256, .f32⟩ : BufTy).Contents (Elt F) → (⟨S200000x256, .f32⟩ : BufTy).Contents (Elt F) → (⟨S200000x256, .f32⟩ : BufTy).Contents (Elt F)),
    TRef.nullary main_call3.cst (constant S_ .f32 0x00000000#32),
    TRef.unary main_call3.cst main_call3.v0 (broadcastInDim S200000x256 ![] bcast_S_S200000x256),
    TRef.binary (.of main_v16 : TRef sig ⟨S200000x256, .f32⟩) main_call3.v0 main_call3.v1 maximumf,
    binary main_v17 main_arg9 main_v18 ((fun l r => Host.dotGeneral dot_S200000x256_S256x256_S200000x256_1_0_0_1_n_n none l r) : (⟨S200000x256, .f32⟩ : BufTy).Contents (Elt F) → (⟨S256x256, .f32⟩ : BufTy).Contents (Elt F) → (⟨S200000x256, .f32⟩ : BufTy).Contents (Elt F)),
    unary main_arg10 main_v19 (broadcastInDim S1x256 ![1] bcast_S256_S1x256_1 : (⟨S256, .f32⟩ : BufTy).Contents (Elt F) → (⟨S1x256, .f32⟩ : BufTy).Contents (Elt F)),
    unary main_v19 main_v20 (broadcastInDim S200000x256 ![0, 1] bcast_S1x256_S200000x256_0_1 : (⟨S1x256, .f32⟩ : BufTy).Contents (Elt F) → (⟨S200000x256, .f32⟩ : BufTy).Contents (Elt F)),
    binary main_v18 main_v20 main_v21 (addf : (⟨S200000x256, .f32⟩ : BufTy).Contents (Elt F) → (⟨S200000x256, .f32⟩ : BufTy).Contents (Elt F) → (⟨S200000x256, .f32⟩ : BufTy).Contents (Elt F)),
    binary main_v12 main_v21 main_v22 (addf : (⟨S200000x256, .f32⟩ : BufTy).Contents (Elt F) → (⟨S200000x256, .f32⟩ : BufTy).Contents (Elt F) → (⟨S200000x256, .f32⟩ : BufTy).Contents (Elt F)),
    reshape main_v22 main_v23 rfl shapeCasts_S200000x256_S400000x128 ]

abbrev opsTail : List (HloOp τ sig (Elt F)) :=
  [ binary main_v10 main_v23 main_v24 ((fun a b => concatenate S600000x128 0 [⟨S200000x128, a⟩, ⟨S400000x128, b⟩] concatenates_S200000x128_S400000x128_S600000x128_d0) : (⟨S200000x128, .f32⟩ : BufTy).Contents (Elt F) → (⟨S400000x128, .f32⟩ : BufTy).Contents (Elt F) → (⟨S600000x128, .f32⟩ : BufTy).Contents (Elt F)),
    binary main_arg1 main_arg2 main_v25 ((fun a b => concatenate S600000 0 [⟨S200000, a⟩, ⟨S400000, b⟩] concatenates_S200000_S400000_S600000_d0) : (⟨S200000, .i32⟩ : BufTy).Contents (Elt F) → (⟨S400000, .i32⟩ : BufTy).Contents (Elt F) → (⟨S600000, .i32⟩ : BufTy).Contents (Elt F)) ]

abbrev ops : List (HloOp τ sig (Elt F)) := opsHead ++ opsTail

set_option maxRecDepth 8192 in

theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr
    ⟨⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., reshape_bufs_sub ..⟩,
     ⟨binary_bufs_sub .., binary_bufs_sub ..⟩⟩

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefValue

end
-- ==== Proof.RefTerm.lean ====
import proofs.«214604_g3212635537896_cont_8to1_b_1509_14_alg».proof.ReferenceIdeal
import proofs.«214604_g3212635537896_cont_8to1_b_1509_14_alg».proof.Proof.Gen.ReferenceIdeal
import Idealize.ShloMosaic.PureOps.Ideal

noncomputable section

namespace Cert.RefValue

open Idealize.ShloMosaic
open Cert.ReferenceIdeal
open Cert.ReferenceIdeal.Facts₀ Cert.ReferenceIdeal.Facts

variable [Cert.ReferenceIdeal.Facts]

def takeIdxU (a1 : IVec S200000 32) : IVec S200000x1 32 :=
  broadcastInDim S200000x1 ![0] bcast_S200000_S200000x1_0
    (select (cmpi .slt a1 (broadcastInDim S200000 ![] bcast_S_S200000 (constantI S_ 32 0#32)))
      (addi a1 (broadcastInDim S200000 ![] bcast_S_S200000 (constantI S_ 32 100000#32))) a1)

def takeMaskU (a1 : IVec S200000 32) : IVec S200000 1 :=
  Host.reduce IntOp.andi
    (andi (cmpi .sge (takeIdxU a1) (broadcastInDim S200000x1 ![] bcast_S_S200000x1 (constantI S_ 32 0#32)))
      (cmpi .sle (takeIdxU a1)
        (broadcastInDim S200000x1 ![0, 1] bcast_S1x1_S200000x1_0_1
          (broadcastInDim S1x1 ![1] bcast_S1_S1x1_1 (constantI S1 32 99999#32)))))
    (constantI S_ 1 1#1) reducesTo_S200000x1_S200000_d1 h_S_

def takeU (a0 : FVec Ideal S100000x128 .f32) (a1 : IVec S200000 32) : FVec Ideal S200000x128 .f32 :=
  select (broadcastInDim S200000x128 ![0] bcast_S200000_S200000x128_0 (takeMaskU a1))
    (Host.gather gather_S100000x128_S200000x1_S200000x128_1_0_n_n_0_1_1128 a0 (takeIdxU a1))
    (broadcastInDim S200000x128 ![] bcast_S_S200000x128 (constant (F := Ideal) S_ .f32 0x7FC00000#32))

def hidU (a0 : FVec Ideal S100000x128 .f32) (a1 : IVec S200000 32) (a3 : FVec Ideal S128x128 .f32)
    (a4 : FVec Ideal S128 .f32) : FVec Ideal S200000x128 .f32 :=
  maximumf
    (addf (Host.dotGeneral dot_S200000x128_S128x128_S200000x128_1_0_0_1_n_n none (takeU a0 a1) a3)
      (broadcastInDim S200000x128 ![0, 1] bcast_S1x128_S200000x128_0_1 (broadcastInDim S1x128 ![1] bcast_S128_S1x128_1 a4)))
    (broadcastInDim S200000x128 ![] bcast_S_S200000x128 (constant (F := Ideal) S_ .f32 0x00000000#32))

def mlpU (a0 : FVec Ideal S100000x128 .f32) (a1 : IVec S200000 32) (a3 : FVec Ideal S128x128 .f32)
    (a4 : FVec Ideal S128 .f32) (a5 : FVec Ideal S128x128 .f32) (a6 : FVec Ideal S128 .f32) : FVec Ideal S200000x128 .f32 :=
  addf (takeU a0 a1)
    (addf (Host.dotGeneral dot_S200000x128_S128x128_S200000x128_1_0_0_1_n_n none (hidU a0 a1 a3 a4) a5)
      (broadcastInDim S200000x128 ![0, 1] bcast_S1x128_S200000x128_0_1 (broadcastInDim S1x128 ![1] bcast_S128_S1x128_1 a6)))

def takeIdxB (a2 : IVec S400000 32) : IVec S400000x1 32 :=
  broadcastInDim S400000x1 ![0] bcast_S400000_S400000x1_0
    (select (cmpi .slt a2 (broadcastInDim S400000 ![] bcast_S_S400000 (constantI S_ 32 0#32)))
      (addi a2 (broadcastInDim S400000 ![] bcast_S_S400000 (constantI S_ 32 100000#32))) a2)

def takeMaskB (a2 : IVec S400000 32) : IVec S400000 1 :=
  Host.reduce IntOp.andi
    (andi (cmpi .sge (takeIdxB a2) (broadcastInDim S400000x1 ![] bcast_S_S400000x1 (constantI S_ 32 0#32)))
      (cmpi .sle (takeIdxB a2)
        (broadcastInDim S400000x1 ![0, 1] bcast_S1x1_S400000x1_0_1
          (broadcastInDim S1x1 ![1] bcast_S1_S1x1_1 (constantI S1 32 99999#32)))))
    (constantI S_ 1 1#1) reducesTo_S400000x1_S400000_d1 h_S_

def takeB (a0 : FVec Ideal S100000x128 .f32) (a2 : IVec S400000 32) : FVec Ideal S400000x128 .f32 :=
  select (broadcastInDim S400000x128 ![0] bcast_S400000_S400000x128_0 (takeMaskB a2))
    (Host.gather gather_S100000x128_S400000x1_S400000x128_1_0_n_n_0_1_1128 a0 (takeIdxB a2))
    (broadcastInDim S400000x128 ![] bcast_S_S400000x128 (constant (F := Ideal) S_ .f32 0x7FC00000#32))

def pairB (a0 : FVec Ideal S100000x128 .f32) (a2 : IVec S400000 32) : FVec Ideal S200000x256 .f32 :=
  shapeCast S200000x256 (takeB a0 a2) shapeCasts_S400000x128_S200000x256

def hidB (a0 : FVec Ideal S100000x128 .f32) (a2 : IVec S400000 32) (a7 : FVec Ideal S256x256 .f32)
    (a8 : FVec Ideal S256 .f32) : FVec Ideal S200000x256 .f32 :=
  maximumf
    (addf (Host.dotGeneral dot_S200000x256_S256x256_S200000x256_1_0_0_1_n_n none (pairB a0 a2) a7)
      (broadcastInDim S200000x256 ![0, 1] bcast_S1x256_S200000x256_0_1 (broadcastInDim S1x256 ![1] bcast_S256_S1x256_1 a8)))
    (broadcastInDim S200000x256 ![] bcast_S_S200000x256 (constant (F := Ideal) S_ .f32 0x00000000#32))

def mlpB (a0 : FVec Ideal S100000x128 .f32) (a2 : IVec S400000 32) (a7 : FVec Ideal S256x256 .f32)
    (a8 : FVec Ideal S256 .f32) (a9 : FVec Ideal S256x256 .f32) (a10 : FVec Ideal S256 .f32) : FVec Ideal S200000x256 .f32 :=
  addf (pairB a0 a2)
    (addf (Host.dotGeneral dot_S200000x256_S256x256_S200000x256_1_0_0_1_n_n none (hidB a0 a2 a7 a8) a9)
      (broadcastInDim S200000x256 ![0, 1] bcast_S1x256_S200000x256_0_1 (broadcastInDim S1x256 ![1] bcast_S256_S1x256_1 a10)))

def unpairB (a0 : FVec Ideal S100000x128 .f32) (a2 : IVec S400000 32) (a7 : FVec Ideal S256x256 .f32)
    (a8 : FVec Ideal S256 .f32) (a9 : FVec Ideal S256x256 .f32) (a10 : FVec Ideal S256 .f32) : FVec Ideal S400000x128 .f32 :=
  shapeCast S400000x128 (mlpB a0 a2 a7 a8 a9 a10) shapeCasts_S200000x256_S400000x128

def res0 (a0 : FVec Ideal S100000x128 .f32) (a1 : IVec S200000 32) (a2 : IVec S400000 32)
    (a3 : FVec Ideal S128x128 .f32) (a4 : FVec Ideal S128 .f32) (a5 : FVec Ideal S128x128 .f32) (a6 : FVec Ideal S128 .f32)
    (a7 : FVec Ideal S256x256 .f32) (a8 : FVec Ideal S256 .f32) (a9 : FVec Ideal S256x256 .f32) (a10 : FVec Ideal S256 .f32) :
    FVec Ideal S600000x128 .f32 :=
  concatenate S600000x128 0 [⟨S200000x128, mlpU a0 a1 a3 a4 a5 a6⟩, ⟨S400000x128, unpairB a0 a2 a7 a8 a9 a10⟩]
    concatenates_S200000x128_S400000x128_S600000x128_d0

def res1 (a1 : IVec S200000 32) (a2 : IVec S400000 32) : IVec S600000 32 :=
  concatenate S600000 0 [⟨S200000, a1⟩, ⟨S400000, a2⟩] concatenates_S200000_S400000_S600000_d0

end Cert.RefValue

end
-- ==== Proof.RefRun.lean ====
import proofs.«214604_g3212635537896_cont_8to1_b_1509_14_alg».proof.Defs
import proofs.«214604_g3212635537896_cont_8to1_b_1509_14_alg».proof.Proof.Gen.ReferenceIdeal
import proofs.«214604_g3212635537896_cont_8to1_b_1509_14_alg».proof.Proof.RefOps
import proofs.«214604_g3212635537896_cont_8to1_b_1509_14_alg».proof.Proof.RefTerm
import Idealize.ShloMosaic.Lib.StableHlo.Run

noncomputable section

namespace Cert.RefValue

open Cert.ReferenceIdeal Cert.ReferenceIdeal.Facts₀ Cert.ReferenceIdeal.Facts
open Idealize.ShloMosaic Idealize.ShloMosaic.TcCoe Idealize.SL.Sem Idealize.ShloMosaic.StableHlo

variable [Cert.ReferenceIdeal.Facts]

theorem after_two_lines {Val : EltTy → Type} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_two_lines l₁ l₂]

theorem head_v10 (V : Valuation τ sig (Elt Ideal)) :
    after (opsHead (F := Ideal)) V (main_v10 : DevRef τ sig)
      = mlpU (V (main_arg0 : DevRef τ sig)) (V (main_arg1 : DevRef τ sig)) (V (main_arg3 : DevRef τ sig)) (V (main_arg4 : DevRef τ sig)) (V (main_arg5 : DevRef τ sig)) (V (main_arg6 : DevRef τ sig)) := by
  after_results_simp
  simp only [cast_cast, cast_eq]
  rfl

theorem head_v23 (V : Valuation τ sig (Elt Ideal)) :
    after (opsHead (F := Ideal)) V (main_v23 : DevRef τ sig)
      = unpairB (V (main_arg0 : DevRef τ sig)) (V (main_arg2 : DevRef τ sig)) (V (main_arg7 : DevRef τ sig)) (V (main_arg8 : DevRef τ sig)) (V (main_arg9 : DevRef τ sig)) (V (main_arg10 : DevRef τ sig)) := by
  after_results_simp
  simp only [cast_cast, cast_eq]
  rfl

theorem head_arg0 (V : Valuation τ sig (Elt Ideal)) :
    after (opsHead (F := Ideal)) V (main_arg0 : DevRef τ sig) = V (main_arg0 : DevRef τ sig) := by
  after_results_simp

theorem head_arg1 (V : Valuation τ sig (Elt Ideal)) :
    after (opsHead (F := Ideal)) V (main_arg1 : DevRef τ sig) = V (main_arg1 : DevRef τ sig) := by
  after_results_simp

theorem head_arg2 (V : Valuation τ sig (Elt Ideal)) :
    after (opsHead (F := Ideal)) V (main_arg2 : DevRef τ sig) = V (main_arg2 : DevRef τ sig) := by
  after_results_simp

theorem head_arg3 (V : Valuation τ sig (Elt Ideal)) :
    after (opsHead (F := Ideal)) V (main_arg3 : DevRef τ sig) = V (main_arg3 : DevRef τ sig) := by
  after_results_simp

theorem head_arg4 (V : Valuation τ sig (Elt Ideal)) :
    after (opsHead (F := Ideal)) V (main_arg4 : DevRef τ sig) = V (main_arg4 : DevRef τ sig) := by
  after_results_simp

theorem head_arg5 (V : Valuation τ sig (Elt Ideal)) :
    after (opsHead (F := Ideal)) V (main_arg5 : DevRef τ sig) = V (main_arg5 : DevRef τ sig) := by
  after_results_simp

theorem head_arg6 (V : Valuation τ sig (Elt Ideal)) :
    after (opsHead (F := Ideal)) V (main_arg6 : DevRef τ sig) = V (main_arg6 : DevRef τ sig) := by
  after_results_simp

theorem head_arg7 (V : Valuation τ sig (Elt Ideal)) :
    after (opsHead (F := Ideal)) V (main_arg7 : DevRef τ sig) = V (main_arg7 : DevRef τ sig) := by
  after_results_simp

theorem head_arg8 (V : Valuation τ sig (Elt Ideal)) :
    after (opsHead (F := Ideal)) V (main_arg8 : DevRef τ sig) = V (main_arg8 : DevRef τ sig) := by
  after_results_simp

theorem head_arg9 (V : Valuation τ sig (Elt Ideal)) :
    after (opsHead (F := Ideal)) V (main_arg9 : DevRef τ sig) = V (main_arg9 : DevRef τ sig) := by
  after_results_simp

theorem head_arg10 (V : Valuation τ sig (Elt Ideal)) :
    after (opsHead (F := Ideal)) V (main_arg10 : DevRef τ sig) = V (main_arg10 : DevRef τ sig) := by
  after_results_simp

theorem tail_v24 (W : Valuation τ sig (Elt Ideal)) :
    after (opsTail (F := Ideal)) W (main_v24 : DevRef τ sig)
      = concatenate S600000x128 0 [⟨S200000x128, (W (main_v10 : DevRef τ sig))⟩, ⟨S400000x128, (W (main_v23 : DevRef τ sig))⟩]
          concatenates_S200000x128_S400000x128_S600000x128_d0 := by
  after_results

theorem tail_v25 (W : Valuation τ sig (Elt Ideal)) :
    after (opsTail (F := Ideal)) W (main_v25 : DevRef τ sig)
      = concatenate S600000 0 [⟨S200000, (W (main_arg1 : DevRef τ sig))⟩, ⟨S400000, (W (main_arg2 : DevRef τ sig))⟩]
          concatenates_S200000_S400000_S600000_d0 := by
  after_results

theorem tail_arg0 (W : Valuation τ sig (Elt Ideal)) :
    after (opsTail (F := Ideal)) W (main_arg0 : DevRef τ sig) = W (main_arg0 : DevRef τ sig) := by
  after_results

theorem tail_arg1 (W : Valuation τ sig (Elt Ideal)) :
    after (opsTail (F := Ideal)) W (main_arg1 : DevRef τ sig) = W (main_arg1 : DevRef τ sig) := by
  after_results

theorem tail_arg2 (W : Valuation τ sig (Elt Ideal)) :
    after (opsTail (F := Ideal)) W (main_arg2 : DevRef τ sig) = W (main_arg2 : DevRef τ sig) := by
  after_results

theorem tail_arg3 (W : Valuation τ sig (Elt Ideal)) :
    after (opsTail (F := Ideal)) W (main_arg3 : DevRef τ sig) = W (main_arg3 : DevRef τ sig) := by
  after_results

theorem tail_arg4 (W : Valuation τ sig (Elt Ideal)) :
    after (opsTail (F := Ideal)) W (main_arg4 : DevRef τ sig) = W (main_arg4 : DevRef τ sig) := by
  after_results

theorem tail_arg5 (W : Valuation τ sig (Elt Ideal)) :
    after (opsTail (F := Ideal)) W (main_arg5 : DevRef τ sig) = W (main_arg5 : DevRef τ sig) := by
  after_results

theorem tail_arg6 (W : Valuation τ sig (Elt Ideal)) :
    after (opsTail (F := Ideal)) W (main_arg6 : DevRef τ sig) = W (main_arg6 : DevRef τ sig) := by
  after_results

theorem tail_arg7 (W : Valuation τ sig (Elt Ideal)) :
    after (opsTail (F := Ideal)) W (main_arg7 : DevRef τ sig) = W (main_arg7 : DevRef τ sig) := by
  after_results

theorem tail_arg8 (W : Valuation τ sig (Elt Ideal)) :
    after (opsTail (F := Ideal)) W (main_arg8 : DevRef τ sig) = W (main_arg8 : DevRef τ sig) := by
  after_results

theorem tail_arg9 (W : Valuation τ sig (Elt Ideal)) :
    after (opsTail (F := Ideal)) W (main_arg9 : DevRef τ sig) = W (main_arg9 : DevRef τ sig) := by
  after_results

theorem tail_arg10 (W : Valuation τ sig (Elt Ideal)) :
    after (opsTail (F := Ideal)) W (main_arg10 : DevRef τ sig) = W (main_arg10 : DevRef τ sig) := by
  after_results

theorem after_v24 (V : Valuation τ sig (Elt Ideal)) :
    after (ops (F := Ideal)) V (main_v24 : DevRef τ sig) = res0 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  rw [after_two_lines, tail_v24, head_v10, head_v23]
  rfl

theorem after_v25 (V : Valuation τ sig (Elt Ideal)) :
    after (ops (F := Ideal)) V (main_v25 : DevRef τ sig) = res1 (V (main_arg1 : DevRef τ sig)) (V (main_arg2 : DevRef τ sig)) := by
  rw [after_two_lines, tail_v25, head_arg1, head_arg2]
  rfl

theorem after_arg0 (V : Valuation τ sig (Elt Ideal)) :
    after (ops (F := Ideal)) V (main_arg0 : DevRef τ sig) = V (main_arg0 : DevRef τ sig) := by
  rw [after_two_lines, tail_arg0, head_arg0]

theorem after_arg1 (V : Valuation τ sig (Elt Ideal)) :
    after (ops (F := Ideal)) V (main_arg1 : DevRef τ sig) = V (main_arg1 : DevRef τ sig) := by
  rw [after_two_lines, tail_arg1, head_arg1]

theorem after_arg2 (V : Valuation τ sig (Elt Ideal)) :
    after (ops (F := Ideal)) V (main_arg2 : DevRef τ sig) = V (main_arg2 : DevRef τ sig) := by
  rw [after_two_lines, tail_arg2, head_arg2]

theorem after_arg3 (V : Valuation τ sig (Elt Ideal)) :
    after (ops (F := Ideal)) V (main_arg3 : DevRef τ sig) = V (main_arg3 : DevRef τ sig) := by
  rw [after_two_lines, tail_arg3, head_arg3]

theorem after_arg4 (V : Valuation τ sig (Elt Ideal)) :
    after (ops (F := Ideal)) V (main_arg4 : DevRef τ sig) = V (main_arg4 : DevRef τ sig) := by
  rw [after_two_lines, tail_arg4, head_arg4]

theorem after_arg5 (V : Valuation τ sig (Elt Ideal)) :
    after (ops (F := Ideal)) V (main_arg5 : DevRef τ sig) = V (main_arg5 : DevRef τ sig) := by
  rw [after_two_lines, tail_arg5, head_arg5]

theorem after_arg6 (V : Valuation τ sig (Elt Ideal)) :
    after (ops (F := Ideal)) V (main_arg6 : DevRef τ sig) = V (main_arg6 : DevRef τ sig) := by
  rw [after_two_lines, tail_arg6, head_arg6]

theorem after_arg7 (V : Valuation τ sig (Elt Ideal)) :
    after (ops (F := Ideal)) V (main_arg7 : DevRef τ sig) = V (main_arg7 : DevRef τ sig) := by
  rw [after_two_lines, tail_arg7, head_arg7]

theorem after_arg8 (V : Valuation τ sig (Elt Ideal)) :
    after (ops (F := Ideal)) V (main_arg8 : DevRef τ sig) = V (main_arg8 : DevRef τ sig) := by
  rw [after_two_lines, tail_arg8, head_arg8]

theorem after_arg9 (V : Valuation τ sig (Elt Ideal)) :
    after (ops (F := Ideal)) V (main_arg9 : DevRef τ sig) = V (main_arg9 : DevRef τ sig) := by
  rw [after_two_lines, tail_arg9, head_arg9]

theorem after_arg10 (V : Valuation τ sig (Elt Ideal)) :
    after (ops (F := Ideal)) V (main_arg10 : DevRef τ sig) = V (main_arg10 : DevRef τ sig) := by
  rw [after_two_lines, tail_arg10, head_arg10]

theorem run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v24) = Cert.RefValue.res0 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))
        ∧ r.2.mem ((c.tc : Thread Cert.ReferenceIdeal.nD Cert.ReferenceIdeal.τ).loc Cert.ReferenceIdeal.main_v25) = Cert.RefValue.res1 (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)) :=
  (θ_run Cert.ReferenceIdeal.defs _ _).mono
    (fun _ h c => ⟨(h c main_v24).trans (after_v24 _), (h c main_v25).trans (after_v25 _),
      (h c main_arg0).trans (after_arg0 _), (h c main_arg1).trans (after_arg1 _), (h c main_arg2).trans (after_arg2 _), (h c main_arg3).trans (after_arg3 _), (h c main_arg4).trans (after_arg4 _), (h c main_arg5).trans (after_arg5 _), (h c main_arg6).trans (after_arg6 _), (h c main_arg7).trans (after_arg7 _), (h c main_arg8).trans (after_arg8 _), (h c main_arg9).trans (after_arg9 _), (h c main_arg10).trans (after_arg10 _)⟩)
    (run_main m g)

theorem frame [Cert.Pre_input_domain.Facts] : Cert.frame_ReferenceIdeal :=
  fun m ρ _ => (θ_run Cert.ReferenceIdeal.defs _ _).mono (fun _ h c => (h c).2.2) (run m ρ)

end Cert.RefValue

end
-- ==== Proof.RefValueLib.lean ====
import Idealize.ShloMosaic.PureOps.Ideal.Laws
import Idealize.ShloMosaic.Lib.ValueIdx
import Idealize.ShloMosaic.Lib.IdealHost
import Idealize.ShloMosaic.Lib.StackMember
import Idealize.ShloMosaic.Lib.StableHlo.Predicate
import Idealize.ShloMosaic.Lib.Pipeline.Value
import proofs.«214604_g3212635537896_cont_8to1_b_1509_14_alg».proof.Proof.Spec

noncomputable section

open scoped BigOperators

namespace Cert.RefValue

open Idealize.ShloMosaic Idealize.ShloMosaic.ValueIdx

abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

theorem gather_row_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N C R wf) x idx (ix2 r c)
      = x (ix2 ⟨min (idx (ix2 r (0 : Fin 1))).toInt.toNat (N - 1), by omega⟩ c) := by
  unfold Host.gather
  congr 1
  funext a
  refine Fin.ext ?_
  match a with
  | ⟨0, _⟩ =>
    show (rowDims N C R wf).start (ix2 r c) idx 0 + (rowDims N C R wf).batchCoord (ix2 r c) 0
      + (rowDims N C R wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 r c) ⟨List.idxOf (0 : Fin 2) (rowDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N C R wf).start (ix2 r c) idx 1 + (rowDims N C R wf).batchCoord (ix2 r c) 1
      + (rowDims N C R wf).offCoord (ix2 r c) 1 = c.val
    rw [GatherDims.batchCoord_eq_zero _ _ _ List.not_mem_nil]
    have hs : (rowDims N C R wf).start (ix2 r c) idx 1 = 0 := by
      unfold GatherDims.start
      rw [dif_neg (show (1 : Fin 2) ∉ (rowDims N C R wf).startIndexMap from
        (show (1 : Fin 2) ∉ ([0] : List (Fin 2)) by decide))]
    have ho : (rowDims N C R wf).offCoord (ix2 r c) 1 = c.val := by
      unfold GatherDims.offCoord
      rw [dif_pos (show (1 : Fin 2) ∈ (rowDims N C R wf).sKept from
        (GatherDims.mem_sKept _ _).mpr ⟨(show (1 : Fin 2) ∉ ([0] : List (Fin 2)) by decide), List.not_mem_nil⟩)]
      rfl
    rw [hs, ho]; omega

theorem reduce_andi_of_all_one {s t u : Shape} {axes : List (Fin s.rank)} (x : IVec s 1) (init : IVec u 1)
    (h : s.ReducesTo axes t) (hu : 0 < u.numel) (hx : ∀ i, x i = 1#1) (hinit : ∀ i, init i = 1#1) (j : t.Idx) :
    Host.reduce IntOp.andi x init h hu j = 1#1 := by
  unfold Host.reduce
  rw [hinit]
  generalize (List.filter _ _) = l
  induction l with
  | nil => rfl
  | cons n l ih =>
    rw [List.foldl_cons, hx]
    exact ih

theorem select_of_one {α : Type} {s : Shape} (m : IVec s 1) (a b : s.Idx → α) (i : s.Idx) (hm : m i = 1#1) :
    select m a b i = a i := by
  rw [select_apply, hm, select_one]

theorem norm_word (w : BitVec 32) (hw : w.toNat < 100000) :
    Scalar.select (IntOp.cmpi .slt w 0#32) (IntOp.addi w 100000#32) w = w := by
  have h0 : ¬ IntOp.cmpi .slt w 0#32 = 1#1 := by
    rw [StableHlo.Predicate.slt_iff_toNat (by omega) (by decide)]
    simp
  rw [eq_zero_of_ne_one h0, select_zero]

theorem range_word (w : BitVec 32) (hw : w.toNat < 100000) :
    IntOp.andi (IntOp.cmpi .sge w 0#32) (IntOp.cmpi .sle w 99999#32) = 1#1 := by
  have h1 : IntOp.cmpi .sge w 0#32 = 1#1 :=
    (StableHlo.Predicate.sge_iff_toNat (by omega) (by decide)).mpr (by simp)
  have h2 : IntOp.cmpi .sle w 99999#32 = 1#1 :=
    (StableHlo.Predicate.sle_iff_toNat (by omega) (by decide)).mpr (by
      show w.toNat ≤ (99999#32 : BitVec 32).toNat
      have : (99999#32 : BitVec 32).toNat = 99999 := by decide
      omega)
  rw [h1, h2]; rfl

theorem clamp_word (w : BitVec 32) (hw : w.toNat < 100000) :
    min w.toInt.toNat (100000 - 1) = (Cert.Spec.node w).val := by
  rw [StableHlo.Predicate.toInt_eq_toNat_of_lt (by omega)]
  show min (w.toNat : ℤ).toNat (100000 - 1) = min w.toNat 99999
  simp

theorem mlp_apply {R n : Nat}
    (w : DotDims.WF ⟨2, ![R, n]⟩ ⟨2, ![n, n]⟩ ⟨2, ![R, n]⟩ [1] [0] [0] [1] [] [])
    (hb1 : (⟨1, ![n]⟩ : Shape).BroadcastsInDim ⟨2, ![1, n]⟩ ![1])
    (hb2 : (⟨2, ![1, n]⟩ : Shape).BroadcastsInDim ⟨2, ![R, n]⟩ ![0, 1])
    (hb0 : (⟨0, ![]⟩ : Shape).BroadcastsInDim ⟨2, ![R, n]⟩ ![])
    (v : FVec Ideal ⟨2, ![R, n]⟩ .f32) (W1 : FVec Ideal ⟨2, ![n, n]⟩ .f32) (b1 : FVec Ideal ⟨1, ![n]⟩ .f32)
    (W2 : FVec Ideal ⟨2, ![n, n]⟩ .f32) (b2 : FVec Ideal ⟨1, ![n]⟩ .f32) (r : Fin R) (c : Fin n) :
    addf v
        (addf
          (Host.dotGeneral (⟨[1], [0], [0], [1], [], [], w⟩ : DotDims ⟨2, ![R, n]⟩ ⟨2, ![n, n]⟩ ⟨2, ![R, n]⟩) none
            (maximumf
              (addf (Host.dotGeneral (⟨[1], [0], [0], [1], [], [], w⟩ : DotDims ⟨2, ![R, n]⟩ ⟨2, ![n, n]⟩ ⟨2, ![R, n]⟩) none v W1)
                (broadcastInDim ⟨2, ![R, n]⟩ ![0, 1] hb2 (broadcastInDim ⟨2, ![1, n]⟩ ![1] hb1 b1)))
              (broadcastInDim ⟨2, ![R, n]⟩ ![] hb0 (constant (F := Ideal) ⟨0, ![]⟩ .f32 0x00000000#32)))
            W2)
          (broadcastInDim ⟨2, ![R, n]⟩ ![0, 1] hb2 (broadcastInDim ⟨2, ![1, n]⟩ ![1] hb1 b2)))
        (ix2 r c)
      = Cert.Spec.resMlp (fun l k => W1 (ix2 l k)) (fun k => b1 (ix1 k)) (fun k j => W2 (ix2 k j)) (fun j => b2 (ix1 j))
          (fun l => v (ix2 r l)) c := by
  have hdot : ∀ (A : FVec Ideal ⟨2, ![R, n]⟩ .f32) (B : FVec Ideal ⟨2, ![n, n]⟩ .f32) (p : Fin R) (q : Fin n),
      Host.dotGeneral (⟨[1], [0], [0], [1], [], [], w⟩ : DotDims ⟨2, ![R, n]⟩ ⟨2, ![n, n]⟩ ⟨2, ![R, n]⟩) none A B (ix2 p q)
        = ∑ k : Fin n, A (ix2 p k) * B (ix2 k q) :=
    fun A B p q => StackMember.dotGeneral_plain_apply none A B p q
  have hbias : ∀ (b : FVec Ideal ⟨1, ![n]⟩ .f32) (p : Fin R) (q : Fin n),
      broadcastInDim ⟨2, ![R, n]⟩ ![0, 1] hb2 (broadcastInDim ⟨2, ![1, n]⟩ ![1] hb1 b) (ix2 p q) = b (ix1 q) :=
    fun b p q => by
      have e1 : StableHlo.Predicate.ij p q = ix2 p q := by
        funext a; match a with | ⟨0, _⟩ => rfl | ⟨1, _⟩ => rfl
      have e2 : Shape.Idx.ofFin q = ix1 q := by
        funext a; match a with | ⟨0, _⟩ => exact Fin.ext rfl
      rw [← e1, ← e2]
      exact StableHlo.Predicate.bcast_cols hb1 hb2 b p q
  have hzero : ∀ (p : Fin R) (q : Fin n),
      broadcastInDim ⟨2, ![R, n]⟩ ![] hb0 (constant (F := Ideal) ⟨0, ![]⟩ .f32 0x00000000#32) (ix2 p q) = (0 : EReal) :=
    fun p q => Ideal.ofBits_zero_f32
  rw [addf_apply, addf_apply, hdot, hbias]
  unfold Cert.Spec.resMlp
  congr 2
  refine Finset.sum_congr rfl fun k _ => ?_
  rw [maximumf_apply, addf_apply, hdot, hbias, hzero]

end Cert.RefValue

end
-- ==== Proof.RefValueU.lean ====
import proofs.«214604_g3212635537896_cont_8to1_b_1509_14_alg».proof.Proof.RefTerm
import proofs.«214604_g3212635537896_cont_8to1_b_1509_14_alg».proof.Proof.RefValueLib

noncomputable section

open scoped BigOperators

namespace Cert.RefValue

open Idealize.ShloMosaic Idealize.ShloMosaic.ValueIdx
open Cert.ReferenceIdeal
open Cert.ReferenceIdeal.Facts₀ Cert.ReferenceIdeal.Facts

variable [Cert.ReferenceIdeal.Facts]

theorem takeIdxU_apply (a1 : IVec S200000 32) (h1 : ∀ i, (a1 i).toNat < 100000) (j : S200000x1.Idx) :
    takeIdxU a1 j = a1 (ix1 (j 0)) := by
  unfold takeIdxU
  refine (broadcastInDim_apply _ bcast_S200000_S200000x1_0 _ j (ix1 (j 0)) (fun a => by match a with | ⟨0, _⟩ => rfl)).trans ?_
  exact norm_word _ (h1 _)

theorem takeMaskU_apply (a1 : IVec S200000 32) (h1 : ∀ i, (a1 i).toNat < 100000) (i : S200000.Idx) :
    takeMaskU a1 i = 1#1 := by
  unfold takeMaskU
  refine reduce_andi_of_all_one _ _ _ _ (fun j => ?_) (fun _ => rfl) i
  show IntOp.andi (IntOp.cmpi .sge (takeIdxU a1 j) 0#32) (IntOp.cmpi .sle (takeIdxU a1 j) 99999#32) = 1#1
  rw [takeIdxU_apply a1 h1]
  exact range_word _ (h1 _)

theorem takeU_apply (a0 : FVec Ideal S100000x128 .f32) (a1 : IVec S200000 32) (h1 : ∀ i, (a1 i).toNat < 100000)
    (r : Fin 200000) (c : Fin 128) :
    takeU a0 a1 (ix2 r c) = a0 (ix2 (Cert.Spec.node (a1 (ix1 r))) c) := by
  unfold takeU
  refine (select_of_one _ _ _ _
    ((broadcastInDim_apply _ bcast_S200000_S200000x128_0 _ (ix2 r c) (ix1 r) (fun a => by match a with | ⟨0, _⟩ => rfl)).trans
      (takeMaskU_apply a1 h1 _))).trans ?_
  refine (gather_row_apply (by decide) gather_S100000x128_S200000x1_S200000x128_1_0_n_n_0_1_1128_wf a0 (takeIdxU a1) r c).trans ?_
  refine congrArg (fun p => a0 (ix2 p c)) (Fin.ext ?_)
  show min (takeIdxU a1 (ix2 r (0 : Fin 1))).toInt.toNat (100000 - 1) = _
  rw [takeIdxU_apply a1 h1]
  exact clamp_word _ (h1 _)

theorem mlpU_apply (a0 : FVec Ideal S100000x128 .f32) (a1 : IVec S200000 32) (a3 : FVec Ideal S128x128 .f32)
    (a4 : FVec Ideal S128 .f32) (a5 : FVec Ideal S128x128 .f32) (a6 : FVec Ideal S128 .f32)
    (h1 : ∀ i, (a1 i).toNat < 100000) (r : Fin 200000) (c : Fin 128) :
    mlpU a0 a1 a3 a4 a5 a6 (ix2 r c)
      = Cert.Spec.unaryRow (fun p q => a0 (ix2 p q)) (fun l k => a3 (ix2 l k)) (fun k => a4 (ix1 k))
          (fun k j => a5 (ix2 k j)) (fun j => a6 (ix1 j)) (Cert.Spec.node (a1 (ix1 r))) c := by
  unfold mlpU hidU Cert.Spec.unaryRow
  refine (mlp_apply dot_S200000x128_S128x128_S200000x128_1_0_0_1_n_n_wf bcast_S128_S1x128_1 bcast_S1x128_S200000x128_0_1
    bcast_S_S200000x128 (takeU a0 a1) a3 a4 a5 a6 r c).trans ?_
  have hrow : (fun l : Fin 128 => takeU a0 a1 (ix2 r l)) = fun q => a0 (ix2 (Cert.Spec.node (a1 (ix1 r))) q) :=
    funext fun l => takeU_apply a0 a1 h1 r l
  rw [hrow]

end Cert.RefValue

end
-- ==== Proof.RefValueB.lean ====
import proofs.«214604_g3212635537896_cont_8to1_b_1509_14_alg».proof.Proof.RefTerm
import proofs.«214604_g3212635537896_cont_8to1_b_1509_14_alg».proof.Proof.RefValueLib

noncomputable section

open scoped BigOperators

namespace Cert.RefValue

open Idealize.ShloMosaic Idealize.ShloMosaic.ValueIdx
open Cert.ReferenceIdeal
open Cert.ReferenceIdeal.Facts₀ Cert.ReferenceIdeal.Facts

variable [Cert.ReferenceIdeal.Facts]

theorem takeIdxB_apply (a2 : IVec S400000 32) (h2 : ∀ i, (a2 i).toNat < 100000) (j : S400000x1.Idx) :
    takeIdxB a2 j = a2 (ix1 (j 0)) := by
  unfold takeIdxB
  refine (broadcastInDim_apply _ bcast_S400000_S400000x1_0 _ j (ix1 (j 0)) (fun a => by match a with | ⟨0, _⟩ => rfl)).trans ?_
  exact norm_word _ (h2 _)

theorem takeMaskB_apply (a2 : IVec S400000 32) (h2 : ∀ i, (a2 i).toNat < 100000) (i : S400000.Idx) :
    takeMaskB a2 i = 1#1 := by
  unfold takeMaskB
  refine reduce_andi_of_all_one _ _ _ _ (fun j => ?_) (fun _ => rfl) i
  show IntOp.andi (IntOp.cmpi .sge (takeIdxB a2 j) 0#32) (IntOp.cmpi .sle (takeIdxB a2 j) 99999#32) = 1#1
  rw [takeIdxB_apply a2 h2]
  exact range_word _ (h2 _)

theorem takeB_apply (a0 : FVec Ideal S100000x128 .f32) (a2 : IVec S400000 32) (h2 : ∀ i, (a2 i).toNat < 100000)
    (r : Fin 400000) (c : Fin 128) :
    takeB a0 a2 (ix2 r c) = a0 (ix2 (Cert.Spec.node (a2 (ix1 r))) c) := by
  unfold takeB
  refine (select_of_one _ _ _ _
    ((broadcastInDim_apply _ bcast_S400000_S400000x128_0 _ (ix2 r c) (ix1 r) (fun a => by match a with | ⟨0, _⟩ => rfl)).trans
      (takeMaskB_apply a2 h2 _))).trans ?_
  refine (gather_row_apply (by decide) gather_S100000x128_S400000x1_S400000x128_1_0_n_n_0_1_1128_wf a0 (takeIdxB a2) r c).trans ?_
  refine congrArg (fun p => a0 (ix2 p c)) (Fin.ext ?_)
  show min (takeIdxB a2 (ix2 r (0 : Fin 1))).toInt.toNat (100000 - 1) = _
  rw [takeIdxB_apply a2 h2]
  exact clamp_word _ (h2 _)

theorem pairB_apply (a0 : FVec Ideal S100000x128 .f32) (a2 : IVec S400000 32) (h2 : ∀ i, (a2 i).toNat < 100000)
    (P : Fin 200000) (q : Fin 256) :
    pairB a0 a2 (ix2 P q) = Cert.Spec.pairRow (fun p q => a0 (ix2 p q)) (fun r => a2 (ix1 r)) P q := by
  unfold pairB Cert.Spec.pairRow
  rw [shapeCast_apply (takeB a0 a2) shapeCasts_S400000x128_S200000x256 (ix2 P q)
    (ix2 (⟨2 * P.val + q.val / 128, by have := P.isLt; have := q.isLt; omega⟩ : Fin 400000)
      (⟨q.val % 128, Nat.mod_lt _ (by decide)⟩ : Fin 128))
    (by
      rw [Shape.rowMajor_val_two, Shape.rowMajor_val_two]
      show (2 * P.val + q.val / 128) * 128 + q.val % 128 = P.val * 256 + q.val
      omega)]
  exact takeB_apply a0 a2 h2 _ _

theorem mlpB_apply (a0 : FVec Ideal S100000x128 .f32) (a2 : IVec S400000 32) (a7 : FVec Ideal S256x256 .f32)
    (a8 : FVec Ideal S256 .f32) (a9 : FVec Ideal S256x256 .f32) (a10 : FVec Ideal S256 .f32)
    (h2 : ∀ i, (a2 i).toNat < 100000) (P : Fin 200000) (q : Fin 256) :
    mlpB a0 a2 a7 a8 a9 a10 (ix2 P q)
      = Cert.Spec.resMlp (fun l k => a7 (ix2 l k)) (fun k => a8 (ix1 k)) (fun k j => a9 (ix2 k j)) (fun j => a10 (ix1 j))
          (Cert.Spec.pairRow (fun p q => a0 (ix2 p q)) (fun r => a2 (ix1 r)) P) q := by
  unfold mlpB hidB
  refine (mlp_apply dot_S200000x256_S256x256_S200000x256_1_0_0_1_n_n_wf bcast_S256_S1x256_1 bcast_S1x256_S200000x256_0_1
    bcast_S_S200000x256 (pairB a0 a2) a7 a8 a9 a10 P q).trans ?_
  have hrow : (fun l : Fin 256 => pairB a0 a2 (ix2 P l))
      = Cert.Spec.pairRow (fun p q => a0 (ix2 p q)) (fun r => a2 (ix1 r)) P :=
    funext fun l => pairB_apply a0 a2 h2 P l
  rw [hrow]

theorem unpairB_apply (a0 : FVec Ideal S100000x128 .f32) (a2 : IVec S400000 32) (a7 : FVec Ideal S256x256 .f32)
    (a8 : FVec Ideal S256 .f32) (a9 : FVec Ideal S256x256 .f32) (a10 : FVec Ideal S256 .f32) (r : Fin 400000) (c : Fin 128) :
    unpairB a0 a2 a7 a8 a9 a10 (ix2 r c)
      = mlpB a0 a2 a7 a8 a9 a10
          (ix2 (⟨r.val / 2, by have := r.isLt; omega⟩ : Fin 200000)
            (⟨(r.val % 2) * 128 + c.val, by have := c.isLt; have := Nat.mod_lt r.val (show 0 < 2 by decide); omega⟩ : Fin 256)) := by
  unfold unpairB
  exact shapeCast_apply (mlpB a0 a2 a7 a8 a9 a10) shapeCasts_S200000x256_S400000x128 (ix2 r c) _
    (by
      rw [Shape.rowMajor_val_two, Shape.rowMajor_val_two]
      show (r.val / 2) * 256 + ((r.val % 2) * 128 + c.val) = r.val * 128 + c.val
      omega)

end Cert.RefValue

end
-- ==== Proof.RefValue.lean ====
import proofs.«214604_g3212635537896_cont_8to1_b_1509_14_alg».proof.Proof.RefValueU
import proofs.«214604_g3212635537896_cont_8to1_b_1509_14_alg».proof.Proof.RefValueB

noncomputable section

open scoped BigOperators

namespace Cert.RefValue

open Idealize.ShloMosaic Idealize.ShloMosaic.ValueIdx
open Cert.ReferenceIdeal
open Cert.ReferenceIdeal.Facts₀ Cert.ReferenceIdeal.Facts

variable [Cert.ReferenceIdeal.Facts]

theorem res0_eq (a0 : FVec Ideal S100000x128 .f32) (a1 : IVec S200000 32) (a2 : IVec S400000 32)
    (a3 : FVec Ideal S128x128 .f32) (a4 : FVec Ideal S128 .f32) (a5 : FVec Ideal S128x128 .f32) (a6 : FVec Ideal S128 .f32)
    (a7 : FVec Ideal S256x256 .f32) (a8 : FVec Ideal S256 .f32) (a9 : FVec Ideal S256x256 .f32) (a10 : FVec Ideal S256 .f32)
    (h1 : ∀ i, (a1 i).toNat < 100000) (h2 : ∀ i, (a2 i).toNat < 100000) :
    res0 a0 a1 a2 a3 a4 a5 a6 a7 a8 a9 a10 = Cert.Spec.outArr a0 a1 a2 a3 a4 a5 a6 a7 a8 a9 a10 := by
  funext i
  obtain ⟨r, c, rfl⟩ : ∃ (r : Fin 600000) (c : Fin 128), i = ix2 r c := ⟨i 0, i 1, eq_ix2 i⟩
  unfold res0
  show _ = Cert.Spec.out (fun p q => a0 (ix2 p q)) (fun r => a1 (ix1 r)) (fun r => a2 (ix1 r))
    (fun l k => a3 (ix2 l k)) (fun k => a4 (ix1 k)) (fun k j => a5 (ix2 k j)) (fun j => a6 (ix1 j))
    (fun l k => a7 (ix2 l k)) (fun k => a8 (ix1 k)) (fun k j => a9 (ix2 k j)) (fun j => a10 (ix1 j)) r c
  unfold Cert.Spec.out
  by_cases hr : r.val < 200000
  · rw [dif_pos hr]
    refine (concatenate_pair_apply_left 0 _ _ concatenates_S200000x128_S400000x128_S600000x128_d0 (ix2 r c) rfl
      (ix2 (⟨r.val, hr⟩ : Fin 200000) c) (fun b => by match b with | ⟨0, _⟩ => rfl | ⟨1, _⟩ => rfl)).trans ?_
    exact mlpU_apply a0 a1 a3 a4 a5 a6 h1 ⟨r.val, hr⟩ c
  · rw [dif_neg hr]
    have hr' : r.val - 200000 < 400000 := by have := r.isLt; omega
    refine (concatenate_pair_apply_right 0 _ _ concatenates_S200000x128_S400000x128_S600000x128_d0 (ix2 r c) rfl rfl
      (ix2 (⟨r.val - 200000, hr'⟩ : Fin 400000) c) ?_ ?_).trans ?_
    · intro b hb
      have hb1 : b = ⟨1, by decide⟩ := by
        apply Fin.ext
        have h0 : b.val ≠ 0 := fun h => hb (Fin.ext h)
        have hlt := b.isLt
        change b.val < 2 at hlt
        show b.val = 1
        omega
      subst hb1
      rfl
    · show (r.val - 200000) + 200000 = r.val; omega
    exact (unpairB_apply a0 a2 a7 a8 a9 a10 ⟨r.val - 200000, hr'⟩ c).trans
      (mlpB_apply a0 a2 a7 a8 a9 a10 h2 _ _)

theorem res1_eq (a1 : IVec S200000 32) (a2 : IVec S400000 32) : res1 a1 a2 = Cert.Spec.outIdxArr a1 a2 := by
  funext i
  obtain ⟨r, rfl⟩ : ∃ r : Fin 600000, i = ix1 r := ⟨i 0, eq_ix1 i⟩
  unfold res1
  show _ = Cert.Spec.outIdx (fun r => a1 (ix1 r)) (fun r => a2 (ix1 r)) r
  unfold Cert.Spec.outIdx
  by_cases hr : r.val < 200000
  · rw [dif_pos hr]
    exact concatenate_pair_apply_left 0 _ _ concatenates_S200000_S400000_S600000_d0 (ix1 r) rfl
      (ix1 (⟨r.val, hr⟩ : Fin 200000)) (fun b => by match b with | ⟨0, _⟩ => rfl)
  · rw [dif_neg hr]
    have hr' : r.val - 200000 < 400000 := by have := r.isLt; omega
    refine concatenate_pair_apply_right 0 _ _ concatenates_S200000_S400000_S600000_d0 (ix1 r) rfl rfl
      (ix1 (⟨r.val - 200000, hr'⟩ : Fin 400000)) ?_ ?_
    · intro b hb
      exfalso; apply hb
      apply Fin.ext
      have hlt := b.isLt
      change b.val < 1 at hlt
      show b.val = 0
      omega
    · show (r.val - 200000) + 200000 = r.val; omega

end Cert.RefValue

end
-- ==== Proof.KI.Base.lean ====
import proofs.«214604_g3212635537896_cont_8to1_b_1509_14_alg».proof.Defs
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic
import proofs.«214604_g3212635537896_cont_8to1_b_1509_14_alg».proof.Proof.Gen.KernelIdeal
import proofs.«214604_g3212635537896_cont_8to1_b_1509_14_alg».proof.Proof.Gen.KernelIdeal.Launch

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ

abbrev UP : Type := URounds (GSem nD τ sig) Unit
abbrev UU : Type := UH × (UP × Counters)

abbrev EH : Emb UH (MT nD τ sig (HIx 1) (Elt F) ℕ UU ℕ) := embL
def EP : Emb UP (MT nD τ sig (HIx 1) (Elt F) ℕ UU ℕ) :=
  (Emb.inl : Emb UP (UP × Counters)).trans embR

instance EP_landsIn : (EP : Emb UP (MT nD τ sig (HIx 1) (Elt F) ℕ UU ℕ)).LandsIn (upEmb : UEmb _ (MT nD τ sig (HIx 1) (Elt F) ℕ UU ℕ)) := by
  unfold EP; infer_instance

def ΦH {gr : Nat} {W : Nat} (win : Fin W → Pipeline.WinSpec sig gr) (c : Dev nD) : sProp (MT nD τ sig (HIx 1) (Elt F) ℕ UU ℕ) :=
  iprop(Pipeline.scopedRest (Ix := HIx 1) (Name := ℕ) (U := UU) (Lvl := ℕ) (Val := Elt F) win c ∗ ∃ r, prngReg c r)

end Cert.KernelIdeal.Hand

end
-- ==== Proof.KI.Gather.lean ====
import proofs.«214604_g3212635537896_cont_8to1_b_1509_14_alg».proof.KernelIdeal
import Idealize.ShloMosaic.Lib.ValueIdx

noncomputable section

namespace Cert.KernelIdeal.Hand

open Cert.KernelIdeal
open Idealize.ShloMosaic Idealize.ShloMosaic.ValueIdx

variable {F : FTy → Type}

def rowOf (w : BitVec 32) : Fin 100000 := ⟨min w.toNat 99999, by omega⟩

theorem rowOf_val_of_lt {w : BitVec 32} (h : w.toNat < 100000) : (rowOf w).val = w.toNat := by
  show min w.toNat 99999 = w.toNat; omega

def gatherF (tbl : Vec F S100000x128 .f32) (iu : Vec F S200704 .i32) (f0 : Vec F S600000x128 .f32) : Vec F S600000x128 .f32 :=
  fun idx => if h : (idx 0).val < 200704 then tbl (ix2 (rowOf (iu (ix1 ⟨(idx 0).val, h⟩))) (idx 1)) else f0 idx

def gatherE (tbl : Vec F S100000x128 .f32) (ib : Vec F S401408 .i32) : Vec F S401408x128 .f32 :=
  fun idx => tbl (ix2 (rowOf (ib (ix1 (idx 0)))) (idx 1))

end Cert.KernelIdeal.Hand

end
-- ==== Proof.KI.Ops.lean ====
import proofs.«214604_g3212635537896_cont_8to1_b_1509_14_alg».proof.Proof.KI.Base
import proofs.«214604_g3212635537896_cont_8to1_b_1509_14_alg».proof.Proof.KI.Gather
import Idealize.ShloMosaic.Lib.Pipeline.FrameSuffix

noncomputable section

namespace Cert.KernelIdeal.Hand

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev op_v0 : HloOp τ sig (Elt F) := StableHlo.reshape main_arg4 main_v0 rfl shapeCasts_S128_S1x128
abbrev op_v1 : HloOp τ sig (Elt F) := StableHlo.reshape main_arg6 main_v1 rfl shapeCasts_S128_S1x128
abbrev op_c : HloOp τ sig (Elt F) := StableHlo.nullary main_c (constantI S_ 32 0#32)
abbrev op_v3 : HloOp τ sig (Elt F) := StableHlo.unary main_c main_v3 (broadcastInDim S704 ![] bcast_S_S704 : (⟨S_, .i32⟩ : BufTy).Contents (Elt F) → (⟨S704, .i32⟩ : BufTy).Contents (Elt F))
abbrev op_v4 : HloOp τ sig (Elt F) := StableHlo.binary main_arg1 main_v3 main_v4 ((fun a b => concatenate S200704 0 [⟨S200000, a⟩, ⟨S704, b⟩] concatenates_S200000_S704_S200704_d0) : (⟨S200000, .i32⟩ : BufTy).Contents (Elt F) → (⟨S704, .i32⟩ : BufTy).Contents (Elt F) → (⟨S200704, .i32⟩ : BufTy).Contents (Elt F))
abbrev op_c_0 : HloOp τ sig (Elt F) := StableHlo.nullary main_c_0 (constantI S_ 32 0#32)
abbrev op_v5 : HloOp τ sig (Elt F) := StableHlo.unary main_c_0 main_v5 (broadcastInDim S1408 ![] bcast_S_S1408 : (⟨S_, .i32⟩ : BufTy).Contents (Elt F) → (⟨S1408, .i32⟩ : BufTy).Contents (Elt F))
abbrev op_v6 : HloOp τ sig (Elt F) := StableHlo.binary main_arg2 main_v5 main_v6 ((fun a b => concatenate S401408 0 [⟨S400000, a⟩, ⟨S1408, b⟩] concatenates_S400000_S1408_S401408_d0) : (⟨S400000, .i32⟩ : BufTy).Contents (Elt F) → (⟨S1408, .i32⟩ : BufTy).Contents (Elt F) → (⟨S401408, .i32⟩ : BufTy).Contents (Elt F))
abbrev op_v8 : HloOp τ sig (Elt F) := StableHlo.reshape main_arg8 main_v8 rfl shapeCasts_S256_S1x256
abbrev op_v9 : HloOp τ sig (Elt F) := StableHlo.reshape main_arg10 main_v9 rfl shapeCasts_S256_S1x256
abbrev op_v10 : HloOp τ sig (Elt F) := StableHlo.unary main_v7_0 main_v10 id
abbrev op_v11 : HloOp τ sig (Elt F) := StableHlo.binary main_arg1 main_arg2 main_v11 ((fun a b => concatenate S600000 0 [⟨S200000, a⟩, ⟨S400000, b⟩] concatenates_S200000_S400000_S600000_d0) : (⟨S200000, .i32⟩ : BufTy).Contents (Elt F) → (⟨S400000, .i32⟩ : BufTy).Contents (Elt F) → (⟨S600000, .i32⟩ : BufTy).Contents (Elt F))

abbrev opsA : List (HloOp τ sig (Elt F)) := [op_v0, op_v1]
abbrev opsB : List (HloOp τ sig (Elt F)) := [op_c, op_v3, op_v4, op_c_0, op_v5, op_v6]
abbrev opsC : List (HloOp τ sig (Elt F)) := [op_v8, op_v9, op_v10]
abbrev opsD : List (HloOp τ sig (Elt F)) := [op_v11]

theorem main_eq (d : Dev nD) :
    main (F := F) d = (StableHlo.seq opsA >>= fun _ => Prog.lift (.customCall (SparseCore.inner (Pipeline.entry 0)) ()) >>= fun _ =>
      StableHlo.seq opsB >>= fun _ => sc.run d 0 >>= fun _ => StableHlo.seq opsC >>= fun _ =>
      Prog.lift (.customCall (SparseCore.inner (Pipeline.entry 1)) ()) >>= fun _ => StableHlo.seq opsD) := by
  simp only [main, opsA, opsB, opsC, opsD, StableHlo.seq, bind_assoc, pure_bind, bind_pure]

end Cert.KernelIdeal.Hand

end
-- ==== Proof.KI.Body0.lean ====
import proofs.«214604_g3212635537896_cont_8to1_b_1509_14_alg».proof.Proof.Gen.KernelIdeal.Launch
import proofs.«214604_g3212635537896_cont_8to1_b_1509_14_alg».proof.Proof.Gen.KernelIdeal.Skeleton
import proofs.«214604_g3212635537896_cont_8to1_b_1509_14_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {U : Type} [URA U]

local notation "𝕄" => MT nD τ sig (SparseCore.Cfg.HIx 1) (Elt F) ℕ U ℕ

abbrev r0 : Rect S2000x128 := Rect.unit (s := S2000x128) ![0, 0] S2000x128.size inb_S2000x128_S2000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

def out0 (x0 : Vec F S2000x128 .f32) (w1 : Vec F S128x128 .f32) (b1 : Vec F S1x128 .f32) (w2 : Vec F S128x128 .f32) (b2 : Vec F S1x128 .f32) :
    Vec F S2000x128 .f32 :=
  View.canon [⟨r0, k0_pay1 (View.ld x0 r0) (View.ld w1 rW) (View.ld b1 rB) (View.ld w2 rW) (View.ld b2 rB)⟩]

theorem cover0 (p0 : Vec F S2000x128 .f32) (y : S2000x128.Idx) :
    ∃ pc ∈ ([⟨r0, p0⟩] : List (View.Piece (Elt F) S2000x128 .f32)), y ∈ pc.1.set :=
  View.cover_of_tiled [⟨r0, p0⟩] S2000x128.size (by rfl) y

set_option maxHeartbeats 1000000 in

theorem sound_kernel0 (c : Dev nD) (E : Set ℕ) (i : grid0.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S2000x128 .f32) (harg6 : arg6.IsWhole)
    (x0 : Vec F S2000x128 .f32) (w1 : Vec F S128x128 .f32) (b1 : Vec F S1x128 .f32) (w2 : Vec F S128x128 .f32) (b2 : Vec F S1x128 .f32)
    (K : PUnit → sProp 𝕄) :
    iprop(owns (c : Thread nD τ) arg1 fullShare x0 ∗ owns (c : Thread nD τ) arg2 fullShare w1 ∗ owns (c : Thread nD τ) arg3 fullShare b1
        ∗ owns (c : Thread nD τ) arg4 fullShare w2 ∗ owns (c : Thread nD τ) arg5 fullShare b2 ∗ (∃ d, owns (c : Thread nD τ) arg6 fullShare d)
        ∗ (iprop(owns (c : Thread nD τ) arg1 fullShare x0 ∗ owns (c : Thread nD τ) arg2 fullShare w1 ∗ owns (c : Thread nD τ) arg3 fullShare b1
            ∗ owns (c : Thread nD τ) arg4 fullShare w2 ∗ owns (c : Thread nD τ) arg5 fullShare b2
            ∗ owns (c : Thread nD τ) arg6 fullShare (out0 x0 w1 b1 w2 b2)) -∗ K ⟨⟩))
      ⊢ wp frame (wpE (defs₀ (F := F)) Variants.none c none) E (cc0__unary_body i arg1 harg1 arg2 harg2 arg3 harg3 arg4 harg4 arg5 harg5 arg6 harg6) K := by
  simp only [cc0__unary_body_eq_skeleton]; unfold cc0__unary_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0 _)

end Cert.KernelIdeal.Hand

end
-- ==== Proof.KI.Region0.lean ====
import proofs.«214604_g3212635537896_cont_8to1_b_1509_14_alg».proof.Proof.KI.Base
import proofs.«214604_g3212635537896_cont_8to1_b_1509_14_alg».proof.Proof.KI.Body0
import proofs.«214604_g3212635537896_cont_8to1_b_1509_14_alg».proof.Proof.Gen.KernelIdeal.Launch
import proofs.«214604_g3212635537896_cont_8to1_b_1509_14_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c : Thread nD τ).loc b)) (O : Dev nD → CellTallies nD τ sig (HIx 1))
  (B : Dev nD → Set (SemLoc sig × HIx 1))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) (HIx 1) ℕ UU ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) (HIx 1) ℕ UU ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) (HIx 1) ℕ UU ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) (HIx 1) ℕ UU ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) (HIx 1) ℕ UU ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

def dat0 (c : Dev nD) : Dat τ (Elt F) (HIx 1) ℕ UU ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0 (iblk0 V c 0 t) (iblk0 V c 1 t) (iblk0 V c 2 t) (iblk0 V c 3 t) (iblk0 V c 4 t)
  Φ _ := ΦH spec0 c
  q _ := fullShare
  owed _ := O c
  recorded _ := B c

theorem A_eq0 (c : Dev nD) (w : Fin cfg0.W) : (dat0 V O B c).A w = V c (Pipeline.arrRef spec0 w) := by
  dsimp only [dat0]

theorem after0_0 (c : Dev nD) (t : Fin cfg0.N) : (dat0 V O B c).after 0 t = iblk0 V c 0 t := by dsimp only [dat0]
theorem after0_1 (c : Dev nD) (t : Fin cfg0.N) : (dat0 V O B c).after 1 t = iblk0 V c 1 t := by dsimp only [dat0]
theorem after0_2 (c : Dev nD) (t : Fin cfg0.N) : (dat0 V O B c).after 2 t = iblk0 V c 2 t := by dsimp only [dat0]
theorem after0_3 (c : Dev nD) (t : Fin cfg0.N) : (dat0 V O B c).after 3 t = iblk0 V c 3 t := by dsimp only [dat0]
theorem after0_4 (c : Dev nD) (t : Fin cfg0.N) : (dat0 V O B c).after 4 t = iblk0 V c 4 t := by dsimp only [dat0]
theorem after0_5 (c : Dev nD) (t : Fin cfg0.N) :
    (dat0 V O B c).after 5 t = out0 (iblk0 V c 0 t) (iblk0 V c 1 t) (iblk0 V c 2 t) (iblk0 V c 3 t) (iblk0 V c 4 t) := by dsimp only [dat0]

theorem before0_0 (c : Dev nD) (t : Fin cfg0.N) (d) : (dat0 V O B c).before 0 t d = iblk0 V c 0 t :=
  before0_0_of V (dat0 V O B c) (A_eq0 V O B c 0) (after0_0 V O B c) t d
theorem before0_1 (c : Dev nD) (t : Fin cfg0.N) (d) : (dat0 V O B c).before 1 t d = iblk0 V c 1 t :=
  before0_1_of V (dat0 V O B c) (A_eq0 V O B c 1) (after0_1 V O B c) t d
theorem before0_2 (c : Dev nD) (t : Fin cfg0.N) (d) : (dat0 V O B c).before 2 t d = iblk0 V c 2 t :=
  before0_2_of V (dat0 V O B c) (A_eq0 V O B c 2) (after0_2 V O B c) t d
theorem before0_3 (c : Dev nD) (t : Fin cfg0.N) (d) : (dat0 V O B c).before 3 t d = iblk0 V c 3 t :=
  before0_3_of V (dat0 V O B c) (A_eq0 V O B c 3) (after0_3 V O B c) t d
theorem before0_4 (c : Dev nD) (t : Fin cfg0.N) (d) : (dat0 V O B c).before 4 t d = iblk0 V c 4 t :=
  before0_4_of V (dat0 V O B c) (A_eq0 V O B c 4) (after0_4 V O B c) t d

def bodyPre0 (c : Dev nD) (t : Fin cfg0.N) : sProp 𝕄 :=
  iprop((dat0 V O B c).Φ t.castSucc ∗ (dat0 V O B c).owesAt (none : HIx 1) t.castSucc
    ∗ (∃ d, owns (c : Thread nD τ) (st0_0 t) fullShare ((dat0 V O B c).before 0 t d))
    ∗ (∃ d, owns (c : Thread nD τ) (st0_1 t) fullShare ((dat0 V O B c).before 1 t d))
    ∗ (∃ d, owns (c : Thread nD τ) (st0_2 t) fullShare ((dat0 V O B c).before 2 t d))
    ∗ (∃ d, owns (c : Thread nD τ) (st0_3 t) fullShare ((dat0 V O B c).before 3 t d))
    ∗ (∃ d, owns (c : Thread nD τ) (st0_4 t) fullShare ((dat0 V O B c).before 4 t d))
    ∗ (∃ d, owns (c : Thread nD τ) (st0_5 t) fullShare ((dat0 V O B c).before 5 t d)))

def bodyPost0 (c : Dev nD) (t : Fin cfg0.N) : sProp 𝕄 :=
  iprop((dat0 V O B c).Φ t.succ ∗ (dat0 V O B c).owesAt (none : HIx 1) t.succ
    ∗ owns (c : Thread nD τ) (st0_0 t) fullShare ((dat0 V O B c).after 0 t)
    ∗ owns (c : Thread nD τ) (st0_1 t) fullShare ((dat0 V O B c).after 1 t)
    ∗ owns (c : Thread nD τ) (st0_2 t) fullShare ((dat0 V O B c).after 2 t)
    ∗ owns (c : Thread nD τ) (st0_3 t) fullShare ((dat0 V O B c).after 3 t)
    ∗ owns (c : Thread nD τ) (st0_4 t) fullShare ((dat0 V O B c).after 4 t)
    ∗ owns (c : Thread nD τ) (st0_5 t) fullShare ((dat0 V O B c).after 5 t))

theorem sound_body0 (c : Dev nD) (t : Fin cfg0.N) :
    bodyPre0 V O B c t ⊢ wp frame (wpE (defs₀ (F := F)) Variants.none c none) Set.univ (bodyAt0 t) (fun _ => bodyPost0 V O B c t) := by
  unfold bodyPre0 bodyPost0 bodyAt0
  simp only [before0_0, before0_1, before0_2, before0_3, before0_4]
  rw [show (dat0 V O B c).Φ t.succ = (dat0 V O B c).Φ t.castSucc from rfl,
    show (dat0 V O B c).owesAt (none : HIx 1) t.succ = (dat0 V O B c).owesAt (none : HIx 1) t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V O B c) (defs₀ (F := F)) Variants.none (none : HIx 1) Set.univ := fun t => by
  rw [bigSep_W0, bigSep_W0]
  exact sound_body0 V O B c t

end Cert.KernelIdeal.Hand

end
-- ==== Proof.KI.Body2.lean ====
import proofs.«214604_g3212635537896_cont_8to1_b_1509_14_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {U : Type} [URA U]

local notation "𝕄" => MT nD τ sig (SparseCore.Cfg.HIx 1) (Elt F) ℕ U ℕ

abbrev rBlk : Rect S2000x128 := Rect.unit (s := S2000x128) ![0, 0] S2000x128.size inb_S2000x128_S2000x128_0_0

abbrev rW2 : Rect S256x256 := Rect.unit (s := S256x256) ![0, 0] S256x256.size inb_S256x256_S256x256_0_0

abbrev rB2 : Rect S1x256 := Rect.unit (s := S1x256) ![0, 0] S1x256.size inb_S1x256_S1x256_0_0

def out2 (x0 : Vec F S2000x128 .f32) (w1 : Vec F S256x256 .f32) (b1 : Vec F S1x256 .f32)
    (w2 : Vec F S256x256 .f32) (b2 : Vec F S1x256 .f32) : Vec F S2000x128 .f32 :=
  View.canon [⟨rBlk, k2_pay1 (View.ld x0 rBlk) (View.ld w1 rW2) (View.ld b1 rB2) (View.ld w2 rW2) (View.ld b2 rB2)⟩]

theorem cover2 (p0 : Vec F S2000x128 .f32) (y : S2000x128.Idx) :
    ∃ pc ∈ ([⟨rBlk, p0⟩] : List (View.Piece (Elt F) S2000x128 .f32)), y ∈ pc.1.set :=
  View.cover_of_tiled [⟨rBlk, p0⟩] S2000x128.size (by rfl) y

set_option maxHeartbeats 1000000 in

theorem sound_kernel2 (c : Dev nD) (E : Set ℕ) (i : grid2.Coords)
    (arg1 : Memref sig .tc .hbm S600000x128 .f32) (harg1 : arg1.IsWhole)
    (arg2 : Memref sig .tc .vmem S2000x128 .f32) (harg2 : arg2.IsWhole)
    (arg3 : Memref sig .tc .vmem S256x256 .f32) (harg3 : arg3.IsWhole)
    (arg4 : Memref sig .tc .vmem S1x256 .f32) (harg4 : arg4.IsWhole)
    (arg5 : Memref sig .tc .vmem S256x256 .f32) (harg5 : arg5.IsWhole)
    (arg6 : Memref sig .tc .vmem S1x256 .f32) (harg6 : arg6.IsWhole)
    (arg7 : Memref sig .tc .vmem S2000x128 .f32) (harg7 : arg7.IsWhole)
    (x0 : Vec F S2000x128 .f32) (w1 : Vec F S256x256 .f32) (b1 : Vec F S1x256 .f32)
    (w2 : Vec F S256x256 .f32) (b2 : Vec F S1x256 .f32) (K : PUnit → sProp 𝕄) :
    iprop(owns (c : Thread nD τ) arg2 fullShare x0 ∗ owns (c : Thread nD τ) arg3 fullShare w1
        ∗ owns (c : Thread nD τ) arg4 fullShare b1 ∗ owns (c : Thread nD τ) arg5 fullShare w2
        ∗ owns (c : Thread nD τ) arg6 fullShare b2 ∗ (∃ d, owns (c : Thread nD τ) arg7 fullShare d)
        ∗ (iprop(owns (c : Thread nD τ) arg2 fullShare x0 ∗ owns (c : Thread nD τ) arg3 fullShare w1
            ∗ owns (c : Thread nD τ) arg4 fullShare b1 ∗ owns (c : Thread nD τ) arg5 fullShare w2
            ∗ owns (c : Thread nD τ) arg6 fullShare b2
            ∗ owns (c : Thread nD τ) arg7 fullShare (out2 x0 w1 b1 w2 b2)) -∗ K ⟨⟩))
      ⊢ wp frame (wpE (defs₀ (F := F)) Variants.none c none) E
          (cc2__binary_body i arg1 harg1 arg2 harg2 arg3 harg3 arg4 harg4 arg5 harg5 arg6 harg6 arg7 harg7) K := by
  simp only [cc2__binary_body_eq_skeleton]; unfold cc2__binary_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2 _)

end Cert.KernelIdeal.Hand

end
-- ==== Proof.KI.Region2.lean ====
import proofs.«214604_g3212635537896_cont_8to1_b_1509_14_alg».proof.Proof.KI.Base
import proofs.«214604_g3212635537896_cont_8to1_b_1509_14_alg».proof.Proof.KI.Body2
import proofs.«214604_g3212635537896_cont_8to1_b_1509_14_alg».proof.Proof.Gen.KernelIdeal.Launch
import proofs.«214604_g3212635537896_cont_8to1_b_1509_14_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c : Thread nD τ).loc b))
  (O : Dev nD → CellTallies nD τ sig (HIx 1)) (B : Dev nD → Set (SemLoc sig × HIx 1))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem clip2_0 : ∀ (t : Fin cfg2.N) (a : Fin (cfg2.win 0).shape.rank), (cfg2.win 0).clip (cfg2.grid.coords t) a = none :=
  (by decide +kernel : ∀ (t : Fin grid2.N) (a : Fin 2), win2_0.clip (grid2.coords t) a = none)

theorem xsize2_0 (t : Fin cfg2.N) (a : Fin (cfg2.win 0).shape.rank) :
    (cfg2.win 0).xsize (cfg2.grid.coords t) a = (cfg2.win 0).size a := by
  unfold Window.xsize; rw [clip2_0 t a]

def blk2_0 (c : Dev nD) (t : Fin cfg2.N) : Vec F S2000x128 .f32 :=
  fun j => iblk2 V c 0 t fun a => ⟨(j a).val, Nat.lt_of_lt_of_eq (j a).isLt (xsize2_0 t a).symm⟩

theorem fill2_0 (c : Dev nD) (t : Fin cfg2.N) (d : (cfg2.win 0).block.Idx → Elt F (cfg2.win 0).elt) :
    (cfg2.win 0).fill (cfg2.grid.coords t) d (iblk2 V c 0 t) = blk2_0 V c t := by
  funext j
  have hm : (cfg2.win 0).moved (cfg2.grid.coords t) j = true :=
    ((cfg2.win 0).moved_iff _ j).mpr fun a => by rw [xsize2_0]; exact (j a).isLt
  unfold Window.fill; rw [dif_pos hm]; rfl

theorem before2_0_of {c : Dev nD} (dat : Dat τ (Elt F) (HIx 1) ℕ UU ℕ cfg2 c) (hA : dat.A 0 = V c (Pipeline.arrRef spec2 0))
    (t : Fin cfg2.N) (d) : dat.before 0 t d = blk2_0 V c t :=
  (dat.before_fetched 0 t (fetch2_0 t) d).trans
    (by unfold Dat.fetched Dat.blockOf; rw [hA]; exact fill2_0 V c t d)

theorem before2_1_of {c : Dev nD} (dat : Dat τ (Elt F) (HIx 1) ℕ UU ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) (HIx 1) ℕ UU ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) (HIx 1) ℕ UU ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) (HIx 1) ℕ UU ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

def dat2 (c : Dev nD) : Dat τ (Elt F) (HIx 1) ℕ UU ℕ cfg2 c where
  A w := V c (Pipeline.arrRef spec2 w)
  after w t := match w with
    | ⟨0, _⟩ => blk2_0 V c t
    | ⟨1, _⟩ => iblk2 V c 1 t
    | ⟨2, _⟩ => iblk2 V c 2 t
    | ⟨3, _⟩ => iblk2 V c 3 t
    | ⟨4, _⟩ => iblk2 V c 4 t
    | ⟨5, _⟩ => out2 (blk2_0 V c t) (iblk2 V c 1 t) (iblk2 V c 2 t) (iblk2 V c 3 t) (iblk2 V c 4 t)
  Φ _ := ΦH spec2 c
  q _ := fullShare
  owed _ := O c
  recorded _ := B c

theorem A_eq2 (c : Dev nD) (w : Fin cfg2.W) : (dat2 V O B c).A w = V c (Pipeline.arrRef spec2 w) := by
  dsimp only [dat2]

theorem after2_0 (c : Dev nD) (t : Fin cfg2.N) : (dat2 V O B c).after 0 t = blk2_0 V c t := by dsimp only [dat2]
theorem after2_1 (c : Dev nD) (t : Fin cfg2.N) : (dat2 V O B c).after 1 t = iblk2 V c 1 t := by dsimp only [dat2]
theorem after2_2 (c : Dev nD) (t : Fin cfg2.N) : (dat2 V O B c).after 2 t = iblk2 V c 2 t := by dsimp only [dat2]
theorem after2_3 (c : Dev nD) (t : Fin cfg2.N) : (dat2 V O B c).after 3 t = iblk2 V c 3 t := by dsimp only [dat2]
theorem after2_4 (c : Dev nD) (t : Fin cfg2.N) : (dat2 V O B c).after 4 t = iblk2 V c 4 t := by dsimp only [dat2]
theorem after2_5 (c : Dev nD) (t : Fin cfg2.N) : (dat2 V O B c).after 5 t
    = out2 (blk2_0 V c t) (iblk2 V c 1 t) (iblk2 V c 2 t) (iblk2 V c 3 t) (iblk2 V c 4 t) := by dsimp only [dat2]

theorem before2_0 (c : Dev nD) (t : Fin cfg2.N) (d) : (dat2 V O B c).before 0 t d = blk2_0 V c t :=
  before2_0_of V (dat2 V O B c) (A_eq2 V O B c 0) t d
theorem before2_1 (c : Dev nD) (t : Fin cfg2.N) (d) : (dat2 V O B c).before 1 t d = iblk2 V c 1 t :=
  before2_1_of V (dat2 V O B c) (A_eq2 V O B c 1) (after2_1 V O B c) t d
theorem before2_2 (c : Dev nD) (t : Fin cfg2.N) (d) : (dat2 V O B c).before 2 t d = iblk2 V c 2 t :=
  before2_2_of V (dat2 V O B c) (A_eq2 V O B c 2) (after2_2 V O B c) t d
theorem before2_3 (c : Dev nD) (t : Fin cfg2.N) (d) : (dat2 V O B c).before 3 t d = iblk2 V c 3 t :=
  before2_3_of V (dat2 V O B c) (A_eq2 V O B c 3) (after2_3 V O B c) t d
theorem before2_4 (c : Dev nD) (t : Fin cfg2.N) (d) : (dat2 V O B c).before 4 t d = iblk2 V c 4 t :=
  before2_4_of V (dat2 V O B c) (A_eq2 V O B c 4) (after2_4 V O B c) t d

def bodyPre2 (c : Dev nD) (t : Fin cfg2.N) : sProp 𝕄 :=
  iprop((dat2 V O B c).Φ t.castSucc ∗ (dat2 V O B c).owesAt (none : HIx 1) t.castSucc
    ∗ (∃ d, owns (c : Thread nD τ) (st2_0 t) fullShare ((dat2 V O B c).before 0 t d))
    ∗ (∃ d, owns (c : Thread nD τ) (st2_1 t) fullShare ((dat2 V O B c).before 1 t d))
    ∗ (∃ d, owns (c : Thread nD τ) (st2_2 t) fullShare ((dat2 V O B c).before 2 t d))
    ∗ (∃ d, owns (c : Thread nD τ) (st2_3 t) fullShare ((dat2 V O B c).before 3 t d))
    ∗ (∃ d, owns (c : Thread nD τ) (st2_4 t) fullShare ((dat2 V O B c).before 4 t d))
    ∗ (∃ d, owns (c : Thread nD τ) (st2_5 t) fullShare ((dat2 V O B c).before 5 t d)))

def bodyPost2 (c : Dev nD) (t : Fin cfg2.N) : sProp 𝕄 :=
  iprop((dat2 V O B c).Φ t.succ ∗ (dat2 V O B c).owesAt (none : HIx 1) t.succ
    ∗ owns (c : Thread nD τ) (st2_0 t) fullShare ((dat2 V O B c).after 0 t)
    ∗ owns (c : Thread nD τ) (st2_1 t) fullShare ((dat2 V O B c).after 1 t)
    ∗ owns (c : Thread nD τ) (st2_2 t) fullShare ((dat2 V O B c).after 2 t)
    ∗ owns (c : Thread nD τ) (st2_3 t) fullShare ((dat2 V O B c).after 3 t)
    ∗ owns (c : Thread nD τ) (st2_4 t) fullShare ((dat2 V O B c).after 4 t)
    ∗ owns (c : Thread nD τ) (st2_5 t) fullShare ((dat2 V O B c).after 5 t))

theorem sound_body2 (c : Dev nD) (t : Fin cfg2.N) :
    bodyPre2 V O B c t ⊢ wp frame (wpE (defs₀ (F := F)) Variants.none c none) Set.univ (bodyAt2 t) (fun _ => bodyPost2 V O B c t) := by
  unfold bodyPre2 bodyPost2 bodyAt2
  simp only [before2_0, before2_1, before2_2, before2_3, before2_4]
  rw [show (dat2 V O B c).Φ t.succ = (dat2 V O B c).Φ t.castSucc from rfl,
    show (dat2 V O B c).owesAt (none : HIx 1) t.succ = (dat2 V O B c).owesAt (none : HIx 1) t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ _ _
    (blk2_0 V c t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) :
    BodyObligation (dat2 (F := F) V O B c) (defs₀ (F := F)) Variants.none (none : HIx 1) Set.univ := fun t => by
  rw [bigSep_W2, bigSep_W2]
  exact sound_body2 V O B c t

end Cert.KernelIdeal.Hand

end
-- ==== Proof.KI.Wait0.lean ====
import proofs.«214604_g3212635537896_cont_8to1_b_1509_14_alg».proof.Proof.KI.Base
import Idealize.ShloMosaic.Lib.SparseCore.Threads
import Idealize.ShloMosaic.Lib.Pipeline.Sound

noncomputable section

namespace Cert.KernelIdeal.Hand

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this
  omega

theorem hwaits_none
    (pdats : (p : Fin 2) → (c : Dev nD) →
      Pipeline.Dat τ (Elt F) (HIx 1) ℕ UU ℕ (Pipeline.pin (pcfgs (F := F)) (fun p => (cfgs p).toPCfg_adm) p) c)
    (p : Fin 2) (hO : ∀ c t g, (pdats p c).owed t g none = 0) (c : Dev nD) :
    (levAts (K (F := F)).L (K (F := F)).lev : sProp 𝕄)
      ⊢ Pipeline.cellsWaits (Pipeline.pin (pcfgs (F := F)) (fun p => (cfgs p).toPCfg_adm)) pdats (none : HIx 1) p c :=
  Pipeline.cellsWaits_intro (Pipeline.pin (pcfgs (F := F)) (fun p => (cfgs p).toPCfg_adm)) pdats (none : HIx 1) p c
    fun w s t => SparseCore.Cfg.mayWait_none (K := K (F := F)) _ (hO c t)

end Cert.KernelIdeal.Hand

end
-- ==== Proof.KI.Chain.lean ====
import proofs.«214604_g3212635537896_cont_8to1_b_1509_14_alg».proof.Proof.KI.Ops
import proofs.«214604_g3212635537896_cont_8to1_b_1509_14_alg».proof.Proof.KI.Region0
import proofs.«214604_g3212635537896_cont_8to1_b_1509_14_alg».proof.Proof.KI.Region2
import proofs.«214604_g3212635537896_cont_8to1_b_1509_14_alg».proof.Proof.KI.Wait0
import Idealize.ShloMosaic.Lib.Pipeline.RegionsLoop

set_option maxRecDepth 16384

noncomputable section

namespace Cert.KernelIdeal.Hand

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

variable (m : (ℓ : Loc nD τ sig) → Buf (Elt F) ℓ)

abbrev Ow (n : ℕ) (d : Dev nD) : CellTallies nD τ sig (HIx 1) := (K (F := F)).Otc d n

abbrev Bd (n : ℕ) (d : Dev nD) : Set (SemLoc sig × HIx 1) := {p | (K (F := F)).lev ((T d : Thread nD τ), p.1) p.2 ≤ 8 * n}

abbrev W0 (d : Dev nD) : Valuation τ sig (Elt F) := fun b => m (d, b)
abbrev W1 (d : Dev nD) : Valuation τ sig (Elt F) := StableHlo.after opsA (W0 m d)
abbrev V1 : (c : Dev nD) → (b : Ref sig .tc) → Buf (Elt F) ((c : Thread nD τ).loc b) := fun c b => W1 m c b

def W2 (d : Dev nD) : Valuation τ sig (Elt F) :=
  Pipeline.withArrays spec0 d (W1 m d) fun w => (dat0 (V1 m) (Ow (F := F) 0) (Bd (F := F) 0) d).arrAt w cfg0.N
theorem W2_arr (d : Dev nD) (w : Fin cfg0.W) :
    W2 m d (Proc.devRef .tc (Pipeline.arrRef spec0 w)) = (dat0 (V1 m) (Ow (F := F) 0) (Bd (F := F) 0) d).arrAt w cfg0.N := by
  unfold W2; exact Pipeline.withArrays_arr spec0 launch0.win.arr_inj d _ _ w
theorem W2_of_ne (d : Dev nD) (b : Ref sig .tc) (hb : ∀ w, Pipeline.arrRef spec0 w ≠ b) :
    W2 m d (Proc.devRef .tc b) = W1 m d (Proc.devRef .tc b) := by
  unfold W2; exact Pipeline.withArrays_of_ne spec0 d _ _ b hb
abbrev V2 : (c : Dev nD) → (b : Ref sig .tc) → Buf (Elt F) ((c : Thread nD τ).loc b) := fun c b => W2 m c b
theorem hF0 (d : Dev nD) (w : Fin cfg0.W) : (dat0 (V1 m) (Ow (F := F) 0) (Bd (F := F) 0) d).arrAt w cfg0.N = V2 m d (Pipeline.arrRef spec0 w) :=
  (W2_arr m d w).symm
theorem hrest0 (d : Dev nD) : ∀ b, b ∉ Finset.univ.image (Pipeline.arrRef spec0) → V2 m d b = V1 m d b :=
  fun b hb => W2_of_ne m d b fun w e => hb (Finset.mem_image.mpr ⟨w, Finset.mem_univ _, e⟩)

abbrev W3 (d : Dev nD) : Valuation τ sig (Elt F) := StableHlo.after opsB (W2 m d)

def W4 (d : Dev nD) : Valuation τ sig (Elt F) :=
  Function.update (Function.update (W3 m d) (Proc.devRef .tc main_v7_0) (gatherF (W3 m d main_v2) (W3 m d main_v4) (W3 m d main_v7_0)))
    (Proc.devRef .tc main_v7_1) (gatherE (W3 m d main_arg0) (W3 m d main_v6))

abbrev W5 (d : Dev nD) : Valuation τ sig (Elt F) := StableHlo.after opsC (W4 m d)
abbrev V5 : (c : Dev nD) → (b : Ref sig .tc) → Buf (Elt F) ((c : Thread nD τ).loc b) := fun c b => W5 m c b

def W6 (d : Dev nD) : Valuation τ sig (Elt F) :=
  Pipeline.withArrays spec2 d (W5 m d) fun w => (dat2 (V5 m) (Ow (F := F) 1) (Bd (F := F) 1) d).arrAt w cfg2.N
theorem W6_arr (d : Dev nD) (w : Fin cfg2.W) :
    W6 m d (Proc.devRef .tc (Pipeline.arrRef spec2 w)) = (dat2 (V5 m) (Ow (F := F) 1) (Bd (F := F) 1) d).arrAt w cfg2.N := by
  unfold W6; exact Pipeline.withArrays_arr spec2 launch2.win.arr_inj d _ _ w
theorem W6_of_ne (d : Dev nD) (b : Ref sig .tc) (hb : ∀ w, Pipeline.arrRef spec2 w ≠ b) :
    W6 m d (Proc.devRef .tc b) = W5 m d (Proc.devRef .tc b) := by
  unfold W6; exact Pipeline.withArrays_of_ne spec2 d _ _ b hb
abbrev V6 : (c : Dev nD) → (b : Ref sig .tc) → Buf (Elt F) ((c : Thread nD τ).loc b) := fun c b => W6 m c b
theorem hF2 (d : Dev nD) (w : Fin cfg2.W) : (dat2 (V5 m) (Ow (F := F) 1) (Bd (F := F) 1) d).arrAt w cfg2.N = V6 m d (Pipeline.arrRef spec2 w) :=
  (W6_arr m d w).symm
theorem hrest2 (d : Dev nD) : ∀ b, b ∉ Finset.univ.image (Pipeline.arrRef spec2) → V6 m d b = V5 m d b :=
  fun b hb => W6_of_ne m d b fun w e => hb (Finset.mem_image.mpr ⟨w, Finset.mem_univ _, e⟩)

abbrev W7 (d : Dev nD) : Valuation τ sig (Elt F) := StableHlo.after opsD (W6 m d)

abbrev adm : (p : Fin 2) → (pcfgs (F := F) p).Adm := fun p => (cfgs p).toPCfg_adm

def pdats : (p : Fin 2) → (c : Dev nD) → Dat τ (Elt F) (HIx 1) ℕ UU ℕ (Pipeline.pin (pcfgs (F := F)) adm p) c
  | ⟨0, _⟩ => fun c => dat0 (V1 m) (Ow (F := F) 0) (Bd (F := F) 0) c
  | ⟨1, _⟩ => fun c => dat2 (V5 m) (Ow (F := F) 1) (Bd (F := F) 1) c

theorem pdats_owed_none (p : Fin 2) (c : Dev nD) (t) (g : GSem nD τ sig) : (pdats m p c).owed t g none = 0 := by
  match p with
  | ⟨0, _⟩ => exact Otc_none c 0 g
  | ⟨1, _⟩ => exact Otc_none c 1 g

abbrev R (n : ℕ) (c : Dev nD) : sProp 𝕄 :=
  iprop((∃ r, prngReg c r) ∗ ∃ W, ⌜↑W ⊆ Bd (F := F) n c⌝ ∗ owes (c : Thread nD τ) (Ow (F := F) n c) W)

set_option backward.isDefEq.respectTransparency.types false in

def reg0 : Pipeline.RegionSeg (pcfgs (F := F)) adm (pdats m) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 (V1 m) (Ow (F := F) 0) (Bd (F := F) 0) c).loose
  hwaits := hwaits_none (pdats m) 0 (fun c t g => pdats_owed_none m 0 c t g)
  pre c := iprop(StableHlo.held (c : Thread nD τ) (Pipeline.ucRefs τ sig) (W1 m c) ∗ R (F := F) 0 c)
  post c := iprop(StableHlo.held (c : Thread nD τ) (Pipeline.ucRefs τ sig) (W2 m c) ∗ R (F := F) 0 c)
  X c := iprop(∃ r, prngReg c r)
  Y c := iprop(∃ r, prngReg c r)
  Z c := Pipeline.unscopedRest (Ix := HIx 1) (Name := ℕ) (U := UU) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW hp)
      iexact HO
    isplitl [Hp]; · iexact Hp
    iexact Hrest
  hin c := by
    rw [show (pdats m 0 c).Φ 0 = ΦH spec0 c from rfl]; unfold ΦH
    iintro ⟨Hp, -, Hr⟩
    isplitl [Hr]; · iexact Hr
    iexact Hp
  hout c := by
    rw [Pipeline.ownSems0_none, show (pdats m 0 c).Φ (Fin.last _) = ΦH spec0 c from rfl]; unfold ΦH
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro
      intro p hp
      rcases hW hp with h | ⟨w, s, rfl⟩
      · exact h
      · show (K (F := F)).lev _ none ≤ _; exact (le_of_eq (SparseCore.Cfg.lev_none _ _)).trans (Nat.zero_le _)
    iexact HO

set_option backward.isDefEq.respectTransparency.types false in

def reg2 : Pipeline.RegionSeg (pcfgs (F := F)) adm (pdats m) (none : HIx 1) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation2 (V5 m) (Ow (F := F) 1) (Bd (F := F) 1) c).loose
  hwaits := hwaits_none (pdats m) 1 (fun c t g => pdats_owed_none m 1 c t g)
  pre c := iprop(StableHlo.held (c : Thread nD τ) (Pipeline.ucRefs τ sig) (W5 m c) ∗ R (F := F) 1 c)
  post c := iprop(StableHlo.held (c : Thread nD τ) (Pipeline.ucRefs τ sig) (W6 m c) ∗ R (F := F) 1 c)
  X c := iprop(∃ r, prngReg c r)
  Y c := iprop(∃ r, prngReg c r)
  Z c := Pipeline.unscopedRest (Ix := HIx 1) (Name := ℕ) (U := UU) (Lvl := ℕ) spec2 c (V5 m c)
  hentry c := by
    rw [Pipeline.ownSems0_none]
    have hsplit := Pipeline.arrays_of_unscopedBufs (p := 1) (pcfgs (F := F)) adm (pdats m) launch2.win launch2.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW hp)
      iexact HO
    isplitl [Hp]; · iexact Hp
    iexact Hrest
  hin c := by
    rw [show (pdats m 1 c).Φ 0 = ΦH spec2 c from rfl]; unfold ΦH
    iintro ⟨Hp, -, Hr⟩
    isplitl [Hr]; · iexact Hr
    iexact Hp
  hout c := by
    rw [Pipeline.ownSems0_none, show (pdats m 1 c).Φ (Fin.last _) = ΦH spec2 c from rfl]; unfold ΦH
    iintro ⟨Hr, Hp⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats m) ((pdats m 1 c).share_full fun _ => rfl)
      (V5 m c) (V6 m c) ((pdats m 1 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro
      intro p hp
      rcases hW hp with h | ⟨w, s, rfl⟩
      · exact h
      · show (K (F := F)).lev _ none ≤ _; exact (le_of_eq (SparseCore.Cfg.lev_none _ _)).trans (Nat.zero_le _)
    iexact HO

end Cert.KernelIdeal.Hand

end
-- ==== Proof.KI.Args.lean ====
import proofs.«214604_g3212635537896_cont_8to1_b_1509_14_alg».proof.Proof.KI.Chain

set_option maxRecDepth 16384

noncomputable section

namespace Cert.KernelIdeal.Hand

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

variable (m : (ℓ : Loc nD τ sig) → Buf (Elt F) ℓ)

theorem W1_of_ne (d : Dev nD) (b : Ref sig .tc) (h0 : b ≠ main_v0) (h1 : b ≠ main_v1) :
    W1 m d (Proc.devRef .tc b) = W0 m d (Proc.devRef .tc b) := by
  refine StableHlo.after_of_forall_not_mem (b := Proc.devRef .tc b) _ _ (List.forall_iff_forall_mem.mp ?_)
  simp only [opsA, op_v0, op_v1, List.Forall, StableHlo.reshape_writes, Finset.mem_singleton]
  exact ⟨StableHlo.devRef_ne_of_ne h0, StableHlo.devRef_ne_of_ne h1⟩

theorem W2_in (d : Dev nD) (w : Fin cfg0.W) (hin : (cfg0.win w).isOut = false) :
    W2 m d (Proc.devRef .tc (Pipeline.arrRef spec0 w)) = W1 m d (Proc.devRef .tc (Pipeline.arrRef spec0 w)) :=
  (W2_arr m d w).trans (((dat0 (V1 m) (Ow (F := F) 0) (Bd (F := F) 0) d).arrAt_in w hin _).trans
    (A_eq0 (V1 m) (Ow (F := F) 0) (Bd (F := F) 0) d w))

theorem W3_of_ne (d : Dev nD) (b : Ref sig .tc) (hc : b ≠ main_c) (h3 : b ≠ main_v3) (h4 : b ≠ main_v4)
    (hc0 : b ≠ main_c_0) (h5 : b ≠ main_v5) (h6 : b ≠ main_v6) :
    W3 m d (Proc.devRef .tc b) = W2 m d (Proc.devRef .tc b) := by
  refine StableHlo.after_of_forall_not_mem (b := Proc.devRef .tc b) _ _ (List.forall_iff_forall_mem.mp ?_)
  simp only [opsB, op_c, op_v3, op_v4, op_c_0, op_v5, op_v6, List.Forall, StableHlo.nullary_writes, StableHlo.unary_writes,
    StableHlo.binary_writes, Finset.mem_singleton]
  exact ⟨StableHlo.devRef_ne_of_ne hc, StableHlo.devRef_ne_of_ne h3, StableHlo.devRef_ne_of_ne h4,
    StableHlo.devRef_ne_of_ne hc0, StableHlo.devRef_ne_of_ne h5, StableHlo.devRef_ne_of_ne h6⟩

theorem W4_of_ne (d : Dev nD) (b : Ref sig .tc) (h0 : b ≠ main_v7_0) (h1 : b ≠ main_v7_1) :
    W4 m d (Proc.devRef .tc b) = W3 m d (Proc.devRef .tc b) := by
  unfold W4
  rw [Function.update_of_ne (StableHlo.devRef_ne_of_ne h1), Function.update_of_ne (StableHlo.devRef_ne_of_ne h0)]

theorem W5_of_ne (d : Dev nD) (b : Ref sig .tc) (h8 : b ≠ main_v8) (h9 : b ≠ main_v9) (h10 : b ≠ main_v10) :
    W5 m d (Proc.devRef .tc b) = W4 m d (Proc.devRef .tc b) := by
  refine StableHlo.after_of_forall_not_mem (b := Proc.devRef .tc b) _ _ (List.forall_iff_forall_mem.mp ?_)
  simp only [opsC, op_v8, op_v9, op_v10, List.Forall, StableHlo.reshape_writes, StableHlo.unary_writes, Finset.mem_singleton]
  exact ⟨StableHlo.devRef_ne_of_ne h8, StableHlo.devRef_ne_of_ne h9, StableHlo.devRef_ne_of_ne h10⟩

theorem W6_in (d : Dev nD) (w : Fin cfg2.W) (hin : (cfg2.win w).isOut = false) :
    W6 m d (Proc.devRef .tc (Pipeline.arrRef spec2 w)) = W5 m d (Proc.devRef .tc (Pipeline.arrRef spec2 w)) :=
  (W6_arr m d w).trans (((dat2 (V5 m) (Ow (F := F) 1) (Bd (F := F) 1) d).arrAt_in w hin _).trans
    (A_eq2 (V5 m) (Ow (F := F) 1) (Bd (F := F) 1) d w))

theorem W7_of_ne (d : Dev nD) (b : Ref sig .tc) (h11 : b ≠ main_v11) :
    W7 m d (Proc.devRef .tc b) = W6 m d (Proc.devRef .tc b) := by
  refine StableHlo.after_of_forall_not_mem (b := Proc.devRef .tc b) _ _ (List.forall_iff_forall_mem.mp ?_)
  simp only [opsD, op_v11, List.Forall, StableHlo.binary_writes, Finset.mem_singleton]
  exact StableHlo.devRef_ne_of_ne h11

theorem W5_of_launch (d : Dev nD) (b : Ref sig .tc)
    (hA : b ≠ main_v0 ∧ b ≠ main_v1) (h0 : ∀ w, Pipeline.arrRef spec0 w ≠ b)
    (hB : b ≠ main_c ∧ b ≠ main_v3 ∧ b ≠ main_v4 ∧ b ≠ main_c_0 ∧ b ≠ main_v5 ∧ b ≠ main_v6)
    (hS : b ≠ main_v7_0 ∧ b ≠ main_v7_1) (hC : b ≠ main_v8 ∧ b ≠ main_v9 ∧ b ≠ main_v10) :
    W5 m d (Proc.devRef .tc b) = m ((d : Thread nD τ).loc b) :=
  (W5_of_ne m d b hC.1 hC.2.1 hC.2.2).trans <| (W4_of_ne m d b hS.1 hS.2).trans <|
    (W3_of_ne m d b hB.1 hB.2.1 hB.2.2.1 hB.2.2.2.1 hB.2.2.2.2.1 hB.2.2.2.2.2).trans <|
    (W2_of_ne m d b h0).trans <| W1_of_ne m d b hA.1 hA.2

theorem W5_of_launch_in (d : Dev nD) (w : Fin cfg0.W) (hin : (cfg0.win w).isOut = false)
    (hA : Pipeline.arrRef spec0 w ≠ main_v0 ∧ Pipeline.arrRef spec0 w ≠ main_v1)
    (hB : Pipeline.arrRef spec0 w ≠ main_c ∧ Pipeline.arrRef spec0 w ≠ main_v3 ∧ Pipeline.arrRef spec0 w ≠ main_v4
      ∧ Pipeline.arrRef spec0 w ≠ main_c_0 ∧ Pipeline.arrRef spec0 w ≠ main_v5 ∧ Pipeline.arrRef spec0 w ≠ main_v6)
    (hS : Pipeline.arrRef spec0 w ≠ main_v7_0 ∧ Pipeline.arrRef spec0 w ≠ main_v7_1)
    (hC : Pipeline.arrRef spec0 w ≠ main_v8 ∧ Pipeline.arrRef spec0 w ≠ main_v9 ∧ Pipeline.arrRef spec0 w ≠ main_v10) :
    W5 m d (Proc.devRef .tc (Pipeline.arrRef spec0 w)) = m ((d : Thread nD τ).loc (Pipeline.arrRef spec0 w)) :=
  (W5_of_ne m d _ hC.1 hC.2.1 hC.2.2).trans <| (W4_of_ne m d _ hS.1 hS.2).trans <|
    (W3_of_ne m d _ hB.1 hB.2.1 hB.2.2.1 hB.2.2.2.1 hB.2.2.2.2.1 hB.2.2.2.2.2).trans <|
    (W2_in m d w hin).trans <| W1_of_ne m d _ hA.1 hA.2

theorem W5_main_arg0 (d : Dev nD) : W5 m d (Proc.devRef .tc main_arg0) = m ((d : Thread nD τ).loc main_arg0) :=
  W5_of_launch_in m d 0 rfl (by decide) (by decide) (by decide) (by decide)

theorem W5_main_arg1 (d : Dev nD) : W5 m d (Proc.devRef .tc main_arg1) = m ((d : Thread nD τ).loc main_arg1) :=
  W5_of_launch m d main_arg1 (by decide) (by decide) (by decide) (by decide) (by decide)

theorem W5_main_arg2 (d : Dev nD) : W5 m d (Proc.devRef .tc main_arg2) = m ((d : Thread nD τ).loc main_arg2) :=
  W5_of_launch m d main_arg2 (by decide) (by decide) (by decide) (by decide) (by decide)

theorem W5_main_arg3 (d : Dev nD) : W5 m d (Proc.devRef .tc main_arg3) = m ((d : Thread nD τ).loc main_arg3) :=
  W5_of_launch_in m d 1 rfl (by decide) (by decide) (by decide) (by decide)

theorem W5_main_arg4 (d : Dev nD) : W5 m d (Proc.devRef .tc main_arg4) = m ((d : Thread nD τ).loc main_arg4) :=
  W5_of_launch m d main_arg4 (by decide) (by decide) (by decide) (by decide) (by decide)

theorem W5_main_arg5 (d : Dev nD) : W5 m d (Proc.devRef .tc main_arg5) = m ((d : Thread nD τ).loc main_arg5) :=
  W5_of_launch_in m d 3 rfl (by decide) (by decide) (by decide) (by decide)

theorem W5_main_arg6 (d : Dev nD) : W5 m d (Proc.devRef .tc main_arg6) = m ((d : Thread nD τ).loc main_arg6) :=
  W5_of_launch m d main_arg6 (by decide) (by decide) (by decide) (by decide) (by decide)

theorem W5_main_arg7 (d : Dev nD) : W5 m d (Proc.devRef .tc main_arg7) = m ((d : Thread nD τ).loc main_arg7) :=
  W5_of_launch m d main_arg7 (by decide) (by decide) (by decide) (by decide) (by decide)

theorem W5_main_arg8 (d : Dev nD) : W5 m d (Proc.devRef .tc main_arg8) = m ((d : Thread nD τ).loc main_arg8) :=
  W5_of_launch m d main_arg8 (by decide) (by decide) (by decide) (by decide) (by decide)

theorem W5_main_arg9 (d : Dev nD) : W5 m d (Proc.devRef .tc main_arg9) = m ((d : Thread nD τ).loc main_arg9) :=
  W5_of_launch m d main_arg9 (by decide) (by decide) (by decide) (by decide) (by decide)

theorem W5_main_arg10 (d : Dev nD) : W5 m d (Proc.devRef .tc main_arg10) = m ((d : Thread nD τ).loc main_arg10) :=
  W5_of_launch m d main_arg10 (by decide) (by decide) (by decide) (by decide) (by decide)

theorem W6_main_arg0 (d : Dev nD) : W6 m d (Proc.devRef .tc main_arg0) = m ((d : Thread nD τ).loc main_arg0) :=
  (W6_of_ne m d main_arg0 (by decide)).trans (W5_main_arg0 m d)

theorem W6_main_arg1 (d : Dev nD) : W6 m d (Proc.devRef .tc main_arg1) = m ((d : Thread nD τ).loc main_arg1) :=
  (W6_of_ne m d main_arg1 (by decide)).trans (W5_main_arg1 m d)

theorem W6_main_arg2 (d : Dev nD) : W6 m d (Proc.devRef .tc main_arg2) = m ((d : Thread nD τ).loc main_arg2) :=
  (W6_of_ne m d main_arg2 (by decide)).trans (W5_main_arg2 m d)

theorem W6_main_arg3 (d : Dev nD) : W6 m d (Proc.devRef .tc main_arg3) = m ((d : Thread nD τ).loc main_arg3) :=
  (W6_of_ne m d main_arg3 (by decide)).trans (W5_main_arg3 m d)

theorem W6_main_arg4 (d : Dev nD) : W6 m d (Proc.devRef .tc main_arg4) = m ((d : Thread nD τ).loc main_arg4) :=
  (W6_of_ne m d main_arg4 (by decide)).trans (W5_main_arg4 m d)

theorem W6_main_arg5 (d : Dev nD) : W6 m d (Proc.devRef .tc main_arg5) = m ((d : Thread nD τ).loc main_arg5) :=
  (W6_of_ne m d main_arg5 (by decide)).trans (W5_main_arg5 m d)

theorem W6_main_arg6 (d : Dev nD) : W6 m d (Proc.devRef .tc main_arg6) = m ((d : Thread nD τ).loc main_arg6) :=
  (W6_of_ne m d main_arg6 (by decide)).trans (W5_main_arg6 m d)

theorem W6_main_arg7 (d : Dev nD) : W6 m d (Proc.devRef .tc main_arg7) = m ((d : Thread nD τ).loc main_arg7) :=
  (W6_in m d 1 rfl).trans (W5_main_arg7 m d)

theorem W6_main_arg8 (d : Dev nD) : W6 m d (Proc.devRef .tc main_arg8) = m ((d : Thread nD τ).loc main_arg8) :=
  (W6_of_ne m d main_arg8 (by decide)).trans (W5_main_arg8 m d)

theorem W6_main_arg9 (d : Dev nD) : W6 m d (Proc.devRef .tc main_arg9) = m ((d : Thread nD τ).loc main_arg9) :=
  (W6_in m d 3 rfl).trans (W5_main_arg9 m d)

theorem W6_main_arg10 (d : Dev nD) : W6 m d (Proc.devRef .tc main_arg10) = m ((d : Thread nD τ).loc main_arg10) :=
  (W6_of_ne m d main_arg10 (by decide)).trans (W5_main_arg10 m d)

theorem W7_main_arg0 (d : Dev nD) : W7 m d (Proc.devRef .tc main_arg0) = m ((d : Thread nD τ).loc main_arg0) :=
  (W7_of_ne m d main_arg0 (by decide)).trans (W6_main_arg0 m d)

theorem W7_main_arg1 (d : Dev nD) : W7 m d (Proc.devRef .tc main_arg1) = m ((d : Thread nD τ).loc main_arg1) :=
  (W7_of_ne m d main_arg1 (by decide)).trans (W6_main_arg1 m d)

theorem W7_main_arg2 (d : Dev nD) : W7 m d (Proc.devRef .tc main_arg2) = m ((d : Thread nD τ).loc main_arg2) :=
  (W7_of_ne m d main_arg2 (by decide)).trans (W6_main_arg2 m d)

theorem W7_main_arg3 (d : Dev nD) : W7 m d (Proc.devRef .tc main_arg3) = m ((d : Thread nD τ).loc main_arg3) :=
  (W7_of_ne m d main_arg3 (by decide)).trans (W6_main_arg3 m d)

theorem W7_main_arg4 (d : Dev nD) : W7 m d (Proc.devRef .tc main_arg4) = m ((d : Thread nD τ).loc main_arg4) :=
  (W7_of_ne m d main_arg4 (by decide)).trans (W6_main_arg4 m d)

theorem W7_main_arg5 (d : Dev nD) : W7 m d (Proc.devRef .tc main_arg5) = m ((d : Thread nD τ).loc main_arg5) :=
  (W7_of_ne m d main_arg5 (by decide)).trans (W6_main_arg5 m d)

theorem W7_main_arg6 (d : Dev nD) : W7 m d (Proc.devRef .tc main_arg6) = m ((d : Thread nD τ).loc main_arg6) :=
  (W7_of_ne m d main_arg6 (by decide)).trans (W6_main_arg6 m d)

theorem W7_main_arg7 (d : Dev nD) : W7 m d (Proc.devRef .tc main_arg7) = m ((d : Thread nD τ).loc main_arg7) :=
  (W7_of_ne m d main_arg7 (by decide)).trans (W6_main_arg7 m d)

theorem W7_main_arg8 (d : Dev nD) : W7 m d (Proc.devRef .tc main_arg8) = m ((d : Thread nD τ).loc main_arg8) :=
  (W7_of_ne m d main_arg8 (by decide)).trans (W6_main_arg8 m d)

theorem W7_main_arg9 (d : Dev nD) : W7 m d (Proc.devRef .tc main_arg9) = m ((d : Thread nD τ).loc main_arg9) :=
  (W7_of_ne m d main_arg9 (by decide)).trans (W6_main_arg9 m d)

theorem W7_main_arg10 (d : Dev nD) : W7 m d (Proc.devRef .tc main_arg10) = m ((d : Thread nD τ).loc main_arg10) :=
  (W7_of_ne m d main_arg10 (by decide)).trans (W6_main_arg10 m d)

theorem W7_main_v10 (d : Dev nD) :
    W7 m d (Proc.devRef .tc main_v10) = (dat2 (V5 m) (Ow (F := F) 1) (Bd (F := F) 1) d).arrAt 5 cfg2.N :=
  (W7_of_ne m d main_v10 (by decide)).trans (W6_arr m d 5)

theorem W7_main_v11 (d : Dev nD) :
    W7 m d (Proc.devRef .tc main_v11)
      = concatenate S600000 0 [⟨S200000, m ((d : Thread nD τ).loc main_arg1)⟩, ⟨S400000, m ((d : Thread nD τ).loc main_arg2)⟩]
          concatenates_S200000_S400000_S600000_d0 := by
  have h : W7 m d (Proc.devRef .tc main_v11)
      = concatenate S600000 0 [⟨S200000, W6 m d (Proc.devRef .tc main_arg1)⟩, ⟨S400000, W6 m d (Proc.devRef .tc main_arg2)⟩]
          concatenates_S200000_S400000_S600000_d0 := by
    show StableHlo.after opsD (W6 m d) (Proc.devRef .tc main_v11) = _
    simp only [opsD, op_v11]
    after_results
  rw [h, W6_main_arg1, W6_main_arg2]

end Cert.KernelIdeal.Hand

end
-- ==== Proof.KI.Chunks.lean ====
import proofs.«214604_g3212635537896_cont_8to1_b_1509_14_alg».proof.Proof.KI.Base

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}
variable {U : Type} [URA U]

local notation "𝕄" => MT nD τ sig (HIx 1) (Elt F) ℕ U ℕ

section Blocks

variable {ℓ : Loc nD τ sig} {n : ℕ} (B : Fin 2 → Fin 16 → Fin n → Fin 2 → Finset (Idx ℓ))

def trip (c : Fin 2) (s : Fin 16) (k : Fin n) : Finset (Idx ℓ) := B c s k 0 ∪ B c s k 1
def tileSet (c : Fin 2) (s : Fin 16) : Finset (Idx ℓ) := Finset.univ.biUnion (trip B c s)
def coreSet (c : Fin 2) : Finset (Idx ℓ) := Finset.univ.biUnion (tileSet B c)
def blocksOf : Finset (Idx ℓ) := Finset.univ.biUnion (coreSet B)

theorem mem_tileSet {c : Fin 2} {s : Fin 16} {i : Idx ℓ} : i ∈ tileSet B c s ↔ ∃ k, i ∈ B c s k 0 ∨ i ∈ B c s k 1 := by
  simp only [tileSet, trip, Finset.mem_biUnion, Finset.mem_union, Finset.mem_univ, true_and]

theorem mem_coreSet {c : Fin 2} {i : Idx ℓ} : i ∈ coreSet B c ↔ ∃ s k, i ∈ B c s k 0 ∨ i ∈ B c s k 1 := by
  simp only [coreSet, mem_tileSet, Finset.mem_biUnion, Finset.mem_univ, true_and]

variable (row : Idx ℓ → ℕ)
  (hB : ∀ c s k p i, i ∈ B c s k p ↔ 448 * (2 * s.val + c.val + 64 * k.val + 32 * p.val) ≤ row i
    ∧ row i < 448 * (2 * s.val + c.val + 64 * k.val + 32 * p.val) + 448)
include hB

-- Blocks of 448 rows numbered 2 s + c + 64 k + 32 p: the number determines c < 2, s < 16, p < 2 and k, so two blocks that share a row are one.
theorem block_inj {c c' : Fin 2} {s s' : Fin 16} {k k' : Fin n} {p p' : Fin 2} {i : Idx ℓ}
    (h : i ∈ B c s k p) (h' : i ∈ B c' s' k' p') : c = c' ∧ s = s' ∧ k = k' ∧ p = p' := by
  have h := (hB c s k p i).1 h
  have h' := (hB c' s' k' p' i).1 h'
  have := c.isLt; have := c'.isLt; have := s.isLt; have := s'.isLt; have := p.isLt; have := p'.isLt
  refine ⟨Fin.ext ?_, Fin.ext ?_, Fin.ext ?_, Fin.ext ?_⟩ <;> omega

-- Together the blocks are the rows below 448 · 64 · n.
theorem mem_blocksOf (i : Idx ℓ) : i ∈ blocksOf B ↔ row i < 28672 * n := by
  simp only [blocksOf, mem_coreSet, Finset.mem_biUnion, Finset.mem_univ, true_and, hB, Fin.val_zero, Fin.val_one]
  constructor
  · rintro ⟨c, s, k, h | h⟩ <;> (have := c.isLt; have := s.isLt; have := k.isLt; omega)
  · intro h
    refine ⟨⟨row i / 448 % 2, by omega⟩, ⟨row i / 448 / 2 % 16, by omega⟩, ⟨row i / 448 / 64, by omega⟩, ?_⟩
    rcases Nat.lt_or_ge (row i / 448 / 32 % 2) 1 with h1 | h1
    · left; simp only; omega
    · right; simp only; omega

-- So the rows below that bound, held at one valuation, are the blocks held one by one.
theorem blocks_split (q : PosShare TreeShare) (g : Buf (Elt F) ℓ) :
    (ℓ ↦[blocksOf B]{q} g : sProp 𝕄)
      = bigSep Finset.univ fun c : Fin 2 => bigSep Finset.univ fun s : Fin 16 => bigSep Finset.univ fun k : Fin n =>
          iprop((ℓ ↦[B c s k 0]{q} g) ∗ ℓ ↦[B c s k 1]{q} g) := by
  unfold blocksOf
  rw [pointsTo_biUnion Finset.univ (coreSet B) fun c _ c' _ hc => Finset.disjoint_left.2 fun i h h' => by
    obtain ⟨s, k, h | h⟩ := (mem_coreSet B).1 h <;> obtain ⟨s', k', h' | h'⟩ := (mem_coreSet B).1 h' <;>
      exact hc (block_inj B row hB h h').1]
  refine bigSep_congr fun c _ => ?_
  unfold coreSet
  rw [pointsTo_biUnion Finset.univ (tileSet B c) fun s _ s' _ hs => Finset.disjoint_left.2 fun i h h' => by
    obtain ⟨k, h | h⟩ := (mem_tileSet B).1 h <;> obtain ⟨k', h' | h'⟩ := (mem_tileSet B).1 h' <;>
      exact hs (block_inj B row hB h h').2.1]
  refine bigSep_congr fun s _ => ?_
  unfold tileSet
  rw [pointsTo_biUnion Finset.univ (trip B c s) fun k _ k' _ hk => Finset.disjoint_left.2 fun i h h' => by
    rcases Finset.mem_union.1 h with h | h <;> rcases Finset.mem_union.1 h' with h' | h' <;>
      exact hk (block_inj B row hB h h').2.2.1]
  refine bigSep_congr fun k _ => ?_
  have h : (ℓ ↦[B c s k 0 ∪ B c s k 1]{q} g : sProp 𝕄) ⊣⊢ iprop((ℓ ↦[B c s k 0]{q} g) ∗ ℓ ↦[B c s k 1]{q} g) :=
    pointsTo_union (Finset.disjoint_left.2 fun i h h' => absurd (block_inj B row hB h h').2.2.2 (by decide))
  exact BI.equiv_iff.mp ⟨h.1, h.2⟩

-- The whole array is those blocks and the rows from the bound on.
theorem array_split (q : PosShare TreeShare) (g : Buf (Elt F) ℓ) :
    (ℓ ↦{q} g : sProp 𝕄)
      = iprop((bigSep Finset.univ fun c : Fin 2 => bigSep Finset.univ fun s : Fin 16 => bigSep Finset.univ fun k : Fin n =>
          iprop((ℓ ↦[B c s k 0]{q} g) ∗ ℓ ↦[B c s k 1]{q} g)) ∗ ℓ ↦[Finset.univ.filter fun i => 28672 * n ≤ row i]{q} g) := by
  have h : (ℓ ↦{q} g : sProp 𝕄) ⊣⊢ iprop((ℓ ↦[blocksOf B]{q} g) ∗ ℓ ↦[Finset.univ \ blocksOf B]{q} g) :=
    pointsTo_split_subset (Finset.subset_univ _)
  have hrest : Finset.univ \ blocksOf B = Finset.univ.filter fun i => 28672 * n ≤ row i := by
    ext i
    rw [Finset.mem_sdiff, mem_blocksOf B row hB, Finset.mem_filter]
    exact ⟨fun h => ⟨h.1, by omega⟩, fun h => ⟨h.1, by omega⟩⟩
  rw [BI.equiv_iff.mp ⟨h.1, h.2⟩, blocks_split B row hB, hrest]

end Blocks

def rowBlock {N : ℕ} (lo : ℕ) : Finset (⟨2, ![N, 128]⟩ : Shape).Idx :=
  Finset.univ.filter fun i => lo ≤ (i 0).val ∧ (i 0).val < lo + 448

theorem mem_rowBlock {N : ℕ} {lo : ℕ} {i : (⟨2, ![N, 128]⟩ : Shape).Idx} :
    i ∈ rowBlock (N := N) lo ↔ lo ≤ (i 0).val ∧ (i 0).val < lo + 448 := by
  simp only [rowBlock, Finset.mem_filter, Finset.mem_univ, true_and]

theorem set_unit_rowBlock {N : ℕ} {off : Fin 2 → ℕ} (lo : ℕ) (h : off = ![lo, 0])
    (inb : ∀ a, off a + (![448, 128] : Fin 2 → ℕ) a ≤ (⟨2, ![N, 128]⟩ : Shape).size a) :
    (Rect.unit (s := ⟨2, ![N, 128]⟩) off ![448, 128] inb).set = rowBlock lo := by
  subst h
  ext i
  rw [Rect.mem_set_unit, mem_rowBlock, Fin.forall_fin_two]
  have h1 : (i 1).val < 128 := (i 1).isLt
  simp only [Matrix.cons_val_zero, Matrix.cons_val_one]
  omega

def tile (c : Fin 2) (s : Fin 16) : grid1.Coords :=
  fun | 0 => c | 1 => s | ⟨_ + 2, h⟩ => absurd h (Nat.not_lt.2 (Nat.le_add_left _ _))

theorem trips1 : k1_t1_loop.trips = 7 := by decide
theorem trips2 : k1_t2_loop.trips = 14 := by decide

abbrev fChunkA (L : grid1.Coords) (k : Fin k1_t1_loop.trips) : Memref sig .scVector .hbm S448x128 .f32 :=
  (Memref.whole main_v7_0_scv).slice (Rect.unit (s := S600000x128) (k1_off3 L k) S448x128.size (k1_off3_inb L k)) (fun _ => rfl)
abbrev fChunkB (L : grid1.Coords) (k : Fin k1_t1_loop.trips) : Memref sig .scVector .hbm S448x128 .f32 :=
  (Memref.whole main_v7_0_scv).slice (Rect.unit (s := S600000x128) (k1_off5 L k) S448x128.size (k1_off5_inb L k)) (fun _ => rfl)
abbrev eChunkA (L : grid1.Coords) (k : Fin k1_t2_loop.trips) : Memref sig .scVector .hbm S448x128 .f32 :=
  (Memref.whole main_v7_1_scv).slice (Rect.unit (s := S401408x128) (k1_off8 L k) S448x128.size (k1_off8_inb L k)) (fun _ => rfl)
abbrev eChunkB (L : grid1.Coords) (k : Fin k1_t2_loop.trips) : Memref sig .scVector .hbm S448x128 .f32 :=
  (Memref.whole main_v7_1_scv).slice (Rect.unit (s := S401408x128) (k1_off10 L k) S448x128.size (k1_off10_inb L k)) (fun _ => rfl)

theorem core_lt (L : grid1.Coords) : (L 0).val < 2 := (L 0).isLt
theorem sub_lt (L : grid1.Coords) : (L 1).val < 16 := (L 1).isLt
theorem trip1_lt (k : Fin k1_t1_loop.trips) : k.val < 7 := trips1 ▸ k.isLt
theorem trip2_lt (k : Fin k1_t2_loop.trips) : k.val < 14 := trips2 ▸ k.isLt

def fRest : Finset S600000x128.Idx := Finset.univ.filter fun i => 200704 ≤ (i 0).val

abbrev fLoc (d : Dev nD) : Loc nD τ sig := (SparseCore.T d).loc main_v7_0
abbrev eLoc (d : Dev nD) : Loc nD τ sig := (SparseCore.T d).loc main_v7_1

def fBlk (c : Fin 2) (s : Fin 16) (k : Fin k1_t1_loop.trips) : Fin 2 → Finset S600000x128.Idx :=
  fun | 0 => (fChunkA (tile c s) k).view.set | 1 => (fChunkB (tile c s) k).view.set
def eBlk (c : Fin 2) (s : Fin 16) (k : Fin k1_t2_loop.trips) : Fin 2 → Finset S401408x128.Idx :=
  fun | 0 => (eChunkA (tile c s) k).view.set | 1 => (eChunkB (tile c s) k).view.set

theorem mem_fBlk (c : Fin 2) (s : Fin 16) (k : Fin k1_t1_loop.trips) (p : Fin 2) (i : S600000x128.Idx) :
    i ∈ fBlk c s k p ↔ 448 * (2 * s.val + c.val + 64 * k.val + 32 * p.val) ≤ (i 0).val
      ∧ (i 0).val < 448 * (2 * s.val + c.val + 64 * k.val + 32 * p.val) + 448 := by
  match p with
  | 0 =>
    have h : (fChunkA (tile c s) k).view.set = rowBlock (896 * s.val + 448 * c.val + 28672 * k.val) := by
      show ((View.whole main_v7_0_scv).slice (Rect.unit (s := S600000x128) (k1_off3 (tile c s) k) S448x128.size (k1_off3_inb _ k))).set = _
      rw [View.set_slice_whole]
      exact set_unit_rowBlock _ (k1_off3_eq (tile c s) k) _
    show i ∈ (fChunkA (tile c s) k).view.set ↔ _
    rw [h, mem_rowBlock]; simp only [Fin.val_zero]; omega
  | 1 =>
    have h : (fChunkB (tile c s) k).view.set = rowBlock (896 * s.val + 448 * c.val + 28672 * k.val + 14336) := by
      show ((View.whole main_v7_0_scv).slice (Rect.unit (s := S600000x128) (k1_off5 (tile c s) k) S448x128.size (k1_off5_inb _ k))).set = _
      rw [View.set_slice_whole]
      exact set_unit_rowBlock _ (k1_off5_eq (tile c s) k) _
    show i ∈ (fChunkB (tile c s) k).view.set ↔ _
    rw [h, mem_rowBlock]; simp only [Fin.val_one]; omega

theorem mem_eBlk (c : Fin 2) (s : Fin 16) (k : Fin k1_t2_loop.trips) (p : Fin 2) (i : S401408x128.Idx) :
    i ∈ eBlk c s k p ↔ 448 * (2 * s.val + c.val + 64 * k.val + 32 * p.val) ≤ (i 0).val
      ∧ (i 0).val < 448 * (2 * s.val + c.val + 64 * k.val + 32 * p.val) + 448 := by
  match p with
  | 0 =>
    have h : (eChunkA (tile c s) k).view.set = rowBlock (896 * s.val + 448 * c.val + 28672 * k.val) := by
      show ((View.whole main_v7_1_scv).slice (Rect.unit (s := S401408x128) (k1_off8 (tile c s) k) S448x128.size (k1_off8_inb _ k))).set = _
      rw [View.set_slice_whole]
      exact set_unit_rowBlock _ (k1_off8_eq (tile c s) k) _
    show i ∈ (eChunkA (tile c s) k).view.set ↔ _
    rw [h, mem_rowBlock]; simp only [Fin.val_zero]; omega
  | 1 =>
    have h : (eChunkB (tile c s) k).view.set = rowBlock (896 * s.val + 448 * c.val + 28672 * k.val + 14336) := by
      show ((View.whole main_v7_1_scv).slice (Rect.unit (s := S401408x128) (k1_off10 (tile c s) k) S448x128.size (k1_off10_inb _ k))).set = _
      rw [View.set_slice_whole]
      exact set_unit_rowBlock _ (k1_off10_eq (tile c s) k) _
    show i ∈ (eChunkB (tile c s) k).view.set ↔ _
    rw [h, mem_rowBlock]; simp only [Fin.val_one]; omega

section Split
variable (d : Dev nD) (q : PosShare TreeShare)

abbrev fTripPts (g : Buf (Elt F) (fLoc d)) (L : grid1.Coords) (k : Fin k1_t1_loop.trips) : sProp 𝕄 :=
  iprop((fLoc d ↦[(fChunkA L k).view.set]{q} g) ∗ fLoc d ↦[(fChunkB L k).view.set]{q} g)
abbrev eTripPts (g : Buf (Elt F) (eLoc d)) (L : grid1.Coords) (k : Fin k1_t2_loop.trips) : sProp 𝕄 :=
  iprop((eLoc d ↦[(eChunkA L k).view.set]{q} g) ∗ eLoc d ↦[(eChunkB L k).view.set]{q} g)

theorem f_split_eq (g : Buf (Elt F) (fLoc d)) :
    (fLoc d ↦{q} g : sProp 𝕄)
      = iprop((bigSep Finset.univ fun c : Fin 2 => bigSep Finset.univ fun s : Fin 16 =>
            bigSep Finset.univ fun k : Fin k1_t1_loop.trips => fTripPts d q g (tile c s) k)
          ∗ fLoc d ↦[fRest]{q} g) := by
  rw [array_split (ℓ := fLoc d) fBlk (fun i : S600000x128.Idx => (i 0).val) mem_fBlk q g]
  congr 2

theorem e_split_eq (g : Buf (Elt F) (eLoc d)) :
    (eLoc d ↦{q} g : sProp 𝕄)
      = bigSep Finset.univ fun c : Fin 2 => bigSep Finset.univ fun s : Fin 16 =>
          bigSep Finset.univ fun k : Fin k1_t2_loop.trips => eTripPts d q g (tile c s) k := by
  have hu : (Finset.univ : Finset S401408x128.Idx) = blocksOf (ℓ := eLoc d) eBlk := by
    ext i
    have h : (i 0).val < 401408 := (i 0).isLt
    rw [mem_blocksOf (ℓ := eLoc d) eBlk (fun i : S401408x128.Idx => (i 0).val) mem_eBlk, trips2]
    exact ⟨fun _ => by omega, fun _ => Finset.mem_univ _⟩
  show (eLoc d ↦[Finset.univ]{q} g : sProp 𝕄) = _
  rw [hu, blocks_split (ℓ := eLoc d) eBlk (fun i : S401408x128.Idx => (i 0).val) mem_eBlk]
  rfl

end Split

end Cert.KernelIdeal.Hand

end
-- ==== Proof.KI.TileDefs.lean ====
import proofs.«214604_g3212635537896_cont_8to1_b_1509_14_alg».proof.Proof.KI.Base
import proofs.«214604_g3212635537896_cont_8to1_b_1509_14_alg».proof.Proof.KI.Gather
import proofs.«214604_g3212635537896_cont_8to1_b_1509_14_alg».proof.Proof.KI.Chunks
import Idealize.ShloMosaic.Lib.SparseCore.Launch
import Idealize.ShloMosaic.Lib.Transfers

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
variable {U : Type} [URA U]

local notation "𝕄" => MT nD τ sig (HIx 1) (Elt F) ℕ U ℕ

abbrev thrV (d : Dev nD) (L : grid1.Coords) : Thread nD τ := V d ((L 0).castLE hcore1) ((L 1).castLE hsub1)

local notation "xV" => (Memref.whole Cert.KernelIdeal.main_arg0_scv : Memref Cert.KernelIdeal.sig Kind.scVector Space.hbm Cert.KernelIdeal.S100000x128 EltTy.f32)
local notation "uV" => (Memref.whole Cert.KernelIdeal.main_v2_scv : Memref Cert.KernelIdeal.sig Kind.scVector Space.hbm Cert.KernelIdeal.S100000x128 EltTy.f32)
local notation "iuV" => (Memref.whole Cert.KernelIdeal.main_v4_scv : Memref Cert.KernelIdeal.sig Kind.scVector Space.hbm Cert.KernelIdeal.S200704 EltTy.i32)
local notation "ibV" => (Memref.whole Cert.KernelIdeal.main_v6_scv : Memref Cert.KernelIdeal.sig Kind.scVector Space.hbm Cert.KernelIdeal.S401408 EltTy.i32)
local notation "fV" => (Memref.whole Cert.KernelIdeal.main_v7_0_scv : Memref Cert.KernelIdeal.sig Kind.scVector Space.hbm Cert.KernelIdeal.S600000x128 EltTy.f32)
local notation "eV" => (Memref.whole Cert.KernelIdeal.main_v7_1_scv : Memref Cert.KernelIdeal.sig Kind.scVector Space.hbm Cert.KernelIdeal.S401408x128 EltTy.f32)
local notation "i0V" => (Memref.whole Cert.KernelIdeal.cc1_scratch0 : Memref Cert.KernelIdeal.sig Kind.scVector Space.vmem Cert.KernelIdeal.S448 EltTy.i32)
local notation "i1V" => (Memref.whole Cert.KernelIdeal.cc1_scratch1 : Memref Cert.KernelIdeal.sig Kind.scVector Space.vmem Cert.KernelIdeal.S448 EltTy.i32)
local notation "r0V" => (Memref.whole Cert.KernelIdeal.cc1_scratch2 : Memref Cert.KernelIdeal.sig Kind.scVector Space.vmem Cert.KernelIdeal.S448x128 EltTy.f32)
local notation "r1V" => (Memref.whole Cert.KernelIdeal.cc1_scratch3 : Memref Cert.KernelIdeal.sig Kind.scVector Space.vmem Cert.KernelIdeal.S448x128 EltTy.f32)

section Own

variable (d : Dev nD) (L : grid1.Coords)

abbrev cellV (s : DmaSem sig) : GSem nD τ sig := (thrV d L, SemLoc.dma s)

theorem cellV_mem (s : DmaSem sig) (hs : (SemLoc.dma s : SemLoc sig).isScoped .scVector = true) : cellV d L s ∈ ownCells (thrV d L) :=
  mem_ownCells.mpr ⟨rfl, hs⟩

theorem cellV_ne {s t : DmaSem sig} (h : s ≠ t) : cellV d L s ≠ cellV d L t :=
  fun e => h (SemLoc.dma.inj (Prod.mk.inj e).2)

theorem ownSems0_tile :
    (ownSems0 (thrV d L) : sProp 𝕄)
      = iprop(semVal (cellV d L cc1_scratch4.sem) 0 ∗ semVal (cellV d L cc1_scratch5.sem) 0 ∗ semVal (cellV d L cc1_scratch6.sem) 0
          ∗ semVal (cellV d L cc1_scratch7.sem) 0 ∗ semVal (cellV d L cc1_scratch8.sem) 0 ∗ semVal (cellV d L cc1_scratch9.sem) 0
          ∗ bigSep ((((((((ownCells (thrV d L)).erase (cellV d L cc1_scratch4.sem)).erase (cellV d L cc1_scratch5.sem)).erase (cellV d L cc1_scratch6.sem)).erase
              (cellV d L cc1_scratch7.sem)).erase (cellV d L cc1_scratch8.sem)).erase (cellV d L cc1_scratch9.sem))) fun g => semVal g 0) := by
  unfold SparseCore.Cfg.ownSems0
  have m4 := cellV_mem d L cc1_scratch4.sem (by decide)
  have m5 := cellV_mem d L cc1_scratch5.sem (by decide)
  have m6 := cellV_mem d L cc1_scratch6.sem (by decide)
  have m7 := cellV_mem d L cc1_scratch7.sem (by decide)
  have m8 := cellV_mem d L cc1_scratch8.sem (by decide)
  have m9 := cellV_mem d L cc1_scratch9.sem (by decide)
  rw [SparseCore.bigSep_erase' m4,
    SparseCore.bigSep_erase' (Finset.mem_erase.mpr ⟨cellV_ne d L (by decide), m5⟩),
    SparseCore.bigSep_erase' (Finset.mem_erase.mpr ⟨cellV_ne d L (by decide), Finset.mem_erase.mpr ⟨cellV_ne d L (by decide), m6⟩⟩),
    SparseCore.bigSep_erase' (Finset.mem_erase.mpr ⟨cellV_ne d L (by decide), Finset.mem_erase.mpr ⟨cellV_ne d L (by decide),
      Finset.mem_erase.mpr ⟨cellV_ne d L (by decide), m7⟩⟩⟩),
    SparseCore.bigSep_erase' (Finset.mem_erase.mpr ⟨cellV_ne d L (by decide), Finset.mem_erase.mpr ⟨cellV_ne d L (by decide),
      Finset.mem_erase.mpr ⟨cellV_ne d L (by decide), Finset.mem_erase.mpr ⟨cellV_ne d L (by decide), m8⟩⟩⟩⟩),
    SparseCore.bigSep_erase' (Finset.mem_erase.mpr ⟨cellV_ne d L (by decide), Finset.mem_erase.mpr ⟨cellV_ne d L (by decide),
      Finset.mem_erase.mpr ⟨cellV_ne d L (by decide), Finset.mem_erase.mpr ⟨cellV_ne d L (by decide), Finset.mem_erase.mpr ⟨cellV_ne d L (by decide), m9⟩⟩⟩⟩⟩)]

abbrev refV (b : Ref sig .scVector) : DevRef τ sig := (Proc.scVector ((L 0).castLE hcore1) ((L 1).castLE hsub1)).devRef b

theorem refV_mem (b : Ref sig .scVector) (hb : (refV L b).owner = .proc (Proc.scVector ((L 0).castLE hcore1) ((L 1).castLE hsub1))) :
    refV L b ∈ ownRefs (τ := τ) (sig := sig) (Proc.scVector ((L 0).castLE hcore1) ((L 1).castLE hsub1)) :=
  SparseCore.Cfg.mem_ownRefs_of_owner hb

theorem refV_ne {a b : Ref sig .scVector} (h : a ≠ b) : refV L a ≠ refV L b :=
  fun e => h (Proc.devRef_injective _ e)

theorem ownBufs_tile :
    (ownBufs (thrV d L) : sProp 𝕄)
      = iprop((∃ f, (thrV d L).loc cc1_scratch0 ↦{fullShare} f) ∗ (∃ f, (thrV d L).loc cc1_scratch1 ↦{fullShare} f)
          ∗ (∃ f, (thrV d L).loc cc1_scratch2 ↦{fullShare} f) ∗ (∃ f, (thrV d L).loc cc1_scratch3 ↦{fullShare} f)
          ∗ bigSep (((((ownRefs (τ := τ) (.scVector ((L 0).castLE hcore1) ((L 1).castLE hsub1))).erase (refV L cc1_scratch0)).erase (refV L cc1_scratch1)).erase
              (refV L cc1_scratch2)).erase (refV L cc1_scratch3))
              fun b => iprop(∃ f, ((d, b) : Loc nD τ sig) ↦{fullShare} f)) := by
  unfold SparseCore.Cfg.ownBufs
  have m0 := refV_mem L cc1_scratch0 rfl
  have m1 := refV_mem L cc1_scratch1 rfl
  have m2 := refV_mem L cc1_scratch2 rfl
  have m3 := refV_mem L cc1_scratch3 rfl
  refine (SparseCore.bigSep_erase' m0).trans ?_
  rw [SparseCore.bigSep_erase' (Finset.mem_erase.mpr ⟨refV_ne L (by decide), m1⟩),
    SparseCore.bigSep_erase' (Finset.mem_erase.mpr ⟨refV_ne L (by decide), Finset.mem_erase.mpr ⟨refV_ne L (by decide), m2⟩⟩),
    SparseCore.bigSep_erase' (Finset.mem_erase.mpr ⟨refV_ne L (by decide), Finset.mem_erase.mpr ⟨refV_ne L (by decide),
      Finset.mem_erase.mpr ⟨refV_ne L (by decide), m3⟩⟩⟩)]

end Own

section Tile

variable (d : Dev nD) (L : grid1.Coords)

def tileReads (X : S100000x128.Idx → Elt F .f32) (Uc : S100000x128.Idx → Elt F .f32) (IU : S200704.Idx → Elt F .i32) (IB : S401408.Idx → Elt F .i32)
    (qx qu qi qj : PosShare TreeShare) : sProp 𝕄 :=
  iprop(((xV).view.loc (thrV d L) ↦{qx} X : sProp 𝕄) ∗ ((uV).view.loc (thrV d L) ↦{qu} Uc : sProp 𝕄)
    ∗ ((iuV).view.loc (thrV d L) ↦{qi} IU : sProp 𝕄) ∗ ((ibV).view.loc (thrV d L) ↦{qj} IB : sProp 𝕄))

def tileF (f : S600000x128.Idx → Elt F .f32) : sProp 𝕄 :=
  bigSep (Finset.univ : Finset (Fin k1_t1_loop.trips)) fun k =>
    iprop(((fChunkA L k).view.loc (thrV d L) ↦[(fChunkA L k).view.set]{fullShare} f : sProp 𝕄)
      ∗ ((fChunkB L k).view.loc (thrV d L) ↦[(fChunkB L k).view.set]{fullShare} f : sProp 𝕄))

def tileE (e : S401408x128.Idx → Elt F .f32) : sProp 𝕄 :=
  bigSep (Finset.univ : Finset (Fin k1_t2_loop.trips)) fun k =>
    iprop(((eChunkA L k).view.loc (thrV d L) ↦[(eChunkA L k).view.set]{fullShare} e : sProp 𝕄)
      ∗ ((eChunkB L k).view.loc (thrV d L) ↦[(eChunkB L k).view.set]{fullShare} e : sProp 𝕄))

end Tile

end Cert.KernelIdeal.Hand

end
-- ==== Proof.KI.Pay.lean ====
import proofs.«214604_g3212635537896_cont_8to1_b_1509_14_alg».proof.Proof.KI.Base
import proofs.«214604_g3212635537896_cont_8to1_b_1509_14_alg».proof.Proof.KI.TileDefs
import proofs.«214604_g3212635537896_cont_8to1_b_1509_14_alg».proof.Proof.KI.Gather
import Idealize.ShloMosaic.Lib.SparseCore.Launch
import Idealize.ShloMosaic.Lib.Pipeline.Kit
import Idealize.ShloMosaic.Lib.Pipeline.Regions
import Idealize.ShloMosaic.Lib.Transfers
import Idealize.ShloMosaic.Lib.Tactic

noncomputable section

namespace Cert.KernelIdeal.Hand

open Cert.KernelIdeal Cert.KernelIdeal.Gen
open Idealize.ShloMosaic Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

theorem defs₀_vector [FloatOps F] (c : Fin τ.nSC) (s : Fin τ.nSub) :
    defs₀ (F := F) (.scVector c s) 1 ()
      = SparseCore.onTile hcore1 hsub1 (fun c s => cc1_k (tile c s)
          (Memref.whole main_arg0_scv) (Memref.isWhole_whole _) (Memref.whole main_v2_scv) (Memref.isWhole_whole _)
          (Memref.whole main_v4_scv) (Memref.isWhole_whole _) (Memref.whole main_v6_scv) (Memref.isWhole_whole _)
          (Memref.whole main_v7_0_scv) (Memref.isWhole_whole _) (Memref.whole main_v7_1_scv) (Memref.isWhole_whole _)
          (Memref.whole cc1_scratch0) (Memref.isWhole_whole _) (Memref.whole cc1_scratch1) (Memref.isWhole_whole _)
          (Memref.whole cc1_scratch2) (Memref.isWhole_whole _) (Memref.whole cc1_scratch3) (Memref.isWhole_whole _)
          cc1_scratch4 cc1_scratch5 cc1_scratch6 cc1_scratch7 cc1_scratch8 cc1_scratch9) ⟨⟩ c s := rfl

def tokIx (c : Fin 2) (i : Fin 16) : Fin 32 := ⟨16 * c.val + i.val, by omega⟩

section Payloads

variable (X Uc : Dev nD → S100000x128.Idx → Elt F .f32) (IU : Dev nD → S200704.Idx → Elt F .i32) (IB : Dev nD → S401408.Idx → Elt F .i32)
  (f0 : Dev nD → S600000x128.Idx → Elt F .f32) (e0 : Dev nD → S401408x128.Idx → Elt F .f32)

def goAt (d : Dev nD) (c : Fin 2) (i : Fin 16) (f : S600000x128.Idx → Elt F .f32) (e : S401408x128.Idx → Elt F .f32) : sProp 𝕄 :=
  iprop(tileReads d (tile c i) (X d) (Uc d) (IU d) (IB d)
      (Transfers.shareTok fullShare 32 (tokIx c i)) (Transfers.shareTok fullShare 32 (tokIx c i))
      (Transfers.shareTok fullShare 32 (tokIx c i)) (Transfers.shareTok fullShare 32 (tokIx c i))
    ∗ tileF d (tile c i) f ∗ tileE d (tile c i) e)

def P : (K (F := F)).Pay (nD := nD) (Val := Elt F) (Name := ℕ) (U := UU) where
  st := fun q d c => match q with
    | 0 => bigSep Finset.univ fun i : Fin 16 => goAt X Uc IU IB d (Fin.cast nCore_zero c) i (f0 d) (e0 d)
  dn := fun q d c => match q with
    | 0 => bigSep Finset.univ fun i : Fin 16 => goAt X Uc IU IB d (Fin.cast nCore_zero c) i (gatherF (Uc d) (IU d) (f0 d)) (gatherE (X d) (IB d))
  go := fun q d c i => match q with
    | 0 => goAt X Uc IU IB d (Fin.cast nCore_zero c) (Fin.cast nSub_zero i) (f0 d) (e0 d)
  td := fun q d c i => match q with
    | 0 => goAt X Uc IU IB d (Fin.cast nCore_zero c) (Fin.cast nSub_zero i) (gatherF (Uc d) (IU d) (f0 d)) (gatherE (X d) (IB d))
  x := fun _ _ => iprop(emp)

instance goAt_storable (d : Dev nD) (c : Fin 2) (i : Fin 16) (f : S600000x128.Idx → Elt F .f32) (e : S401408x128.Idx → Elt F .f32) :
    BI.Storable (upEmb : UEmb _ 𝕄) (goAt X Uc IU IB d c i f e) := by
  unfold goAt tileReads tileF tileE; infer_instance

theorem goAt_eq (d : Dev nD) (c : Fin 2) (i : Fin 16) (f : S600000x128.Idx → Elt F .f32) (e : S401408x128.Idx → Elt F .f32) :
    goAt X Uc IU IB d c i f e
      = iprop(tileReads d (tile c i) (X d) (Uc d) (IU d) (IB d)
          (Transfers.shareTok fullShare 32 (tokIx c i)) (Transfers.shareTok fullShare 32 (tokIx c i))
          (Transfers.shareTok fullShare 32 (tokIx c i)) (Transfers.shareTok fullShare 32 (tokIx c i))
        ∗ tileF d (tile c i) f ∗ tileE d (tile c i) e) := rfl

attribute [local irreducible] goAt

instance P_storable : (P (F := F) X Uc IU IB f0 e0).IsStorable where
  st q d c := match q with
    | 0 => (inferInstance : BI.Storable (upEmb : UEmb _ 𝕄)
        (bigSep Finset.univ fun i : Fin 16 => goAt X Uc IU IB d (Fin.cast nCore_zero c) i (f0 d) (e0 d)))
  dn q d c := match q with
    | 0 => (inferInstance : BI.Storable (upEmb : UEmb _ 𝕄)
        (bigSep Finset.univ fun i : Fin 16 => goAt X Uc IU IB d (Fin.cast nCore_zero c) i (gatherF (Uc d) (IU d) (f0 d)) (gatherE (X d) (IB d))))
  go q d c i := match q with
    | 0 => (inferInstance : BI.Storable (upEmb : UEmb _ 𝕄) (goAt X Uc IU IB d (Fin.cast nCore_zero c) (Fin.cast nSub_zero i) (f0 d) (e0 d)))
  td q d c i := match q with
    | 0 => (inferInstance : BI.Storable (upEmb : UEmb _ 𝕄)
        (goAt X Uc IU IB d (Fin.cast nCore_zero c) (Fin.cast nSub_zero i) (gatherF (Uc d) (IU d) (f0 d)) (gatherE (X d) (IB d))))

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P X Uc IU IB f0 e0) 0 := by
  intro d c
  show (bigSep Finset.univ fun i : Fin 16 => goAt X Uc IU IB d (Fin.cast nCore_zero c) i (f0 d) (e0 d)) ⊢ |={Set.univ}=> iprop(
      (bigSep Finset.univ fun i : Fin ((K (F := F)).nSub 0) =>
        goAt X Uc IU IB d (Fin.cast nCore_zero c) (Fin.cast nSub_zero i) (f0 d) (e0 d))
      ∗ ((bigSep Finset.univ fun i : Fin ((K (F := F)).nSub 0) =>
          goAt X Uc IU IB d (Fin.cast nCore_zero c) (Fin.cast nSub_zero i) (gatherF (Uc d) (IU d) (f0 d)) (gatherE (X d) (IB d)))
          -∗ bigSep Finset.univ fun i : Fin 16 =>
            goAt X Uc IU IB d (Fin.cast nCore_zero c) i (gatherF (Uc d) (IU d) (f0 d)) (gatherE (X d) (IB d))))
  rw [bigSep_tasks (F := F) (fun i => goAt X Uc IU IB d (Fin.cast nCore_zero c) i (f0 d) (e0 d)),
    bigSep_tasks (F := F) (fun i => goAt X Uc IU IB d (Fin.cast nCore_zero c) i (gatherF (Uc d) (IU d) (f0 d)) (gatherE (X d) (IB d)))]
  iintro H; imodintro
  isplitl [H]; · iexact H
  iintro H; iexact H

section Obligation

variable [FloatOps F]

def TileBody : Prop :=
  ∀ (d : Dev nD) (L : grid1.Coords) (O : CellTallies nD τ sig (HIx 1)) (W : Waits sig (HIx 1)) (hO : ∀ g, O g none = 0)
    (X Uc : S100000x128.Idx → Elt F .f32) (IU : S200704.Idx → Elt F .i32) (IB : S401408.Idx → Elt F .i32)
    (f0 : S600000x128.Idx → Elt F .f32) (e0 : S401408x128.Idx → Elt F .f32) (qx qu qi qj : PosShare TreeShare)
    (hIU : ∀ j, (IU j).toNat < 100000) (hIB : ∀ j, (IB j).toNat < 100000),
    iprop((levAts (K (F := F)).L (K (F := F)).lev : sProp 𝕄) ∗ tileReads d L X Uc IU IB qx qu qi qj ∗ tileF d L f0 ∗ tileE d L e0
        ∗ scopedBufs (thrV d L) ∗ scopedSems0 (thrV d L) ∗ owes (thrV d L) O W)
      ⊢ wp frame (wpE (defs₀ (F := F)) 𝒱₀ (thrV d L) none) Set.univ
          (cc1_k L (Memref.whole main_arg0_scv) (Memref.isWhole_whole _) (Memref.whole main_v2_scv) (Memref.isWhole_whole _)
            (Memref.whole main_v4_scv) (Memref.isWhole_whole _) (Memref.whole main_v6_scv) (Memref.isWhole_whole _)
            (Memref.whole main_v7_0_scv) (Memref.isWhole_whole _) (Memref.whole main_v7_1_scv) (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            cc1_scratch4 cc1_scratch5 cc1_scratch6 cc1_scratch7 cc1_scratch8 cc1_scratch9)
          fun _ => iprop(tileReads d L X Uc IU IB qx qu qi qj ∗ tileF d L (gatherF Uc IU f0) ∗ tileE d L (gatherE X IB)
            ∗ scopedBufs (thrV d L) ∗ scopedSems0 (thrV d L)
            ∗ ∃ W', ⌜∀ p ∈ W', p ∈ W ∨ p.2 = none⌝ ∗ owes (thrV d L) O W')

theorem tileObl_of (hbody : TileBody (F := F)) (hIU : ∀ d j, ((IU d) j).toNat < 100000) (hIB : ∀ d j, ((IB d) j).toNat < 100000) :
    (K (F := F)).TileObl (D (F := F)) 𝒱 (P X Uc IU IB f0 e0) v₀ 0 := by
  intro d c i O W hO _ _
  simp only [show (P X Uc IU IB f0 e0).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  refine BI.Entails.trans ?_ ((hbody d (tile ⟨_, hc.1⟩ ⟨_, hc.2⟩) O W hO (X d) (Uc d) (IU d) (IB d) (f0 d) (e0 d)
      (Transfers.shareTok fullShare 32 (tokIx (Fin.cast nCore_zero c) (Fin.cast nSub_zero i))) (Transfers.shareTok fullShare 32 (tokIx (Fin.cast nCore_zero c) (Fin.cast nSub_zero i)))
      (Transfers.shareTok fullShare 32 (tokIx (Fin.cast nCore_zero c) (Fin.cast nSub_zero i))) (Transfers.shareTok fullShare 32 (tokIx (Fin.cast nCore_zero c) (Fin.cast nSub_zero i))) (hIU d) (hIB d)).trans
    (wp_mono frame _ _ fun _ => ?_))
  ·
    show iprop(_ ∗ iprop(emp) ∗ goAt X Uc IU IB d (Fin.cast nCore_zero c) (Fin.cast nSub_zero i) (f0 d) (e0 d) ∗ _ ∗ _ ∗ _) ⊢ _
    rw [goAt_eq]
    iintro ⟨Hlv, -, ⟨Hr, Hf, He⟩, Hb, Hs, Ho⟩
    isplitl [Hlv]; · iexact Hlv
    isplitl [Hr]; · iexact Hr
    isplitl [Hf]; · iexact Hf
    isplitl [He]; · iexact He
    isplitl [Hb]; · iexact Hb
    isplitl [Hs]; · iexact Hs
    iexact Ho
  ·
    show _ ⊢ iprop(goAt X Uc IU IB d (Fin.cast nCore_zero c) (Fin.cast nSub_zero i) (gatherF (Uc d) (IU d) (f0 d)) (gatherE (X d) (IB d)) ∗ _ ∗ _ ∗ _)
    rw [goAt_eq]
    iintro ⟨Hr, Hf, He, Hb, Hs, %W', %hW', HO⟩
    isplitl [Hr Hf He]
    · isplitl [Hr]; · iexact Hr
      isplitl [Hf]; · iexact Hf
      iexact He
    isplitl [Hb]; · iexact Hb
    isplitl [Hs]; · iexact Hs
    iexists W'; isplitr
    · ipureintro; exact fun p hp => (hW' p hp).imp_right Or.inl
    · iexact HO

end Obligation

theorem cellOf_inj' : Function.Injective (Pipeline.cellOf (nD := nD) (τ := τ) (Pipeline.pin (pcfgs (F := F)) (fun p => (cfgs p).toPCfg_adm))) :=
  cellOf_inj

def u₀ : UU :=
  (initOf (K (F := F)).hsCells (K (F := F)).hsToks,
    (initOf (Pipeline.cells (Pipeline.pin (pcfgs (F := F)) (fun p => (cfgs p).toPCfg_adm)) cellOf_inj')
      (Pipeline.launchToks (Pipeline.pin (pcfgs (F := F)) (fun p => (cfgs p).toPCfg_adm)) cellOf_inj'), 1))

theorem bigSep_emp' {I : Type} (s : Finset I) : (bigSep s fun _ => iprop(emp)) = (iprop(emp) : sProp 𝕄) := bigSep_emp_const s

theorem hu₀ :
    iprop(ownU (u₀ (F := F)) ∗ (P X Uc IU IB f0 e0).oxCred ∗ (K (F := F)).freeSems0)
      ⊢ |={Set.univ}=> iprop(BI.own (EH (initOf (K (F := F)).hsCells (K (F := F)).hsToks))
        ∗ (bigSep Finset.univ fun d : Dev nD => Pipeline.ghostOn (pcfgs (F := F)) (fun p => (cfgs p).toPCfg_adm) EP Finset.univ d)
        ∗ bigSep Finset.univ fun thr : Thread nD τ => bigSep Finset.univ fun q : Fin 1 => (P X Uc IU IB f0 e0).x q thr) := by
  have hghost : iprop((bigSep Finset.univ fun c : Dev nD => bigSep Finset.univ fun p : Fin 2 =>
          Pipeline.cellsGhost (Pipeline.pin (pcfgs (F := F)) (fun p => (cfgs p).toPCfg_adm)) EP p c)
        ∗ (bigSep Finset.univ fun c : Dev nD => bigSep Finset.univ fun p : Fin 2 =>
          (Pipeline.toksInit (Pipeline.pin (pcfgs (F := F)) (fun p => (cfgs p).toPCfg_adm)) EP p c : sProp 𝕄)))
      ⊢ bigSep Finset.univ fun c : Dev nD => Pipeline.ghostOn (pcfgs (F := F)) (fun p => (cfgs p).toPCfg_adm) EP Finset.univ c := by
    rw [← bigSep_sep']
    exact bigSep_mono fun c _ => show iprop((bigSep Finset.univ fun p : Fin 2 => Pipeline.cellsGhost (Pipeline.pin (pcfgs (F := F)) (fun p => (cfgs p).toPCfg_adm)) EP p c)
          ∗ bigSep Finset.univ fun p : Fin 2 => (Pipeline.toksInit (Pipeline.pin (pcfgs (F := F)) (fun p => (cfgs p).toPCfg_adm)) EP p c : sProp 𝕄))
        ⊢ Pipeline.ghostOn (pcfgs (F := F)) (fun p => (cfgs p).toPCfg_adm) EP Finset.univ c
      from Entails.of_eq (by unfold Pipeline.ghostOn Pipeline.PerCore.ghostOn; rw [bigSep_sep'])
  have hP : ∀ a : UP, (BI.own ((embR : Emb (UP × Counters) 𝕄) (a, (1 : Counters))) : sProp 𝕄)
      ⊢ iprop(BI.own (EP a) ∗ BI.own (((Emb.inr : Emb Counters (UP × Counters)).trans embR) 1)) :=
    fun a => own_pair_emb (embR : Emb (UP × Counters) 𝕄) a (1 : Counters)
  unfold u₀
  iintro ⟨Hu, -, -⟩
  ihave H := (ownU_pair _ _) $$ Hu
  icases H with ⟨HH, HR⟩
  ihave H2 := (hP _) $$ HR
  icases H2 with ⟨HP, -⟩
  imod (Pipeline.fund_ghost (Pipeline.pin (pcfgs (F := F)) (fun p => (cfgs p).toPCfg_adm)) EP cellOf_inj') $$ HP with ⟨Hg, Ht⟩
  imodintro
  isplitl [HH]; · iexact HH
  isplitl [Hg Ht]
  · iapply hghost
    isplitl [Hg]; · iexact Hg
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Payloads

end Cert.KernelIdeal.Hand

end
-- ==== Proof.KI.Deal.lean ====
import proofs.«214604_g3212635537896_cont_8to1_b_1509_14_alg».proof.Proof.KI.Chunks
import proofs.«214604_g3212635537896_cont_8to1_b_1509_14_alg».proof.Proof.KI.Pay
import Idealize.ShloMosaic.Lib.Transfers
import Mathlib.Logic.Equiv.Fin.Basic

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

theorem bigSep_tokIx (Φ : Fin 32 → sProp 𝕄) :
    bigSep Finset.univ Φ = bigSep Finset.univ fun c : Fin 2 => bigSep Finset.univ fun i : Fin 16 => Φ (tokIx c i) := by
  rw [bigSep_univ_equiv (finProdFinEquiv (m := 2) (n := 16)) Φ, bigSep_univ_prod]
  exact bigSep_congr fun c _ => bigSep_congr fun i _ => congrArg Φ (Fin.ext (by
    show i.val + 16 * c.val = 16 * c.val + i.val
    omega))

theorem reads_toks (ℓ : Loc nD τ sig) (A : Buf (Elt F) ℓ) :
    (ℓ ↦{fullShare} A : sProp 𝕄) = iprop((ℓ ↦{Transfers.shareDrop fullShare 32} A)
      ∗ bigSep Finset.univ fun c : Fin 2 => bigSep Finset.univ fun i : Fin 16 =>
          ℓ ↦{Transfers.shareTok fullShare 32 (tokIx c i)} A) := by
  have h : (ℓ ↦{fullShare} A : sProp 𝕄) ⊣⊢ iprop((ℓ ↦{Transfers.shareDrop fullShare 32} A)
      ∗ bigSep Finset.univ fun t : Fin 32 => ℓ ↦{Transfers.shareTok fullShare 32 t} A) :=
    Transfers.pointsTo_toks fullShare 32
  refine (BI.equiv_iff.mp ⟨h.1, h.2⟩).trans ?_
  congr 1
  exact bigSep_tokIx _

abbrev xLoc (d : Dev nD) : Loc nD τ sig := (SparseCore.T d).loc main_arg0
abbrev uLoc (d : Dev nD) : Loc nD τ sig := (SparseCore.T d).loc main_v2
abbrev iuLoc (d : Dev nD) : Loc nD τ sig := (SparseCore.T d).loc main_v4
abbrev ibLoc (d : Dev nD) : Loc nD τ sig := (SparseCore.T d).loc main_v6

section Deal

variable (d : Dev nD) (X Uc : Vec F S100000x128 .f32) (IU : Vec F S200704 .i32) (IB : Vec F S401408 .i32)

abbrev dealTile (f : Vec F S600000x128 .f32) (e : Vec F S401408x128 .f32) (c : Fin 2) (i : Fin 16) : sProp 𝕄 :=
  iprop(tileReads d (tile c i) X Uc IU IB
      (Transfers.shareTok fullShare 32 (tokIx c i)) (Transfers.shareTok fullShare 32 (tokIx c i))
      (Transfers.shareTok fullShare 32 (tokIx c i)) (Transfers.shareTok fullShare 32 (tokIx c i))
    ∗ tileF d (tile c i) f ∗ tileE d (tile c i) e)

def dealRem (f : Vec F S600000x128 .f32) : sProp 𝕄 :=
  iprop((xLoc d ↦{Transfers.shareDrop fullShare 32} X) ∗ (uLoc d ↦{Transfers.shareDrop fullShare 32} Uc)
    ∗ (iuLoc d ↦{Transfers.shareDrop fullShare 32} IU) ∗ (ibLoc d ↦{Transfers.shareDrop fullShare 32} IB)
    ∗ (fLoc d ↦[fRest]{fullShare} f))

theorem dealTile_eq (f : Vec F S600000x128 .f32) (e : Vec F S401408x128 .f32) (c : Fin 2) (i : Fin 16) :
    dealTile d X Uc IU IB f e c i
      = iprop(((xLoc d ↦{Transfers.shareTok fullShare 32 (tokIx c i)} X) ∗ (uLoc d ↦{Transfers.shareTok fullShare 32 (tokIx c i)} Uc)
            ∗ (iuLoc d ↦{Transfers.shareTok fullShare 32 (tokIx c i)} IU) ∗ (ibLoc d ↦{Transfers.shareTok fullShare 32 (tokIx c i)} IB))
          ∗ (bigSep Finset.univ fun k : Fin k1_t1_loop.trips => fTripPts d fullShare f (tile c i) k)
          ∗ bigSep Finset.univ fun k : Fin k1_t2_loop.trips => eTripPts d fullShare e (tile c i) k) := by
  rfl

theorem deal_eq' (f : Vec F S600000x128 .f32) (e : Vec F S401408x128 .f32) :
    (iprop((xLoc d ↦{fullShare} X) ∗ (uLoc d ↦{fullShare} Uc) ∗ (iuLoc d ↦{fullShare} IU) ∗ (ibLoc d ↦{fullShare} IB)
        ∗ (fLoc d ↦{fullShare} f) ∗ (eLoc d ↦{fullShare} e)) : sProp 𝕄)
      = iprop((bigSep Finset.univ fun c : Fin 2 => bigSep Finset.univ fun i : Fin 16 => dealTile d X Uc IU IB f e c i)
          ∗ dealRem d X Uc IU IB f) := by
  unfold dealRem
  rw [reads_toks (xLoc d) X, reads_toks (uLoc d) Uc, reads_toks (iuLoc d) IU, reads_toks (ibLoc d) IB,
    f_split_eq d fullShare f, e_split_eq d fullShare e]
  simp only [dealTile_eq, bigSep_sep, bigSep_sep']
  dsimp only [BIBase.sep]
  ac_rfl

theorem dealRem_gather (f0 : Vec F S600000x128 .f32) :
    dealRem d X Uc IU IB (gatherF Uc IU f0) = dealRem d X Uc IU IB f0 := by
  unfold dealRem
  rw [pointsTo_congr (ℓ := fLoc d) (I := fRest) (f := gatherF Uc IU f0) (g := f0) fun i hi => by
    have h : 200704 ≤ (i 0).val := (Finset.mem_filter.1 hi).2
    show (if h' : (i 0).val < 200704 then _ else f0 i) = f0 i
    exact dif_neg (by omega)]

end Deal

theorem goAt_dealTile (X Uc : Dev nD → S100000x128.Idx → Elt F .f32) (IU : Dev nD → S200704.Idx → Elt F .i32)
    (IB : Dev nD → S401408.Idx → Elt F .i32) (d : Dev nD) (c : Fin 2) (i : Fin 16)
    (f : S600000x128.Idx → Elt F .f32) (e : S401408x128.Idx → Elt F .f32) :
    goAt X Uc IU IB d c i f e = dealTile d (X d) (Uc d) (IU d) (IB d) f e c i := rfl

end Cert.KernelIdeal.Hand

end
-- ==== Proof.KI.CallFrame.lean ====
import proofs.«214604_g3212635537896_cont_8to1_b_1509_14_alg».proof.Proof.KI.Deal
import proofs.«214604_g3212635537896_cont_8to1_b_1509_14_alg».proof.Proof.KI.Args
import Idealize.ShloMosaic.Lib.Pipeline.Value

set_option maxRecDepth 16384

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

section CallFrame

variable [FloatOps F] (m : (ℓ : Loc nD τ sig) → Buf (Elt F) ℓ)

abbrev six : Finset (DevRef τ sig) :=
  {Proc.devRef .tc main_arg0, Proc.devRef .tc main_v2, Proc.devRef .tc main_v4, Proc.devRef .tc main_v6,
    Proc.devRef .tc main_v7_0, Proc.devRef .tc main_v7_1}

theorem six_sub : six ⊆ Pipeline.ucRefs τ sig := by
  intro b hb
  simp only [six, Finset.mem_insert, Finset.mem_singleton] at hb
  rcases hb with rfl | rfl | rfl | rfl | rfl | rfl <;>
    exact Finset.mem_filter.mpr ⟨StableHlo.devRef_mem_tcRefs _, by decide⟩

omit [FloatOps F] in

theorem held_six (d : Dev nD) (W : Valuation τ sig (Elt F)) :
    (StableHlo.held (SparseCore.T d : Thread nD τ) six W : sProp 𝕄)
      = iprop((xLoc d ↦{fullShare} W (Proc.devRef .tc main_arg0)) ∗ (uLoc d ↦{fullShare} W (Proc.devRef .tc main_v2))
          ∗ (iuLoc d ↦{fullShare} W (Proc.devRef .tc main_v4)) ∗ (ibLoc d ↦{fullShare} W (Proc.devRef .tc main_v6))
          ∗ (fLoc d ↦{fullShare} W (Proc.devRef .tc main_v7_0)) ∗ (eLoc d ↦{fullShare} W (Proc.devRef .tc main_v7_1))) := by
  unfold StableHlo.held six
  rw [SparseCore.bigSep_insert' (by decide), SparseCore.bigSep_insert' (by decide), SparseCore.bigSep_insert' (by decide),
    SparseCore.bigSep_insert' (by decide), SparseCore.bigSep_insert' (by decide), bigSep_singleton]

theorem W4_arg0 (d : Dev nD) : W4 m d (Proc.devRef .tc main_arg0) = W3 m d (Proc.devRef .tc main_arg0) :=
  W4_of_ne m d main_arg0 (by decide) (by decide)
theorem W4_v2 (d : Dev nD) : W4 m d (Proc.devRef .tc main_v2) = W3 m d (Proc.devRef .tc main_v2) :=
  W4_of_ne m d main_v2 (by decide) (by decide)
theorem W4_v4 (d : Dev nD) : W4 m d (Proc.devRef .tc main_v4) = W3 m d (Proc.devRef .tc main_v4) :=
  W4_of_ne m d main_v4 (by decide) (by decide)
theorem W4_v6 (d : Dev nD) : W4 m d (Proc.devRef .tc main_v6) = W3 m d (Proc.devRef .tc main_v6) :=
  W4_of_ne m d main_v6 (by decide) (by decide)
theorem W4_v7_0 (d : Dev nD) :
    W4 m d (Proc.devRef .tc main_v7_0)
      = gatherF (W3 m d (Proc.devRef .tc main_v2)) (W3 m d (Proc.devRef .tc main_v4)) (W3 m d (Proc.devRef .tc main_v7_0)) := by
  unfold W4
  rw [Function.update_of_ne (StableHlo.devRef_ne_of_ne (by decide)), Function.update_self]
theorem W4_v7_1 (d : Dev nD) :
    W4 m d (Proc.devRef .tc main_v7_1) = gatherE (W3 m d (Proc.devRef .tc main_arg0)) (W3 m d (Proc.devRef .tc main_v6)) := by
  unfold W4
  rw [Function.update_self]

theorem held_rest_W4 (d : Dev nD) :
    (StableHlo.held (SparseCore.T d : Thread nD τ) (Pipeline.ucRefs τ sig \ six) (W4 m d) : sProp 𝕄)
      = StableHlo.held (SparseCore.T d : Thread nD τ) (Pipeline.ucRefs τ sig \ six) (W3 m d) :=
  StableHlo.held_congr _ fun b hb => by
    have hn := (Finset.mem_sdiff.mp hb).2
    simp only [six, Finset.mem_insert, Finset.mem_singleton, not_or] at hn
    unfold W4
    rw [Function.update_of_ne hn.2.2.2.2.2, Function.update_of_ne hn.2.2.2.2.1]

theorem call_out_eq (d : Dev nD) :
    (StableHlo.held (SparseCore.T d : Thread nD τ) (Pipeline.ucRefs τ sig) (W3 m d) : sProp 𝕄)
      = iprop((bigSep Finset.univ fun c : Fin 2 => bigSep Finset.univ fun i : Fin 16 =>
            dealTile d (W3 m d (Proc.devRef .tc main_arg0)) (W3 m d (Proc.devRef .tc main_v2)) (W3 m d (Proc.devRef .tc main_v4))
              (W3 m d (Proc.devRef .tc main_v6)) (W3 m d (Proc.devRef .tc main_v7_0)) (W3 m d (Proc.devRef .tc main_v7_1)) c i)
          ∗ dealRem d (W3 m d (Proc.devRef .tc main_arg0)) (W3 m d (Proc.devRef .tc main_v2)) (W3 m d (Proc.devRef .tc main_v4))
              (W3 m d (Proc.devRef .tc main_v6)) (W3 m d (Proc.devRef .tc main_v7_0))
          ∗ StableHlo.held (SparseCore.T d : Thread nD τ) (Pipeline.ucRefs τ sig \ six) (W3 m d)) := by
  rw [StableHlo.held_sub_split _ six_sub, held_six, deal_eq']
  dsimp only [BIBase.sep]
  ac_rfl

theorem call_out (d : Dev nD) :
    (StableHlo.held (SparseCore.T d : Thread nD τ) (Pipeline.ucRefs τ sig) (W3 m d) : sProp 𝕄)
      ⊢ iprop((bigSep Finset.univ fun c : Fin 2 => bigSep Finset.univ fun i : Fin 16 =>
            dealTile d (W3 m d (Proc.devRef .tc main_arg0)) (W3 m d (Proc.devRef .tc main_v2)) (W3 m d (Proc.devRef .tc main_v4))
              (W3 m d (Proc.devRef .tc main_v6)) (W3 m d (Proc.devRef .tc main_v7_0)) (W3 m d (Proc.devRef .tc main_v7_1)) c i)
          ∗ dealRem d (W3 m d (Proc.devRef .tc main_arg0)) (W3 m d (Proc.devRef .tc main_v2)) (W3 m d (Proc.devRef .tc main_v4))
              (W3 m d (Proc.devRef .tc main_v6)) (W3 m d (Proc.devRef .tc main_v7_0))
          ∗ StableHlo.held (SparseCore.T d : Thread nD τ) (Pipeline.ucRefs τ sig \ six) (W3 m d)) :=
  (BI.equiv_iff.mpr (call_out_eq m d)).1

theorem call_in_eq (d : Dev nD) :
    (iprop((bigSep Finset.univ fun c : Fin 2 => bigSep Finset.univ fun i : Fin 16 =>
            dealTile d (W3 m d (Proc.devRef .tc main_arg0)) (W3 m d (Proc.devRef .tc main_v2)) (W3 m d (Proc.devRef .tc main_v4))
              (W3 m d (Proc.devRef .tc main_v6))
              (gatherF (W3 m d (Proc.devRef .tc main_v2)) (W3 m d (Proc.devRef .tc main_v4)) (W3 m d (Proc.devRef .tc main_v7_0)))
              (gatherE (W3 m d (Proc.devRef .tc main_arg0)) (W3 m d (Proc.devRef .tc main_v6))) c i)
          ∗ dealRem d (W3 m d (Proc.devRef .tc main_arg0)) (W3 m d (Proc.devRef .tc main_v2)) (W3 m d (Proc.devRef .tc main_v4))
              (W3 m d (Proc.devRef .tc main_v6)) (W3 m d (Proc.devRef .tc main_v7_0))
          ∗ StableHlo.held (SparseCore.T d : Thread nD τ) (Pipeline.ucRefs τ sig \ six) (W3 m d)) : sProp 𝕄)
      = StableHlo.held (SparseCore.T d : Thread nD τ) (Pipeline.ucRefs τ sig) (W4 m d) := by
  rw [StableHlo.held_sub_split _ six_sub (W4 m d), held_six, held_rest_W4, W4_arg0, W4_v2, W4_v4, W4_v6, W4_v7_0, W4_v7_1,
    deal_eq', dealRem_gather]
  dsimp only [BIBase.sep]
  ac_rfl

theorem call_in (d : Dev nD) :
    (iprop((bigSep Finset.univ fun c : Fin 2 => bigSep Finset.univ fun i : Fin 16 =>
            dealTile d (W3 m d (Proc.devRef .tc main_arg0)) (W3 m d (Proc.devRef .tc main_v2)) (W3 m d (Proc.devRef .tc main_v4))
              (W3 m d (Proc.devRef .tc main_v6))
              (gatherF (W3 m d (Proc.devRef .tc main_v2)) (W3 m d (Proc.devRef .tc main_v4)) (W3 m d (Proc.devRef .tc main_v7_0)))
              (gatherE (W3 m d (Proc.devRef .tc main_arg0)) (W3 m d (Proc.devRef .tc main_v6))) c i)
          ∗ dealRem d (W3 m d (Proc.devRef .tc main_arg0)) (W3 m d (Proc.devRef .tc main_v2)) (W3 m d (Proc.devRef .tc main_v4))
              (W3 m d (Proc.devRef .tc main_v6)) (W3 m d (Proc.devRef .tc main_v7_0))
          ∗ StableHlo.held (SparseCore.T d : Thread nD τ) (Pipeline.ucRefs τ sig \ six) (W3 m d)) : sProp 𝕄)
      ⊢ StableHlo.held (SparseCore.T d : Thread nD τ) (Pipeline.ucRefs τ sig) (W4 m d) :=
  (BI.equiv_iff.mpr (call_in_eq m d)).1

end CallFrame

theorem pad_range {n p N : ℕ} (hN : N = n + p) (a : (⟨1, ![n]⟩ : Shape).Idx → BitVec 32)
    (z : (⟨1, ![p]⟩ : Shape).Idx → BitVec 32) (h : Shape.Concatenates [(⟨1, ![n]⟩ : Shape), ⟨1, ![p]⟩] ⟨1, ![N]⟩ 0)
    (ha : ∀ i, (a i).toNat < 100000) (hz : ∀ i, z i = 0#32) (j : (⟨1, ![N]⟩ : Shape).Idx) :
    (concatenate (⟨1, ![N]⟩ : Shape) 0 [⟨⟨1, ![n]⟩, a⟩, ⟨⟨1, ![p]⟩, z⟩] h j).toNat < 100000 := by
  have hjN : (j 0).val < N := (j 0).isLt
  by_cases hj : (j 0).val < n
  · rw [concatenate_pair_apply_left 0 a z h j rfl (ValueIdx.ix1 ⟨(j 0).val, hj⟩) (fun b => match b with | ⟨0, _⟩ => rfl)]
    exact ha _
  · rw [concatenate_pair_apply_right 0 a z h j rfl rfl (ValueIdx.ix1 ⟨(j 0).val - n, by omega⟩)
      (fun b hb => absurd (Subsingleton.elim _ _) hb) (by show (j 0).val - n + n = (j 0).val; omega), hz]
    decide

section Range

variable [FloatOps F] (m : (ℓ : Loc nD τ sig) → Buf (Elt F) ℓ)

theorem W3_v4_eq (d : Dev nD) :
    W3 m d (Proc.devRef .tc main_v4)
      = concatenate S200704 0 [⟨S200000, m ((SparseCore.T d).loc main_arg1)⟩,
          ⟨S704, broadcastInDim S704 ![] bcast_S_S704 (constantI S_ 32 0#32)⟩] concatenates_S200000_S704_S200704_d0 := by
  have e1 : W2 m d (Proc.devRef .tc main_arg1) = m ((SparseCore.T d).loc main_arg1) :=
    (W2_of_ne m d main_arg1 (by decide)).trans (W1_of_ne m d main_arg1 (by decide) (by decide))
  rw [← e1]
  show StableHlo.after opsB (W2 m d) (Proc.devRef .tc main_v4) = _
  simp only [opsB, op_c, op_v3, op_v4, op_c_0, op_v5, op_v6]
  after_results

theorem W3_v6_eq (d : Dev nD) :
    W3 m d (Proc.devRef .tc main_v6)
      = concatenate S401408 0 [⟨S400000, m ((SparseCore.T d).loc main_arg2)⟩,
          ⟨S1408, broadcastInDim S1408 ![] bcast_S_S1408 (constantI S_ 32 0#32)⟩] concatenates_S400000_S1408_S401408_d0 := by
  have e1 : W2 m d (Proc.devRef .tc main_arg2) = m ((SparseCore.T d).loc main_arg2) :=
    (W2_of_ne m d main_arg2 (by decide)).trans (W1_of_ne m d main_arg2 (by decide) (by decide))
  rw [← e1]
  show StableHlo.after opsB (W2 m d) (Proc.devRef .tc main_v6) = _
  simp only [opsB, op_c, op_v3, op_v4, op_c_0, op_v5, op_v6]
  after_results

theorem W3_v4_range (d : Dev nD) (h1 : ∀ i, (m ((SparseCore.T d).loc main_arg1) i).toNat < 100000) :
    ∀ j, ((W3 m d (Proc.devRef .tc main_v4) : S200704.Idx → BitVec 32) j).toNat < 100000 := by
  intro j
  rw [W3_v4_eq]
  exact pad_range (n := 200000) (p := 704) (N := 200704) rfl _ _ _ h1 (fun _ => rfl) j

theorem W3_v6_range (d : Dev nD) (h2 : ∀ i, (m ((SparseCore.T d).loc main_arg2) i).toNat < 100000) :
    ∀ j, ((W3 m d (Proc.devRef .tc main_v6) : S401408.Idx → BitVec 32) j).toNat < 100000 := by
  intro j
  rw [W3_v6_eq]
  exact pad_range (n := 400000) (p := 1408) (N := 401408) rfl _ _ _ h2 (fun _ => rfl) j

end Range

end Cert.KernelIdeal.Hand

end
-- ==== Proof.KI.Main.lean ====
import proofs.«214604_g3212635537896_cont_8to1_b_1509_14_alg».proof.Proof.KI.Chain
import proofs.«214604_g3212635537896_cont_8to1_b_1509_14_alg».proof.Proof.KI.Pay
import proofs.«214604_g3212635537896_cont_8to1_b_1509_14_alg».proof.Proof.KI.CallFrame
set_option maxRecDepth 16384

noncomputable section

namespace Cert.KernelIdeal.Hand

open Cert.KernelIdeal Cert.KernelIdeal.Gen

open Idealize.ShloMosaic Idealize.ShloMosaic.TcCoe
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ
local notation "TT" => SparseCore.T

variable (m : (ℓ : Loc nD τ sig) → Buf (Elt F) ℓ) (ρ : Dev nD → PrngReg)

abbrev PM : (K (F := F)).Pay (nD := nD) (Val := Elt F) (Name := ℕ) (U := UU) :=
  P (fun d => W3 m d main_arg0) (fun d => W3 m d main_v2) (fun d => W3 m d main_v4) (fun d => W3 m d main_v6)
    (fun d => W3 m d main_v7_0) (fun d => W3 m d main_v7_1)

abbrev G (d : Dev nD) : sProp 𝕄 := Pipeline.ghostOn (pcfgs (F := F)) adm EP Finset.univ d

abbrev FIN (d : Dev nD) : sProp 𝕄 := StableHlo.held (TT d : Thread nD τ) (Pipeline.ucRefs τ sig) (W7 m d)

theorem G_eq (d : Dev nD) : (G (F := F) d : sProp 𝕄)
    = iprop((Pipeline.cellsGhost (Pipeline.pin (pcfgs (F := F)) adm) EP 0 d ∗ Pipeline.toksInit (Pipeline.pin (pcfgs (F := F)) adm) EP 0 d)
        ∗ (Pipeline.cellsGhost (Pipeline.pin (pcfgs (F := F)) adm) EP 1 d ∗ Pipeline.toksInit (Pipeline.pin (pcfgs (F := F)) adm) EP 1 d)) := by
  unfold G Pipeline.ghostOn Pipeline.PerCore.ghostOn
  rw [show (Finset.univ : Finset (Fin 2)) = {0, 1} by decide, SparseCore.bigSep_insert' (by decide), bigSep_singleton]

theorem ops_sub (ops : List (HloOp τ sig (Elt F))) (h : ops.Forall fun op => op.bufs ⊆ StableHlo.tcRefs τ sig) :
    ∀ op ∈ ops, op.bufs ⊆ Pipeline.ucRefs τ sig :=
  fun op hop => Pipeline.sub_ucRefs op ((List.forall_iff_forall_mem.mp h) op hop)

theorem opsA_sub : (opsA : List (HloOp τ sig (Elt F))).Forall fun op => op.bufs ⊆ StableHlo.tcRefs τ sig := by
  simp only [opsA, List.Forall]; repeat' constructor
  all_goals simp
theorem opsA_fresh : (opsA : List (HloOp τ sig (Elt F))).Forall fun op => op.fresh = ∅ := by
  simp only [List.Forall]; repeat' constructor

theorem opsB_sub : (opsB : List (HloOp τ sig (Elt F))).Forall fun op => op.bufs ⊆ StableHlo.tcRefs τ sig := by
  simp only [opsB, List.Forall]; repeat' constructor
  all_goals simp
theorem opsB_fresh : (opsB : List (HloOp τ sig (Elt F))).Forall fun op => op.fresh = ∅ := by
  simp only [List.Forall]; repeat' constructor
theorem opsC_sub : (opsC : List (HloOp τ sig (Elt F))).Forall fun op => op.bufs ⊆ StableHlo.tcRefs τ sig := by
  simp only [opsC, List.Forall]; repeat' constructor
  all_goals simp
theorem opsC_fresh : (opsC : List (HloOp τ sig (Elt F))).Forall fun op => op.fresh = ∅ := by
  simp only [List.Forall]; repeat' constructor
theorem opsD_sub : (opsD : List (HloOp τ sig (Elt F))).Forall fun op => op.bufs ⊆ StableHlo.tcRefs τ sig := by
  simp only [opsD, List.Forall]; repeat' constructor
  all_goals simp
theorem opsD_fresh : (opsD : List (HloOp τ sig (Elt F))).Forall fun op => op.fresh = ∅ := by
  simp only [List.Forall]; repeat' constructor

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

section Reindex
attribute [local irreducible] goAt

theorem st_eq (d : Dev nD) :
    (bigSep Finset.univ fun c : Fin ((K (F := F)).nCore 0) => (PM m).st 0 d c)
      = bigSep Finset.univ fun c : Fin 2 => bigSep Finset.univ fun i : Fin 16 =>
          dealTile d (W3 m d main_arg0) (W3 m d main_v2) (W3 m d main_v4) (W3 m d main_v6) (W3 m d main_v7_0) (W3 m d main_v7_1) c i := by
  rw [← bigSep_cores (F := F) fun c => bigSep Finset.univ fun i : Fin 16 =>
    dealTile d (W3 m d main_arg0) (W3 m d main_v2) (W3 m d main_v4) (W3 m d main_v6) (W3 m d main_v7_0) (W3 m d main_v7_1) c i]
  refine bigSep_congr fun c _ => ?_
  show (bigSep Finset.univ fun i : Fin 16 => goAt (fun d => W3 m d main_arg0) (fun d => W3 m d main_v2) (fun d => W3 m d main_v4) (fun d => W3 m d main_v6) d (Fin.cast nCore_zero c) i (W3 m d main_v7_0) (W3 m d main_v7_1)) = _
  exact bigSep_congr fun i _ => goAt_dealTile (fun d => W3 m d main_arg0) (fun d => W3 m d main_v2) (fun d => W3 m d main_v4) (fun d => W3 m d main_v6) d (Fin.cast nCore_zero c) i (W3 m d main_v7_0) (W3 m d main_v7_1)

theorem dn_eq (d : Dev nD) :
    (bigSep Finset.univ fun c : Fin ((K (F := F)).nCore 0) => (PM m).dn 0 d c)
      = bigSep Finset.univ fun c : Fin 2 => bigSep Finset.univ fun i : Fin 16 =>
          dealTile d (W3 m d main_arg0) (W3 m d main_v2) (W3 m d main_v4) (W3 m d main_v6)
            (gatherF (W3 m d main_v2) (W3 m d main_v4) (W3 m d main_v7_0)) (gatherE (W3 m d main_arg0) (W3 m d main_v6)) c i := by
  rw [← bigSep_cores (F := F) fun c => bigSep Finset.univ fun i : Fin 16 =>
    dealTile d (W3 m d main_arg0) (W3 m d main_v2) (W3 m d main_v4) (W3 m d main_v6)
      (gatherF (W3 m d main_v2) (W3 m d main_v4) (W3 m d main_v7_0)) (gatherE (W3 m d main_arg0) (W3 m d main_v6)) c i]
  refine bigSep_congr fun c _ => ?_
  show (bigSep Finset.univ fun i : Fin 16 => goAt (fun d => W3 m d main_arg0) (fun d => W3 m d main_v2) (fun d => W3 m d main_v4) (fun d => W3 m d main_v6) d (Fin.cast nCore_zero c) i
    (gatherF (W3 m d main_v2) (W3 m d main_v4) (W3 m d main_v7_0)) (gatherE (W3 m d main_arg0) (W3 m d main_v6))) = _
  exact bigSep_congr fun i _ => goAt_dealTile (fun d => W3 m d main_arg0) (fun d => W3 m d main_v2) (fun d => W3 m d main_v4) (fun d => W3 m d main_v6) d (Fin.cast nCore_zero c) i
    (gatherF (W3 m d main_v2) (W3 m d main_v4) (W3 m d main_v7_0)) (gatherE (W3 m d main_arg0) (W3 m d main_v6))

end Reindex

theorem hmain (κ : GSem nD τ sig → ℕ) (d : Dev nD) :
    iprop((K (F := F)).ctx EH (PM m) κ ∗ (K (F := F)).tcSt EH d 0 ∗ (K (F := F)).tcRes m ρ d ∗ G (F := F) d)
      ⊢ wp frame (wpE ((K (F := F)).defs (D (F := F))) 𝒱 (TT d) none) Set.univ (main d)
          fun _ => iprop((K (F := F)).tcSt EH d 1 ∗ FIN m d) := by
  unfold SparseCore.Cfg.tcRes SparseCore.Cfg.tcSt
  rw [main_eq, Pipeline.unscopedBufs_held d (W0 m d)]
  iintro ⟨#Hctx, ⟨⟨%Wt, %hWt, HO⟩, Hat, #Hrd, #Hrs, Htoks⟩, ⟨Hb, Hheld, Hsems, Hprng⟩, HG⟩
  ihave #Hlev := ((K (F := F)).ctx_levAts κ) $$ Hctx

  iapply (StableHlo.wp_seq 𝒱 none Set.univ d (Pipeline.ucRefs τ sig) _ opsA (ops_sub _ opsA_sub) (List.forall_iff_forall_mem.mp opsA_fresh) (W0 m d)) $$ [Hb Hheld]
  · isplitl [Hb] <;> iassumption
  iintro ⟨Hb, Hheld⟩

  rw [wp_bind]
  ihave HG' := (Entails.of_eq (G_eq (F := F) d)) $$ HG
  icases HG' with ⟨⟨Hcg0, Htk0⟩, HG1⟩
  iapply ((K (F := F)).wp_liftProg (D (F := F)) 𝒱 (TT d) Set.univ none (Prog.lift (.customCall (Pipeline.entry 0) ())) _)
  iapply (Pipeline.RegionSeg.wp (pcfgs (F := F)) adm (pdats m) (none : HIx 1) cellOf_inj EP defs₀ 𝒱₀ (K (F := F)).L (K (F := F)).lev (reg0 m) d none (fun u hu => nomatch hu) Prog.ret _) $$ [Hb Hheld Hprng HO Hcg0 Htk0 Hat Htoks Hsems HG1]
  · isplitl [Hat Htoks Hsems HG1]
    swap
    · isplitl [Hb]; · iexact Hb
      isplitl [Hheld Hprng HO]
      · rw [show ((reg0 m).pre d : sProp 𝕄) = iprop(StableHlo.held (d : Thread nD τ) (Pipeline.ucRefs τ sig) (W1 m d) ∗ R (F := F) 0 d) from rfl]
        isplitl [Hheld]; · iexact Hheld
        isplitl [Hprng]; · iexists _; iexact Hprng
        iexists Wt; isplitr
        · ipureintro; exact fun p hp => hWt p (Finset.mem_coe.mp hp)
        iexact HO
      isplitr; · iexact Hlev
      isplitl [Hcg0] <;> iassumption
    iintro ⟨Hb, Hpost⟩
    rw [wp_ret]; imodintro
    ihave Hpost' := (Entails.of_eq (show ((reg0 m).post d : sProp 𝕄) = iprop(StableHlo.held (d : Thread nD τ) (Pipeline.ucRefs τ sig) (W2 m d) ∗ R (F := F) 0 d) from rfl)) $$ Hpost
    icases Hpost' with ⟨Hheld, ⟨%r0, Hprng⟩, %W0', %hW0', HO⟩

    iapply (StableHlo.wp_seq 𝒱 none Set.univ d (Pipeline.ucRefs τ sig) _ opsB (ops_sub _ opsB_sub) (List.forall_iff_forall_mem.mp opsB_fresh) (W2 m d)) $$ [Hb Hheld]
    · isplitl [Hb] <;> iassumption
    iintro ⟨Hb, Hheld⟩

    rw [wp_bind]
    ihave Hd := (call_out m d) $$ Hheld
    icases Hd with ⟨Hst6, Hrem, Hrest⟩
    iapply ((K (F := F)).wp_run (D (F := F)) 𝒱 (EH := EH) (P := PM m) κ d 0) $$ [HO Hat Htoks Hb Hst6 Hrem Hrest Hprng Hsems HG1]
    isplitr; · iexact Hctx
    isplitl [HO Hat Htoks]
    · unfold SparseCore.Cfg.tcSt
      isplitl [HO]
      · iexists W0'; isplitr
        · ipureintro; exact fun p hp => hW0' (Finset.mem_coe.mpr hp)
        iexact HO
      isplitl [Hat]; · iexact Hat
      isplitr; · iexact Hrd
      isplitr; · iexact Hrs
      iexact Htoks
    isplitl [Hst6]
    · rw [st_eq]; iexact Hst6
    iintro ⟨Hst, Hdn⟩
    ihave Hdn' := (Entails.of_eq (dn_eq m d)) $$ Hdn
    ihave Hheld := (call_in m d) $$ [Hdn' Hrem Hrest]
    · isplitl [Hdn']; · iexact Hdn'
      isplitl [Hrem] <;> iassumption
    unfold SparseCore.Cfg.tcSt
    icases Hst with ⟨⟨%W1c, %hW1c, HO⟩, Hat, #Hrd1, #Hrs1, Htoks⟩

    iapply (StableHlo.wp_seq 𝒱 none Set.univ d (Pipeline.ucRefs τ sig) _ opsC (ops_sub _ opsC_sub) (List.forall_iff_forall_mem.mp opsC_fresh) (W4 m d)) $$ [Hb Hheld]
    · isplitl [Hb] <;> iassumption
    iintro ⟨Hb, Hheld⟩

    rw [wp_bind]
    icases HG1 with ⟨Hcg1, Htk1⟩
    iapply ((K (F := F)).wp_liftProg (D (F := F)) 𝒱 (TT d) Set.univ none (Prog.lift (.customCall (Pipeline.entry 1) ())) _)
    iapply (Pipeline.RegionSeg.wp (pcfgs (F := F)) adm (pdats m) (none : HIx 1) cellOf_inj EP defs₀ 𝒱₀ (K (F := F)).L (K (F := F)).lev (reg2 m) d none (fun u hu => nomatch hu) Prog.ret _) $$ [Hb Hheld Hprng HO Hcg1 Htk1 Hat Htoks Hsems]
    isplitl [Hat Htoks Hsems]
    swap
    · isplitl [Hb]; · iexact Hb
      isplitl [Hheld Hprng HO]
      · rw [show ((reg2 m).pre d : sProp 𝕄) = iprop(StableHlo.held (d : Thread nD τ) (Pipeline.ucRefs τ sig) (W5 m d) ∗ R (F := F) 1 d) from rfl]
        isplitl [Hheld]; · iexact Hheld
        isplitl [Hprng]; · iexists _; iexact Hprng
        iexists W1c; isplitr
        · ipureintro; exact fun p hp => hW1c p (Finset.mem_coe.mp hp)
        iexact HO
      isplitr; · iexact Hlev
      isplitl [Hcg1] <;> iassumption
    iintro ⟨Hb, Hpost⟩
    rw [wp_ret]; imodintro
    ihave Hpost' := (Entails.of_eq (show ((reg2 m).post d : sProp 𝕄) = iprop(StableHlo.held (d : Thread nD τ) (Pipeline.ucRefs τ sig) (W6 m d) ∗ R (F := F) 1 d) from rfl)) $$ Hpost
    icases Hpost' with ⟨Hheld, ⟨%r1, Hprng⟩, %W1', %hW1', HO⟩

    rw [show (StableHlo.seq opsD : Prog (TpuEff nD τ sig (Elt F) (SparseCore.Sig (ΛP (F := F)) 1) .tc) PUnit) = StableHlo.seq opsD >>= fun _ => pure ⟨⟩ from (bind_pure _).symm]
    iapply (StableHlo.wp_seq 𝒱 none Set.univ d (Pipeline.ucRefs τ sig) _ opsD (ops_sub _ opsD_sub) (List.forall_iff_forall_mem.mp opsD_fresh) (W6 m d)) $$ [Hb Hheld]
    · isplitl [Hb] <;> iassumption
    iintro ⟨Hb, Hheld⟩
    rw [wp_pure]; imodintro
    isplitl [HO Hat Htoks]
    · isplitl [HO]
      · iexists W1'; isplitr
        · ipureintro; exact fun p hp => hW1' (Finset.mem_coe.mpr hp)
        iexact HO
      isplitl [Hat]; · iexact Hat
      isplitr; · iexact Hrd1
      isplitr; · iexact Hrs1
      iexact Htoks
    iexact Hheld

end Cert.KernelIdeal.Hand

end
-- ==== Proof.KI.Run.lean ====
import proofs.«214604_g3212635537896_cont_8to1_b_1509_14_alg».proof.Proof.KI.Chain
import proofs.«214604_g3212635537896_cont_8to1_b_1509_14_alg».proof.Proof.KI.Args
import proofs.«214604_g3212635537896_cont_8to1_b_1509_14_alg».proof.Proof.KI.Pay
import proofs.«214604_g3212635537896_cont_8to1_b_1509_14_alg».proof.Proof.KI.CallFrame
import proofs.«214604_g3212635537896_cont_8to1_b_1509_14_alg».proof.Proof.KI.Main
import Idealize.ShloMosaic.Lib.SparseCore.Launch
import Idealize.ShloMosaic.Lib.Pipeline.Launch
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

variable (m : (ℓ : Loc nD τ sig) → Buf (Elt F) ℓ) (ρ : Dev nD → PrngReg)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

def fq (d : Dev nD) (s' : Phys nD τ sig (Elt F)) : Prop := ∀ b ∈ Pipeline.ucRefs τ sig, s'.mem.mem (d, b) = W7 m d b

theorem hfin (d : Dev nD) (s' : Phys nD τ sig (Elt F)) : iprop(FIN m d ∗ SI s') ⊢ (⌜fq m d s'⌝ : sProp 𝕄) := by
  unfold FIN StableHlo.held
  iintro ⟨Hh, HSI⟩
  ihave H := (pointsTo_read_all (Pipeline.ucRefs τ sig) (fun b => ((T d : Thread nD τ).1, b)) (W7 m d) s') $$ [Hh HSI]
  · isplitl [Hh] <;> iassumption
  icases H with ⟨%h, -⟩
  ipureintro; exact h

def QC : PUnit × MemSt nD τ sig (Elt F) → Prop := fun r => ∀ c : Dev nD,
    r.2.mem ((c.tc : Thread nD τ).loc main_v10) = W7 m c (Proc.devRef .tc main_v10)
    ∧ r.2.mem ((c.tc : Thread nD τ).loc main_v11) = W7 m c (Proc.devRef .tc main_v11)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)

theorem run_main [∀ e, Nonempty (Elt F e)] (hbody : TileBody (F := F))
    (h1 : ∀ (d : Dev nD) i, (m ((d.tc : Thread nD τ).loc main_arg1) i).toNat < 100000)
    (h2 : ∀ (d : Dev nD) i, (m ((d.tc : Thread nD τ).loc main_arg2) i).toNat < 100000) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := PM m) facts v₀
    (fun q hq => match q with | 0 => nomatch hq)
    (fun q _ => match q with | 0 => tileObl_of _ _ _ _ _ _ hbody (fun d => W3_v4_range m d (h1 d)) (fun d => W3_v6_range m d (h2 d)))
    (fun q _ => match q with | 0 => SparseCore.Cfg.VecSplit.of_plain (vecSplit _ _ _ _ _ _))
    m ρ main (G (F := F)) (FIN m) (u₀ (F := F)) (hu₀ _ _ _ _ _ _) (hmain m ρ) (fq m) (hfin m) (QC m)
    (fun s' h c => ⟨h c _ (mem_uc main_v10 (by decide)), h c _ (mem_uc main_v11 (by decide)),
      (h c _ (mem_uc main_arg0 (by decide))).trans (W7_main_arg0 m c),
      (h c _ (mem_uc main_arg1 (by decide))).trans (W7_main_arg1 m c),
      (h c _ (mem_uc main_arg2 (by decide))).trans (W7_main_arg2 m c),
      (h c _ (mem_uc main_arg3 (by decide))).trans (W7_main_arg3 m c),
      (h c _ (mem_uc main_arg4 (by decide))).trans (W7_main_arg4 m c),
      (h c _ (mem_uc main_arg5 (by decide))).trans (W7_main_arg5 m c),
      (h c _ (mem_uc main_arg6 (by decide))).trans (W7_main_arg6 m c),
      (h c _ (mem_uc main_arg7 (by decide))).trans (W7_main_arg7 m c),
      (h c _ (mem_uc main_arg8 (by decide))).trans (W7_main_arg8 m c),
      (h c _ (mem_uc main_arg9 (by decide))).trans (W7_main_arg9 m c),
      (h c _ (mem_uc main_arg10 (by decide))).trans (W7_main_arg10 m c)⟩)

theorem frame [∀ e, Nonempty (Elt F e)] (hbody : TileBody (F := F))
    (h1 : ∀ (d : Dev nD) i, (m ((d.tc : Thread nD τ).loc main_arg1) i).toNat < 100000)
    (h2 : ∀ (d : Dev nD) i, (m ((d.tc : Thread nD τ).loc main_arg2) i).toNat < 100000) :
    θ_run (Cert.KernelIdeal.defs (F := F)) (Cert.KernelIdeal.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run (Cert.KernelIdeal.defs (F := F)) _ _).mono (fun _ h c => (h c).2.2) (run_main m ρ hbody h1 h2)

end Cert.KernelIdeal.Hand

end
-- ==== Proof.KI.TileInv.lean ====
import proofs.«214604_g3212635537896_cont_8to1_b_1509_14_alg».proof.Proof.KI.TileDefs
import proofs.«214604_g3212635537896_cont_8to1_b_1509_14_alg».proof.Proof.Gen.KernelIdeal.Skeleton
import Idealize.ShloMosaic.Lib.SparseCore.Launch
import Idealize.ShloMosaic.Lib.SparseCore.Stream
import Idealize.ShloMosaic.Lib.Transfers
import Idealize.ShloMosaic.Lib.Writes
import Idealize.ShloMosaic.Lib.ValueIdx
import Idealize.ShloMosaic.Lib.Tactic

noncomputable section

namespace Cert.KernelIdeal.Hand

open Cert.KernelIdeal Cert.KernelIdeal.Gen
open Idealize.ShloMosaic Idealize.ShloMosaic.Tactic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
variable {U : Type} [URA U] [CountersIn U]

local notation "𝕄" => MT nD τ sig (HIx 1) (Elt F) ℕ U ℕ

local notation "xV" => (Memref.whole Cert.KernelIdeal.main_arg0_scv : Memref Cert.KernelIdeal.sig Kind.scVector Space.hbm Cert.KernelIdeal.S100000x128 EltTy.f32)
local notation "uV" => (Memref.whole Cert.KernelIdeal.main_v2_scv : Memref Cert.KernelIdeal.sig Kind.scVector Space.hbm Cert.KernelIdeal.S100000x128 EltTy.f32)
local notation "iuV" => (Memref.whole Cert.KernelIdeal.main_v4_scv : Memref Cert.KernelIdeal.sig Kind.scVector Space.hbm Cert.KernelIdeal.S200704 EltTy.i32)
local notation "ibV" => (Memref.whole Cert.KernelIdeal.main_v6_scv : Memref Cert.KernelIdeal.sig Kind.scVector Space.hbm Cert.KernelIdeal.S401408 EltTy.i32)
local notation "fV" => (Memref.whole Cert.KernelIdeal.main_v7_0_scv : Memref Cert.KernelIdeal.sig Kind.scVector Space.hbm Cert.KernelIdeal.S600000x128 EltTy.f32)
local notation "eV" => (Memref.whole Cert.KernelIdeal.main_v7_1_scv : Memref Cert.KernelIdeal.sig Kind.scVector Space.hbm Cert.KernelIdeal.S401408x128 EltTy.f32)
local notation "i0V" => (Memref.whole Cert.KernelIdeal.cc1_scratch0 : Memref Cert.KernelIdeal.sig Kind.scVector Space.vmem Cert.KernelIdeal.S448 EltTy.i32)
local notation "i1V" => (Memref.whole Cert.KernelIdeal.cc1_scratch1 : Memref Cert.KernelIdeal.sig Kind.scVector Space.vmem Cert.KernelIdeal.S448 EltTy.i32)
local notation "r0V" => (Memref.whole Cert.KernelIdeal.cc1_scratch2 : Memref Cert.KernelIdeal.sig Kind.scVector Space.vmem Cert.KernelIdeal.S448x128 EltTy.f32)
local notation "r1V" => (Memref.whole Cert.KernelIdeal.cc1_scratch3 : Memref Cert.KernelIdeal.sig Kind.scVector Space.vmem Cert.KernelIdeal.S448x128 EltTy.f32)

def doneS (n k : ℕ) : Finset (Fin n) := Finset.univ.filter fun j => j.val + 1 < k

def todoS (n k : ℕ) : Finset (Fin n) := Finset.univ.filter fun j => k ≤ j.val

theorem todoS_eq {n : ℕ} (k : Fin n) : todoS n k.val = insert k (todoS n (k.val + 1)) := by
  ext j; simp only [todoS, Finset.mem_filter, Finset.mem_univ, true_and, Finset.mem_insert, Fin.ext_iff]; omega
theorem todoS_notMem {n : ℕ} (k : Fin n) : k ∉ todoS n (k.val + 1) := by
  simp only [todoS, Finset.mem_filter, Finset.mem_univ, true_and]; omega
theorem doneS_eq {n : ℕ} (j : Fin n) : doneS n (j.val + 1 + 1) = insert j (doneS n (j.val + 1)) := by
  ext i; simp only [doneS, Finset.mem_filter, Finset.mem_univ, true_and, Finset.mem_insert, Fin.ext_iff]; omega
theorem doneS_notMem {n : ℕ} (j : Fin n) : j ∉ doneS n (j.val + 1) := by
  simp only [doneS, Finset.mem_filter, Finset.mem_univ, true_and]; omega
theorem doneS_one {n : ℕ} : doneS n 1 = doneS n 0 := by
  ext i; simp only [doneS, Finset.mem_filter, Finset.mem_univ, true_and]; omega
theorem doneS_zero {n : ℕ} : doneS n 0 = ∅ := by
  ext i; simp only [doneS, Finset.mem_filter, Finset.mem_univ, true_and, Finset.notMem_empty, iff_false]; omega
theorem todoS_zero {n : ℕ} : todoS n 0 = Finset.univ := by
  ext i; simp only [todoS, Finset.mem_filter, Finset.mem_univ, true_and, iff_true]; omega
theorem cond1_iff (k : Fin k1_t1_loop.trips) :
    Scalar.cmpi .ne (Scalar.extui (Scalar.cmpi .sge (Scalar.muli 2#32 (Scf.iv 0#32 1#32 k)) 2#32)) 0#32 = 1#1 ↔ 1 ≤ k.val := by
  decide +revert
theorem cond3_iff (k : Fin k1_t1_loop.trips) :
    Scalar.cmpi .ne (Scalar.extui (Scalar.cmpi .sge (Scalar.addi (Scalar.muli 2#32 (Scf.iv 0#32 1#32 k)) 1#32) 2#32)) 0#32 = 1#1 ↔ 1 ≤ k.val := by
  decide +revert
theorem cond5_iff (k : Fin k1_t2_loop.trips) :
    Scalar.cmpi .ne (Scalar.extui (Scalar.cmpi .sge (Scalar.muli 2#32 (Scf.iv 0#32 1#32 k)) 2#32)) 0#32 = 1#1 ↔ 1 ≤ k.val := by
  decide +revert
theorem cond7_iff (k : Fin k1_t2_loop.trips) :
    Scalar.cmpi .ne (Scalar.extui (Scalar.cmpi .sge (Scalar.addi (Scalar.muli 2#32 (Scf.iv 0#32 1#32 k)) 1#32) 2#32)) 0#32 = 1#1 ↔ 1 ≤ k.val := by
  decide +revert
theorem cond2_all (k : Fin k1_t1_loop.trips) : k1_cond2 k = 1#1 := by decide +revert
theorem cond4_iff (k : Fin k1_t1_loop.trips) : k1_cond4 k = 1#1 ↔ k.val < 6 := by decide +revert
theorem cond6_all (k : Fin k1_t2_loop.trips) : k1_cond6 k = 1#1 := by decide +revert
theorem cond8_iff (k : Fin k1_t2_loop.trips) : k1_cond8 k = 1#1 ↔ k.val < 13 := by decide +revert

section Inv

variable [FloatOps F]
variable (d : Dev nD) (L : grid1.Coords)

abbrev iuSl (o : Fin 1 → ℕ) (ho : ∀ a, o a + S448.size a ≤ S200704.size a) : Memref sig .scVector .hbm S448 .i32 :=
  (iuV).slice (Rect.unit (s := S200704) o S448.size ho) (fun _ => rfl)

abbrev iuPay (IU : S200704.Idx → Elt F .i32) (o : Fin 1 → ℕ) (ho : ∀ a, o a + S448.size a ≤ S200704.size a) : S448.Idx → Elt F .i32 :=
  ReadAs.same.apply ((iuSl o ho).view.read (Elt F) IU)

def fPair (f : S600000x128.Idx → Elt F .f32) (j : Fin k1_t1_loop.trips) : sProp 𝕄 :=
  iprop(((fChunkA L j).view.loc (thrV d L) ↦[(fChunkA L j).view.set]{fullShare} f : sProp 𝕄)
    ∗ ((fChunkB L j).view.loc (thrV d L) ↦[(fChunkB L j).view.set]{fullShare} f : sProp 𝕄))

def idxPart1 (IU : S200704.Idx → Elt F .i32) (qi : PosShare TreeShare) (k : ℕ) : sProp 𝕄 :=
  iprop((∃ o : Fin 1 → ℕ, ∃ ho : ∀ a, o a + S448.size a ≤ S200704.size a, ∃ fi, ⌜k < 7 ∧ o 0 = 896 * (L 1).val + 448 * (L 0).val + 28672 * k⌝
      ∗ Transfers.Flight countersEmb (thrV d L) (SemLoc.dma cc1_scratch4.sem) (default : HIx 1) 14336
          iprop(((i0V).view.loc (thrV d L) ↦{fullShare} View.write (Elt F) (i0V).view fi (iuPay IU o ho) Finset.univ : sProp 𝕄)
            ∗ ((iuV).view.loc (thrV d L) ↦[(iuSl o ho).view.set]{qi} IU : sProp 𝕄))
      ∗ ((iuV).view.loc (thrV d L) ↦[Finset.univ \ (iuSl o ho).view.set]{qi} IU : sProp 𝕄))
    ∨ (⌜k = 7⌝ ∗ (∃ fi, ((i0V).view.loc (thrV d L) ↦{fullShare} fi : sProp 𝕄)) ∗ semVal (cellV d L cc1_scratch4.sem) 0
        ∗ ((iuV).view.loc (thrV d L) ↦{qi} IU : sProp 𝕄)))

def slotPart1 (FG : S600000x128.Idx → Elt F .f32) (k : ℕ) : sProp 𝕄 :=
  iprop((⌜k = 0⌝ ∗ (∃ fr, ((r0V).view.loc (thrV d L) ↦{fullShare} fr : sProp 𝕄)) ∗ (∃ fr, ((r1V).view.loc (thrV d L) ↦{fullShare} fr : sProp 𝕄))
        ∗ semVal (cellV d L cc1_scratch8.sem) 0 ∗ semVal (cellV d L cc1_scratch9.sem) 0)
    ∨ (∃ j : Fin k1_t1_loop.trips, ⌜j.val + 1 = k⌝
        ∗ (∃ fr, Transfers.Flight countersEmb (thrV d L) (SemLoc.dma cc1_scratch8.sem) (default : HIx 1) 1835008
            iprop(((fChunkA L j).view.loc (thrV d L) ↦[(fChunkA L j).view.set]{fullShare} FG : sProp 𝕄)
              ∗ ((r0V).view.loc (thrV d L) ↦{fullShare} fr : sProp 𝕄)))
        ∗ (∃ fr, Transfers.Flight countersEmb (thrV d L) (SemLoc.dma cc1_scratch9.sem) (default : HIx 1) 1835008
            iprop(((fChunkB L j).view.loc (thrV d L) ↦[(fChunkB L j).view.set]{fullShare} FG : sProp 𝕄)
              ∗ ((r1V).view.loc (thrV d L) ↦{fullShare} fr : sProp 𝕄)))))

def inv1 (O : CellTallies nD τ sig (HIx 1)) (W : Waits sig (HIx 1)) (Uc : S100000x128.Idx → Elt F .f32) (IU : S200704.Idx → Elt F .i32)
    (f0 : S600000x128.Idx → Elt F .f32) (qu qi : PosShare TreeShare) (k : ℕ) (_ : PUnit) : sProp 𝕄 :=
  iprop(Transfers.MayWaits (thrV d L) (default : HIx 1) O
    ∗ ((uV).view.loc (thrV d L) ↦{qu} Uc : sProp 𝕄)
    ∗ idxPart1 d L IU qi k
    ∗ (∃ fi, ((i1V).view.loc (thrV d L) ↦{fullShare} fi : sProp 𝕄))
    ∗ semVal (cellV d L cc1_scratch5.sem) 0 ∗ semVal (cellV d L cc1_scratch6.sem) 0 ∗ semVal (cellV d L cc1_scratch7.sem) 0
    ∗ slotPart1 d L (gatherF Uc IU f0) k
    ∗ bigSep (doneS k1_t1_loop.trips k) (fPair d L (gatherF Uc IU f0))
    ∗ bigSep (todoS k1_t1_loop.trips k) (fPair d L f0)
    ∗ ∃ W', ⌜∀ p ∈ W', p ∈ W ∨ p.2 = none⌝ ∗ owes (thrV d L) O W')

abbrev ibSl (o : Fin 1 → ℕ) (ho : ∀ a, o a + S448.size a ≤ S401408.size a) : Memref sig .scVector .hbm S448 .i32 :=
  (ibV).slice (Rect.unit (s := S401408) o S448.size ho) (fun _ => rfl)

abbrev ibPay (IB : S401408.Idx → Elt F .i32) (o : Fin 1 → ℕ) (ho : ∀ a, o a + S448.size a ≤ S401408.size a) : S448.Idx → Elt F .i32 :=
  ReadAs.same.apply ((ibSl o ho).view.read (Elt F) IB)

def ePair (f : S401408x128.Idx → Elt F .f32) (j : Fin k1_t2_loop.trips) : sProp 𝕄 :=
  iprop(((eChunkA L j).view.loc (thrV d L) ↦[(eChunkA L j).view.set]{fullShare} f : sProp 𝕄)
    ∗ ((eChunkB L j).view.loc (thrV d L) ↦[(eChunkB L j).view.set]{fullShare} f : sProp 𝕄))

def idxPart2 (IB : S401408.Idx → Elt F .i32) (qj : PosShare TreeShare) (k : ℕ) : sProp 𝕄 :=
  iprop((∃ o : Fin 1 → ℕ, ∃ ho : ∀ a, o a + S448.size a ≤ S401408.size a, ∃ fi, ⌜k < 14 ∧ o 0 = 896 * (L 1).val + 448 * (L 0).val + 28672 * k⌝
      ∗ Transfers.Flight countersEmb (thrV d L) (SemLoc.dma cc1_scratch4.sem) (default : HIx 1) 14336
          iprop(((i0V).view.loc (thrV d L) ↦{fullShare} View.write (Elt F) (i0V).view fi (ibPay IB o ho) Finset.univ : sProp 𝕄)
            ∗ ((ibV).view.loc (thrV d L) ↦[(ibSl o ho).view.set]{qj} IB : sProp 𝕄))
      ∗ ((ibV).view.loc (thrV d L) ↦[Finset.univ \ (ibSl o ho).view.set]{qj} IB : sProp 𝕄))
    ∨ (⌜k = 14⌝ ∗ (∃ fi, ((i0V).view.loc (thrV d L) ↦{fullShare} fi : sProp 𝕄)) ∗ semVal (cellV d L cc1_scratch4.sem) 0
        ∗ ((ibV).view.loc (thrV d L) ↦{qj} IB : sProp 𝕄)))

def slotPart2 (FG : S401408x128.Idx → Elt F .f32) (k : ℕ) : sProp 𝕄 :=
  iprop((⌜k = 0⌝ ∗ (∃ fr, ((r0V).view.loc (thrV d L) ↦{fullShare} fr : sProp 𝕄)) ∗ (∃ fr, ((r1V).view.loc (thrV d L) ↦{fullShare} fr : sProp 𝕄))
        ∗ semVal (cellV d L cc1_scratch8.sem) 0 ∗ semVal (cellV d L cc1_scratch9.sem) 0)
    ∨ (∃ j : Fin k1_t2_loop.trips, ⌜j.val + 1 = k⌝
        ∗ (∃ fr, Transfers.Flight countersEmb (thrV d L) (SemLoc.dma cc1_scratch8.sem) (default : HIx 1) 1835008
            iprop(((eChunkA L j).view.loc (thrV d L) ↦[(eChunkA L j).view.set]{fullShare} FG : sProp 𝕄)
              ∗ ((r0V).view.loc (thrV d L) ↦{fullShare} fr : sProp 𝕄)))
        ∗ (∃ fr, Transfers.Flight countersEmb (thrV d L) (SemLoc.dma cc1_scratch9.sem) (default : HIx 1) 1835008
            iprop(((eChunkB L j).view.loc (thrV d L) ↦[(eChunkB L j).view.set]{fullShare} FG : sProp 𝕄)
              ∗ ((r1V).view.loc (thrV d L) ↦{fullShare} fr : sProp 𝕄)))))

def inv2 (O : CellTallies nD τ sig (HIx 1)) (W : Waits sig (HIx 1)) (X : S100000x128.Idx → Elt F .f32) (IB : S401408.Idx → Elt F .i32)
    (e0 : S401408x128.Idx → Elt F .f32) (qx qj : PosShare TreeShare) (k : ℕ) (_ : PUnit) : sProp 𝕄 :=
  iprop(Transfers.MayWaits (thrV d L) (default : HIx 1) O
    ∗ ((xV).view.loc (thrV d L) ↦{qx} X : sProp 𝕄)
    ∗ idxPart2 d L IB qj k
    ∗ (∃ fi, ((i1V).view.loc (thrV d L) ↦{fullShare} fi : sProp 𝕄))
    ∗ semVal (cellV d L cc1_scratch5.sem) 0 ∗ semVal (cellV d L cc1_scratch6.sem) 0 ∗ semVal (cellV d L cc1_scratch7.sem) 0
    ∗ slotPart2 d L (gatherE X IB) k
    ∗ bigSep (doneS k1_t2_loop.trips k) (ePair d L (gatherE X IB))
    ∗ bigSep (todoS k1_t2_loop.trips k) (ePair d L e0)
    ∗ ∃ W', ⌜∀ p ∈ W', p ∈ W ∨ p.2 = none⌝ ∗ owes (thrV d L) O W')

end Inv

end Cert.KernelIdeal.Hand

end
-- ==== Proof.KI.TileVal.lean ====
import proofs.«214604_g3212635537896_cont_8to1_b_1509_14_alg».proof.Proof.KI.TileInv
import proofs.«214604_g3212635537896_cont_8to1_b_1509_14_alg».proof.Proof.Gen.KernelIdeal.Skeleton
import Idealize.ShloMosaic.Lib.SparseCore.Launch
import Idealize.ShloMosaic.Lib.SparseCore.Stream
import Idealize.ShloMosaic.Lib.Transfers
import Idealize.ShloMosaic.Lib.Writes
import Idealize.ShloMosaic.Lib.Pipeline.Value
import Idealize.ShloMosaic.Lib.ValueIdx
import Idealize.ShloMosaic.Lib.Tactic

noncomputable section

namespace Cert.KernelIdeal.Hand

open Cert.KernelIdeal Cert.KernelIdeal.Gen
open Idealize.ShloMosaic Idealize.ShloMosaic.Tactic Idealize.ShloMosaic.ValueIdx
open Idealize.ShloMosaic.SparseCore (S V T)

variable {F : FTy → Type}

local notation "xV" => (Memref.whole Cert.KernelIdeal.main_arg0_scv : Memref Cert.KernelIdeal.sig Kind.scVector Space.hbm Cert.KernelIdeal.S100000x128 EltTy.f32)
local notation "uV" => (Memref.whole Cert.KernelIdeal.main_v2_scv : Memref Cert.KernelIdeal.sig Kind.scVector Space.hbm Cert.KernelIdeal.S100000x128 EltTy.f32)
local notation "iuV" => (Memref.whole Cert.KernelIdeal.main_v4_scv : Memref Cert.KernelIdeal.sig Kind.scVector Space.hbm Cert.KernelIdeal.S200704 EltTy.i32)
local notation "ibV" => (Memref.whole Cert.KernelIdeal.main_v6_scv : Memref Cert.KernelIdeal.sig Kind.scVector Space.hbm Cert.KernelIdeal.S401408 EltTy.i32)
local notation "fV" => (Memref.whole Cert.KernelIdeal.main_v7_0_scv : Memref Cert.KernelIdeal.sig Kind.scVector Space.hbm Cert.KernelIdeal.S600000x128 EltTy.f32)
local notation "eV" => (Memref.whole Cert.KernelIdeal.main_v7_1_scv : Memref Cert.KernelIdeal.sig Kind.scVector Space.hbm Cert.KernelIdeal.S401408x128 EltTy.f32)
local notation "i0V" => (Memref.whole Cert.KernelIdeal.cc1_scratch0 : Memref Cert.KernelIdeal.sig Kind.scVector Space.vmem Cert.KernelIdeal.S448 EltTy.i32)
local notation "i1V" => (Memref.whole Cert.KernelIdeal.cc1_scratch1 : Memref Cert.KernelIdeal.sig Kind.scVector Space.vmem Cert.KernelIdeal.S448 EltTy.i32)
local notation "r0V" => (Memref.whole Cert.KernelIdeal.cc1_scratch2 : Memref Cert.KernelIdeal.sig Kind.scVector Space.vmem Cert.KernelIdeal.S448x128 EltTy.f32)
local notation "r1V" => (Memref.whole Cert.KernelIdeal.cc1_scratch3 : Memref Cert.KernelIdeal.sig Kind.scVector Space.vmem Cert.KernelIdeal.S448x128 EltTy.f32)

section Values

variable [FloatOps F]
variable (d : Dev nD) (L : grid1.Coords)

theorem rowMajor_symm_ix1 {n : ℕ} (k : Fin (⟨1, ![n]⟩ : Shape).numel) (hk : k.val < n) :
    (⟨1, ![n]⟩ : Shape).rowMajor.symm k = ix1 ⟨k.val, hk⟩ :=
  (Equiv.symm_apply_eq _).mpr (Fin.ext (by rw [Shape.rowMajor_val_one]; rfl))

theorem gather_apply (T : S100000x128.Idx → Elt F .f32) (lst : S448.Idx → Elt F .i32)
    (hn : S448.numel = S448x128.size gathers_S100000x128_S448x128.axis')
    (h : ∀ x, (lst x).toNat < S100000x128.size gathers_S100000x128_S448x128.axis) (x : S448x128.Idx) :
    SparseCore.gatherPayload gathers_S100000x128_S448x128 T (SparseCore.rows lst hn h) x
      = T (ix2 (rowOf (lst (ix1 (x 0)))) (x 1)) := by
  unfold SparseCore.gatherPayload
  congr 1
  funext b
  match b with
  | ⟨0, _⟩ =>
    refine Fin.ext ?_
    have h0 := congrArg Fin.val (Shape.Gathers.idx_axis gathers_S100000x128_S448x128 (SparseCore.rows lst hn h) x)
    refine h0.trans ?_
    show (lst (S448.rowMajor.symm _)).toNat = (rowOf (lst (ix1 (x 0)))).val
    rw [rowOf_val_of_lt (h _), rowMajor_symm_ix1 _ (x 0).isLt]
    rfl
  | ⟨1, _⟩ =>
    exact Fin.ext (Shape.Gathers.idx_of_ne gathers_S100000x128_S448x128 (SparseCore.rows lst hn h) x ⟨1, by decide⟩ (by decide))

theorem iuPay_apply (IU : S200704.Idx → Elt F .i32) (o : Fin 1 → ℕ) (ho : ∀ a, o a + S448.size a ≤ S200704.size a) (j : S448.Idx) :
    iuPay IU o ho j = IU (ix1 ⟨o 0 + (j 0).val, by have := ho 0; have := (j 0).isLt; simp only [S448, S200704, Matrix.cons_val_zero] at *; omega⟩) := by
  show (iuSl o ho).view.read (Elt F) IU j = _
  rw [show (iuSl o ho).view.read (Elt F) IU j = IU ((iuSl o ho).view.emb j) from (View.read_apply _ _).trans (cast_eq _ _)]
  congr 1
  funext a
  match a with
  | ⟨0, _⟩ => exact Fin.ext (by show o 0 + 1 * (j 0).val = o 0 + (j 0).val; omega)

theorem read_uAll (Uc : S100000x128.Idx → Elt F .f32) :
    View.read (Elt F) ((uV).slice (Rect.unit (s := S100000x128) ![0, 0] S100000x128.size inb_S100000x128_S100000x128_0_0) (fun _ => rfl)).view Uc = Uc := by
  funext x
  rw [show View.read (Elt F) ((uV).slice (Rect.unit (s := S100000x128) ![0, 0] S100000x128.size inb_S100000x128_S100000x128_0_0) (fun _ => rfl)).view Uc x
    = Uc (((uV).slice (Rect.unit (s := S100000x128) ![0, 0] S100000x128.size inb_S100000x128_S100000x128_0_0) (fun _ => rfl)).view.emb x) from (View.read_apply _ _).trans (cast_eq _ _)]
  congr 1
  funext a
  match a with
  | ⟨0, _⟩ => exact Fin.ext (by show 0 + 1 * (x 0).val = (x 0).val; omega)
  | ⟨1, _⟩ => exact Fin.ext (by show 0 + 1 * (x 1).val = (x 1).val; omega)

theorem rows0_out (fr : Buf (Elt F) ((r0V).view.loc (thrV d L))) (G : S448x128.Idx → Elt F .f32) :
    ReadAs.same.apply (View.read (Elt F) (r0V).view ((r0V).view.writes (Elt F) fr [⟨Rect.whole cc1_scratch2.ty.shape, G⟩])) = G := by
  funext y
  have h := View.read_writes_cons_emb (r0V).view fr (Rect.whole cc1_scratch2.ty.shape) G [] y
  rw [Rect.emb_whole_apply] at h
  exact h
theorem rows1_out (fr : Buf (Elt F) ((r1V).view.loc (thrV d L))) (G : S448x128.Idx → Elt F .f32) :
    ReadAs.same.apply (View.read (Elt F) (r1V).view ((r1V).view.writes (Elt F) fr [⟨Rect.whole cc1_scratch3.ty.shape, G⟩])) = G := by
  funext y
  have h := View.read_writes_cons_emb (r1V).view fr (Rect.whole cc1_scratch3.ty.shape) G [] y
  rw [Rect.emb_whole_apply] at h
  exact h

theorem chunk_writes_emb (c : Memref sig .scVector .hbm S448x128 .f32) (f : c.view.ty.Contents (Elt F)) (P : S448x128.Idx → Elt F .f32) (y : S448x128.Idx) :
    c.view.read (Elt F) (c.view.writes (Elt F) f [⟨Rect.whole S448x128, P⟩]) y = P y := by
  have h := View.read_writes_cons_emb c.view f (Rect.whole S448x128) P [] y
  rw [Rect.emb_whole_apply] at h
  exact h

theorem list0_out (fi : Buf (Elt F) ((i0V).view.loc (thrV d L))) (w : S448.Idx → Elt F .i32) :
    View.read (Elt F) (i0V).view (View.write (Elt F) (i0V).view fi w Finset.univ) = w := by
  simp only [Memref.view_whole, View.write_whole_univ, View.read_whole]
theorem list1_out (fi : Buf (Elt F) ((i1V).view.loc (thrV d L))) (w : S448.Idx → Elt F .i32) :
    View.read (Elt F) (i1V).view (View.write (Elt F) (i1V).view fi w Finset.univ) = w := by
  simp only [Memref.view_whole, View.write_whole_univ, View.read_whole]

theorem fA_congr (Uc : S100000x128.Idx → Elt F .f32) (IU : S200704.Idx → Elt F .i32) (f0 : S600000x128.Idx → Elt F .f32) (k : Fin k1_t1_loop.trips)
    (o : Fin 1 → ℕ) (ho : ∀ a, o a + S448.size a ≤ S200704.size a) (hoff : o 0 = 896 * (L 1).val + 448 * (L 0).val + 28672 * k.val)
    (fi : Buf (Elt F) ((i0V).view.loc (thrV d L))) (fr : Buf (Elt F) ((r0V).view.loc (thrV d L)))
    (hn : S448.numel = S448x128.size gathers_S100000x128_S448x128.axis')
    (h : ∀ x, (View.read (Elt F) (i0V).view (View.write (Elt F) (i0V).view fi (iuPay IU o ho) Finset.univ) x).toNat < S100000x128.size gathers_S100000x128_S448x128.axis) :
    ∀ i ∈ (fChunkA L k).view.set, (fChunkA L k).view.writes (Elt F) f0 [⟨Rect.whole S448x128, ReadAs.same.apply (View.read (Elt F) (r0V).view ((r0V).view.writes (Elt F) fr [⟨Rect.whole cc1_scratch2.ty.shape, SparseCore.gatherPayload gathers_S100000x128_S448x128 (View.read (Elt F) ((uV).slice (Rect.unit (s := S100000x128) ![0, 0] S100000x128.size inb_S100000x128_S100000x128_0_0) (fun _ => rfl)).view Uc) (SparseCore.rows (View.read (Elt F) (i0V).view (View.write (Elt F) (i0V).view fi (iuPay IU o ho) Finset.univ)) hn h)⟩]))⟩] i = gatherF Uc IU f0 i := by
  intro i hi
  obtain ⟨y, rfl⟩ := View.exists_emb_of_mem_set (fChunkA L k).view hi

  have e0 : ((fChunkA L k).view.emb y 0).val = o 0 + (y 0).val := by
    show k1_off3 L k 0 + 1 * (y 0).val = o 0 + (y 0).val
    rw [k1_off3_eq, hoff]; simp only [Matrix.cons_val_zero]; omega
  have e1 : ((fChunkA L k).view.emb y 1).val = (y 1).val := by
    show k1_off3 L k 1 + 1 * (y 1).val = (y 1).val
    rw [k1_off3_eq]; simp only [Matrix.cons_val_one, Matrix.head_cons, Matrix.cons_val_fin_one]; omega
  have hlt : ((fChunkA L k).view.emb y 0).val < 200704 := by
    have := core_lt L; have := sub_lt L; have := trip1_lt k; have hy : (y 0).val < 448 := (y 0).isLt
    rw [e0, hoff]; omega

  refine (((View.read_apply (v := (fChunkA L k).view) _ y).trans (cast_eq _ _)).symm.trans (chunk_writes_emb (fChunkA L k) f0 _ y)).trans ?_
  rw [rows0_out d L fr, read_uAll, gather_apply, list0_out d L fi, iuPay_apply]

  unfold gatherF
  rw [dif_pos hlt]
  refine congrArg Uc ?_
  refine congr (congrArg ix2 (congrArg rowOf (congrArg IU (congrArg ix1 (Fin.ext ?_))))) (Fin.ext ?_)
  · exact e0.symm
  · exact e1.symm

theorem fB_congr (Uc : S100000x128.Idx → Elt F .f32) (IU : S200704.Idx → Elt F .i32) (f0 : S600000x128.Idx → Elt F .f32) (k : Fin k1_t1_loop.trips)
    (o : Fin 1 → ℕ) (ho : ∀ a, o a + S448.size a ≤ S200704.size a) (hoff : o 0 = 896 * (L 1).val + 448 * (L 0).val + 28672 * k.val + 14336)
    (fi : Buf (Elt F) ((i1V).view.loc (thrV d L))) (fr : Buf (Elt F) ((r1V).view.loc (thrV d L)))
    (hn : S448.numel = S448x128.size gathers_S100000x128_S448x128.axis')
    (h : ∀ x, (View.read (Elt F) (i1V).view (View.write (Elt F) (i1V).view fi (iuPay IU o ho) Finset.univ) x).toNat < S100000x128.size gathers_S100000x128_S448x128.axis) :
    ∀ i ∈ (fChunkB L k).view.set, (fChunkB L k).view.writes (Elt F) f0 [⟨Rect.whole S448x128, ReadAs.same.apply (View.read (Elt F) (r1V).view ((r1V).view.writes (Elt F) fr [⟨Rect.whole cc1_scratch3.ty.shape, SparseCore.gatherPayload gathers_S100000x128_S448x128 (View.read (Elt F) ((uV).slice (Rect.unit (s := S100000x128) ![0, 0] S100000x128.size inb_S100000x128_S100000x128_0_0) (fun _ => rfl)).view Uc) (SparseCore.rows (View.read (Elt F) (i1V).view (View.write (Elt F) (i1V).view fi (iuPay IU o ho) Finset.univ)) hn h)⟩]))⟩] i = gatherF Uc IU f0 i := by
  intro i hi
  obtain ⟨y, rfl⟩ := View.exists_emb_of_mem_set (fChunkB L k).view hi

  have e0 : ((fChunkB L k).view.emb y 0).val = o 0 + (y 0).val := by
    show k1_off5 L k 0 + 1 * (y 0).val = o 0 + (y 0).val
    rw [k1_off5_eq, hoff]; simp only [Matrix.cons_val_zero]; omega
  have e1 : ((fChunkB L k).view.emb y 1).val = (y 1).val := by
    show k1_off5 L k 1 + 1 * (y 1).val = (y 1).val
    rw [k1_off5_eq]; simp only [Matrix.cons_val_one, Matrix.head_cons, Matrix.cons_val_fin_one]; omega
  have hlt : ((fChunkB L k).view.emb y 0).val < 200704 := by
    have := core_lt L; have := sub_lt L; have := trip1_lt k; have hy : (y 0).val < 448 := (y 0).isLt
    rw [e0, hoff]; omega

  refine (((View.read_apply (v := (fChunkB L k).view) _ y).trans (cast_eq _ _)).symm.trans (chunk_writes_emb (fChunkB L k) f0 _ y)).trans ?_
  rw [rows1_out d L fr, read_uAll, gather_apply, list1_out d L fi, iuPay_apply]

  unfold gatherF
  rw [dif_pos hlt]
  refine congrArg Uc ?_
  refine congr (congrArg ix2 (congrArg rowOf (congrArg IU (congrArg ix1 (Fin.ext ?_))))) (Fin.ext ?_)
  · exact e0.symm
  · exact e1.symm

end Values

end Cert.KernelIdeal.Hand

end
-- ==== Proof.KI.TileTripF.lean ====
import proofs.«214604_g3212635537896_cont_8to1_b_1509_14_alg».proof.Proof.KI.TileInv
import proofs.«214604_g3212635537896_cont_8to1_b_1509_14_alg».proof.Proof.KI.TileVal
import proofs.«214604_g3212635537896_cont_8to1_b_1509_14_alg».proof.Proof.Gen.KernelIdeal.Skeleton
import Idealize.ShloMosaic.Lib.SparseCore.Launch
import Idealize.ShloMosaic.Lib.SparseCore.Stream
import Idealize.ShloMosaic.Lib.Transfers
import Idealize.ShloMosaic.Lib.Writes
import Idealize.ShloMosaic.Lib.ValueIdx
import Idealize.ShloMosaic.Lib.Tactic

noncomputable section

namespace Cert.KernelIdeal.Hand

open Cert.KernelIdeal Cert.KernelIdeal.Gen
open Idealize.ShloMosaic Idealize.ShloMosaic.Tactic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
variable {U : Type} [URA U] [CountersIn U]

local notation "𝕄" => MT nD τ sig (HIx 1) (Elt F) ℕ U ℕ

local notation "xV" => (Memref.whole Cert.KernelIdeal.main_arg0_scv : Memref Cert.KernelIdeal.sig Kind.scVector Space.hbm Cert.KernelIdeal.S100000x128 EltTy.f32)
local notation "uV" => (Memref.whole Cert.KernelIdeal.main_v2_scv : Memref Cert.KernelIdeal.sig Kind.scVector Space.hbm Cert.KernelIdeal.S100000x128 EltTy.f32)
local notation "iuV" => (Memref.whole Cert.KernelIdeal.main_v4_scv : Memref Cert.KernelIdeal.sig Kind.scVector Space.hbm Cert.KernelIdeal.S200704 EltTy.i32)
local notation "ibV" => (Memref.whole Cert.KernelIdeal.main_v6_scv : Memref Cert.KernelIdeal.sig Kind.scVector Space.hbm Cert.KernelIdeal.S401408 EltTy.i32)
local notation "fV" => (Memref.whole Cert.KernelIdeal.main_v7_0_scv : Memref Cert.KernelIdeal.sig Kind.scVector Space.hbm Cert.KernelIdeal.S600000x128 EltTy.f32)
local notation "eV" => (Memref.whole Cert.KernelIdeal.main_v7_1_scv : Memref Cert.KernelIdeal.sig Kind.scVector Space.hbm Cert.KernelIdeal.S401408x128 EltTy.f32)
local notation "i0V" => (Memref.whole Cert.KernelIdeal.cc1_scratch0 : Memref Cert.KernelIdeal.sig Kind.scVector Space.vmem Cert.KernelIdeal.S448 EltTy.i32)
local notation "i1V" => (Memref.whole Cert.KernelIdeal.cc1_scratch1 : Memref Cert.KernelIdeal.sig Kind.scVector Space.vmem Cert.KernelIdeal.S448 EltTy.i32)
local notation "r0V" => (Memref.whole Cert.KernelIdeal.cc1_scratch2 : Memref Cert.KernelIdeal.sig Kind.scVector Space.vmem Cert.KernelIdeal.S448x128 EltTy.f32)
local notation "r1V" => (Memref.whole Cert.KernelIdeal.cc1_scratch3 : Memref Cert.KernelIdeal.sig Kind.scVector Space.vmem Cert.KernelIdeal.S448x128 EltTy.f32)

section Region1
variable [FloatOps F]
variable (d : Dev nD) (L : grid1.Coords)

theorem list0_inb (pay : S448.Idx → Elt F .i32) (hpay : ∀ x, (pay x).toNat < 100000) (fi : Buf (Elt F) ((i0V).view.loc (thrV d L))) :
    ∀ x, ((i0V).view.read (Elt F) (View.write (Elt F) (i0V).view fi pay Finset.univ) x).toNat < 100000 := by
  intro x
  rw [View.write_whole_univ]
  simp only [Memref.view_whole, View.read_whole]
  exact hpay x

theorem list1_inb (pay : S448.Idx → Elt F .i32) (hpay : ∀ x, (pay x).toNat < 100000) (fi : Buf (Elt F) ((i1V).view.loc (thrV d L))) :
    ∀ x, ((i1V).view.read (Elt F) (View.write (Elt F) (i1V).view fi pay Finset.univ) x).toNat < 100000 := by
  intro x
  rw [View.write_whole_univ]
  simp only [Memref.view_whole, View.read_whole]
  exact hpay x

theorem iuPay_lt (IU : S200704.Idx → Elt F .i32) (hIU : ∀ j, (IU j).toNat < 100000) (o : Fin 1 → ℕ) (ho : ∀ a, o a + S448.size a ≤ S200704.size a) :
    ∀ x, (iuPay IU o ho x).toNat < 100000 := by
  intro x
  show ((iuSl o ho).view.read (Elt F) IU x).toNat < 100000
  rw [show (iuSl o ho).view.read (Elt F) IU x = IU ((iuSl o ho).view.emb x) from (View.read_apply _ _).trans (cast_eq _ _)]
  exact hIU _

theorem flightLand0 (c : Memref sig .scVector .hbm S448x128 .f32) (sm : SemLoc sig) (N : ℕ)
    (f0 FG : Buf (Elt F) (c.view.loc (thrV d L))) {PAY : S448x128.Idx → Elt F .f32} {R : Buf (Elt F) ((r0V).view.loc (thrV d L))} :
    (iprop(Transfers.Flight countersEmb (thrV d L) sm (default : HIx 1) N
        iprop((c.view.loc (thrV d L) ↦[c.view.set]{fullShare} c.view.writes (Elt F) f0 [⟨Rect.whole S448x128, PAY⟩] : sProp 𝕄)
          ∗ ((r0V).view.loc (thrV d L) ↦[(r0V).view.set]{fullShare} R : sProp 𝕄))
      ∗ ⌜∀ i ∈ c.view.set, c.view.writes (Elt F) f0 [⟨Rect.whole S448x128, PAY⟩] i = FG i⌝) : sProp 𝕄)
      ⊢ Transfers.Flight countersEmb (thrV d L) sm (default : HIx 1) N
        iprop((c.view.loc (thrV d L) ↦[c.view.set]{fullShare} FG : sProp 𝕄) ∗ ((r0V).view.loc (thrV d L) ↦{fullShare} R : sProp 𝕄)) := by
  iintro ⟨Hfl, %hc⟩
  iapply (Transfers.Flight_mono countersEmb (thrV d L) (show
    (iprop((c.view.loc (thrV d L) ↦[c.view.set]{fullShare} c.view.writes (Elt F) f0 [⟨Rect.whole S448x128, PAY⟩] : sProp 𝕄)
          ∗ ((r0V).view.loc (thrV d L) ↦[(r0V).view.set]{fullShare} R : sProp 𝕄)) : sProp 𝕄)
      ⊢ iprop((c.view.loc (thrV d L) ↦[c.view.set]{fullShare} FG : sProp 𝕄) ∗ ((r0V).view.loc (thrV d L) ↦{fullShare} R : sProp 𝕄)) from by
    rw [pointsTo_congr hc, show (r0V).view.set = Finset.univ from View.set_whole _])) $$ Hfl

theorem flightLand1 (c : Memref sig .scVector .hbm S448x128 .f32) (sm : SemLoc sig) (N : ℕ)
    (f0 FG : Buf (Elt F) (c.view.loc (thrV d L))) {PAY : S448x128.Idx → Elt F .f32} {R : Buf (Elt F) ((r1V).view.loc (thrV d L))} :
    (iprop(Transfers.Flight countersEmb (thrV d L) sm (default : HIx 1) N
        iprop((c.view.loc (thrV d L) ↦[c.view.set]{fullShare} c.view.writes (Elt F) f0 [⟨Rect.whole S448x128, PAY⟩] : sProp 𝕄)
          ∗ ((r1V).view.loc (thrV d L) ↦[(r1V).view.set]{fullShare} R : sProp 𝕄))
      ∗ ⌜∀ i ∈ c.view.set, c.view.writes (Elt F) f0 [⟨Rect.whole S448x128, PAY⟩] i = FG i⌝) : sProp 𝕄)
      ⊢ Transfers.Flight countersEmb (thrV d L) sm (default : HIx 1) N
        iprop((c.view.loc (thrV d L) ↦[c.view.set]{fullShare} FG : sProp 𝕄) ∗ ((r1V).view.loc (thrV d L) ↦{fullShare} R : sProp 𝕄)) := by
  iintro ⟨Hfl, %hc⟩
  iapply (Transfers.Flight_mono countersEmb (thrV d L) (show
    (iprop((c.view.loc (thrV d L) ↦[c.view.set]{fullShare} c.view.writes (Elt F) f0 [⟨Rect.whole S448x128, PAY⟩] : sProp 𝕄)
          ∗ ((r1V).view.loc (thrV d L) ↦[(r1V).view.set]{fullShare} R : sProp 𝕄)) : sProp 𝕄)
      ⊢ iprop((c.view.loc (thrV d L) ↦[c.view.set]{fullShare} FG : sProp 𝕄) ∗ ((r1V).view.loc (thrV d L) ↦{fullShare} R : sProp 𝕄)) from by
    rw [pointsTo_congr hc, show (r1V).view.set = Finset.univ from View.set_whole _])) $$ Hfl

set_option maxHeartbeats 4000000 in
theorem tripF (O : CellTallies nD τ sig (HIx 1)) (W : Waits sig (HIx 1)) (Uc : S100000x128.Idx → Elt F .f32) (IU : S200704.Idx → Elt F .i32)
    (f0 : S600000x128.Idx → Elt F .f32) (qu qi : PosShare TreeShare) (hIU : ∀ j, (IU j).toNat < 100000) (v1 : BitVec 32) (k : Fin k1_t1_loop.trips) :
    (inv1 d L O W Uc IU f0 qu qi k.val ⟨⟩ : sProp 𝕄)
      ⊢ wp frame (wpE (defs₀ (F := F)) 𝒱₀ (thrV d L) none) Set.univ
          (k1_t1_body L xV (Memref.isWhole_whole _) uV (Memref.isWhole_whole _) iuV (Memref.isWhole_whole _) ibV (Memref.isWhole_whole _)
            fV (Memref.isWhole_whole _) eV (Memref.isWhole_whole _) i0V (Memref.isWhole_whole _) i1V (Memref.isWhole_whole _)
            r0V (Memref.isWhole_whole _) r1V (Memref.isWhole_whole _)
            cc1_scratch4 cc1_scratch5 cc1_scratch6 cc1_scratch7 cc1_scratch8 cc1_scratch9 v1 k ⟨⟩)
          (inv1 d L O W Uc IU f0 qu qi (k.val + 1)) := by
  have hk7 := trip1_lt k
  have hc2 := cond2_all k
  have hin0 := fun o ho fi => list0_inb d L (iuPay IU o ho) (iuPay_lt IU hIU o ho) fi
  have hin1 := fun o ho fi => list1_inb d L (iuPay IU o ho) (iuPay_lt IU hIU o ho) fi
  have hoffB : k1_off2 L k 0 = 896 * (L 1).val + 448 * (L 0).val + 28672 * k.val + 14336 := by rw [k1_off2_eq]; rfl
  rcases Nat.eq_zero_or_pos k.val with hk0 | hkpos
  ·
    have hc1 := (cond1_iff k).not.mpr (by omega)
    have hc3 := (cond3_iff k).not.mpr (by omega)
    have hc4 := (cond4_iff k).mpr (by omega)
    have hoff4 : k1_off4 L k 0 = 896 * (L 1).val + 448 * (L 0).val + 28672 * (k.val + 1) := by rw [k1_off4_eq]; show _ + _ + _ + 28672 = _; omega
    unfold inv1 idxPart1 slotPart1
    rw [todoS_eq k, SparseCore.bigSep_insert' (todoS_notMem k), show doneS k1_t1_loop.trips (k.val + 1) = doneS k1_t1_loop.trips k.val from by rw [hk0]; exact doneS_one]
    unfold fPair
    iintro ⟨#Hmw, Hu, Hidx, ⟨%fi1, Hi1⟩, Hs13, Hs14, Hs15, Hslot, Hdone, ⟨⟨HA, HB⟩, Htodo⟩, %W', %hW', HO⟩
    icases Hidx with (⟨%o, %ho, %fi0, %hk, Hfl12, Hiu⟩ | ⟨%hk7', Hrest⟩)
    swap
    · exact absurd hk7' (by omega)
    icases Hslot with (⟨-, ⟨%fr0, Hr0⟩, ⟨%fr1, Hr1⟩, Hs16, Hs17⟩ | ⟨%j, %hj, Hrest⟩)
    swap
    · exact absurd hj (by omega)
    unfold k1_t1_body
    sl_exec
    sl_step
    isplitl []; · iexact Hmw
    isplitl [Hu]; · iexact Hu
    isplitl [Hfl12 Hiu]
    · ileft
      iexists (k1_off4 L k), (k1_off4_inb L k hc4), _
      isplitr; · ipureintro; exact ⟨by omega, hoff4⟩
      isplitl [Hfl12]; · iexact Hfl12
      iexact Hiu
    isplitl [Hi1]; · iexists _; iexact Hi1
    isplitl [Hs13]; · iexact Hs13
    isplitl [Hs14]; · iexact Hs14
    isplitl [Hs15]; · iexact Hs15
    isplitl [Hs16 Hs17]
    · iright; iexists k
      isplitr; · ipureintro; rfl
      isplitl [Hs16]
      · iexists _
        iapply (flightLand0 d L (fChunkA L k) _ _ f0 (gatherF Uc IU f0))
        isplitl [Hs16]; · iexact Hs16
        ipureintro
        exact fA_congr d L Uc IU f0 k o ho hk.2 fi0 fr0 _ _
      · iexists _
        iapply (flightLand1 d L (fChunkB L k) _ _ f0 (gatherF Uc IU f0))
        isplitl [Hs17]; · iexact Hs17
        ipureintro
        exact fB_congr d L Uc IU f0 k (k1_off2 L k) (k1_off2_inb L k hc2) hoffB fi1 fr1 _ _
    isplitl [Hdone]; · iexact Hdone
    isplitl [Htodo]; · iexact Htodo
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  ·
    obtain ⟨j, hj⟩ : ∃ j : Fin k1_t1_loop.trips, j.val + 1 = k.val := ⟨⟨k.val - 1, by have := k.isLt; omega⟩, by show k.val - 1 + 1 = k.val; omega⟩
    have hc1 := (cond1_iff k).mpr (by omega)
    have hc3 := (cond3_iff k).mpr (by omega)
    have hdone : doneS k1_t1_loop.trips (k.val + 1) = insert j (doneS k1_t1_loop.trips k.val) := by rw [← hj]; exact doneS_eq j
    have hjn : j ∉ doneS k1_t1_loop.trips k.val := by rw [← hj]; exact doneS_notMem j
    rcases Nat.lt_or_ge k.val 6 with hk6 | hk6
    ·
      have hc4 := (cond4_iff k).mpr hk6
      have hoff4 : k1_off4 L k 0 = 896 * (L 1).val + 448 * (L 0).val + 28672 * (k.val + 1) := by rw [k1_off4_eq]; show _ + _ + _ + 28672 = _; omega
      unfold inv1 idxPart1 slotPart1
      rw [todoS_eq k, SparseCore.bigSep_insert' (todoS_notMem k), hdone, SparseCore.bigSep_insert' hjn]
      unfold fPair
      iintro ⟨#Hmw, Hu, Hidx, ⟨%fi1, Hi1⟩, Hs13, Hs14, Hs15, Hslot, Hdone, ⟨⟨HA, HB⟩, Htodo⟩, %W', %hW', HO⟩
      icases Hidx with (⟨%o, %ho, %fi0, %hk, Hfl12, Hiu⟩ | ⟨%hk7', Hrest⟩)
      swap
      · exact absurd hk7' (by omega)
      icases Hslot with (⟨%hk0', Hrest⟩ | ⟨%j', %hj', ⟨%fr0, Hfl16⟩, ⟨%fr1, Hfl17⟩⟩)
      · exact absurd hk0' (by omega)
      obtain rfl : j' = j := Fin.ext (by omega)
      unfold k1_t1_body
      sl_exec
      sl_step
      isplitl []; · iexact Hmw
      isplitl [Hu]; · iexact Hu
      isplitl [Hfl12 Hiu]
      · ileft
        iexists (k1_off4 L k), (k1_off4_inb L k hc4), _
        isplitr; · ipureintro; exact ⟨by omega, hoff4⟩
        isplitl [Hfl12]; · iexact Hfl12
        iexact Hiu
      isplitl [Hi1]; · iexists _; iexact Hi1
      isplitl [Hs13]; · iexact Hs13
      isplitl [Hs14]; · iexact Hs14
      isplitl [Hs15]; · iexact Hs15
      isplitl [Hfl16 Hfl17]
      · iright; iexists k
        isplitr; · ipureintro; rfl
        isplitl [Hfl16]
        · iexists _
          iapply (flightLand0 d L (fChunkA L k) _ _ f0 (gatherF Uc IU f0))
          isplitl [Hfl16]; · iexact Hfl16
          ipureintro
          exact fA_congr d L Uc IU f0 k o ho hk.2 fi0 fr0 _ _
        · iexists _
          iapply (flightLand1 d L (fChunkB L k) _ _ f0 (gatherF Uc IU f0))
          isplitl [Hfl17]; · iexact Hfl17
          ipureintro
          exact fB_congr d L Uc IU f0 k (k1_off2 L k) (k1_off2_inb L k hc2) hoffB fi1 fr1 _ _
      isplitl [Hdone Hfl16_dst Hfl17_dst]
      · isplitl [Hfl16_dst Hfl17_dst]
        · isplitl [Hfl16_dst]; · iexact Hfl16_dst
          iexact Hfl17_dst
        iexact Hdone
      isplitl [Htodo]; · iexact Htodo
      iexists _; isplitr
      swap; · iexact HO
      ipureintro; intro p hp
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      exact hW' p hp
    ·
      have hc4 := (cond4_iff k).not.mpr (by omega)
      unfold inv1 idxPart1 slotPart1
      rw [todoS_eq k, SparseCore.bigSep_insert' (todoS_notMem k), hdone, SparseCore.bigSep_insert' hjn]
      unfold fPair
      iintro ⟨#Hmw, Hu, Hidx, ⟨%fi1, Hi1⟩, Hs13, Hs14, Hs15, Hslot, Hdone, ⟨⟨HA, HB⟩, Htodo⟩, %W', %hW', HO⟩
      icases Hidx with (⟨%o, %ho, %fi0, %hk, Hfl12, Hiu⟩ | ⟨%hk7', Hrest⟩)
      swap
      · exact absurd hk7' (by omega)
      icases Hslot with (⟨%hk0', Hrest⟩ | ⟨%j', %hj', ⟨%fr0, Hfl16⟩, ⟨%fr1, Hfl17⟩⟩)
      · exact absurd hk0' (by omega)
      obtain rfl : j' = j := Fin.ext (by omega)
      unfold k1_t1_body
      sl_exec
      sl_step
      isplitl []; · iexact Hmw
      isplitl [Hu]; · iexact Hu
      isplitl [Hfl12 Hfl12_dst Hiu]
      · iright
        isplitr; · ipureintro; omega
        isplitl [Hfl12_dst]; · iexists _; iexact Hfl12_dst
        isplitl [Hfl12]; · iexact Hfl12
        iexact Hiu
      isplitl [Hi1]; · iexists _; iexact Hi1
      isplitl [Hs13]; · iexact Hs13
      isplitl [Hs14]; · iexact Hs14
      isplitl [Hs15]; · iexact Hs15
      isplitl [Hfl16 Hfl17]
      · iright; iexists k
        isplitr; · ipureintro; rfl
        isplitl [Hfl16]
        · iexists _
          iapply (flightLand0 d L (fChunkA L k) _ _ f0 (gatherF Uc IU f0))
          isplitl [Hfl16]; · iexact Hfl16
          ipureintro
          exact fA_congr d L Uc IU f0 k o ho hk.2 fi0 fr0 _ _
        · iexists _
          iapply (flightLand1 d L (fChunkB L k) _ _ f0 (gatherF Uc IU f0))
          isplitl [Hfl17]; · iexact Hfl17
          ipureintro
          exact fB_congr d L Uc IU f0 k (k1_off2 L k) (k1_off2_inb L k hc2) hoffB fi1 fr1 _ _
      isplitl [Hdone Hfl16_dst Hfl17_dst]
      · isplitl [Hfl16_dst Hfl17_dst]
        · isplitl [Hfl16_dst]; · iexact Hfl16_dst
          iexact Hfl17_dst
        iexact Hdone
      isplitl [Htodo]; · iexact Htodo
      iexists _; isplitr
      swap; · iexact HO
      ipureintro; intro p hp
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      exact hW' p hp

end Region1

end Cert.KernelIdeal.Hand

end
-- ==== Proof.KI.TileValE.lean ====
import proofs.«214604_g3212635537896_cont_8to1_b_1509_14_alg».proof.Proof.KI.TileVal

noncomputable section

namespace Cert.KernelIdeal.Hand

open Cert.KernelIdeal Cert.KernelIdeal.Gen
open Idealize.ShloMosaic Idealize.ShloMosaic.Tactic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "xV" => (Memref.whole Cert.KernelIdeal.main_arg0_scv : Memref Cert.KernelIdeal.sig Kind.scVector Space.hbm Cert.KernelIdeal.S100000x128 EltTy.f32)
local notation "ibV" => (Memref.whole Cert.KernelIdeal.main_v6_scv : Memref Cert.KernelIdeal.sig Kind.scVector Space.hbm Cert.KernelIdeal.S401408 EltTy.i32)
local notation "i0V" => (Memref.whole Cert.KernelIdeal.cc1_scratch0 : Memref Cert.KernelIdeal.sig Kind.scVector Space.vmem Cert.KernelIdeal.S448 EltTy.i32)
local notation "i1V" => (Memref.whole Cert.KernelIdeal.cc1_scratch1 : Memref Cert.KernelIdeal.sig Kind.scVector Space.vmem Cert.KernelIdeal.S448 EltTy.i32)
local notation "r0V" => (Memref.whole Cert.KernelIdeal.cc1_scratch2 : Memref Cert.KernelIdeal.sig Kind.scVector Space.vmem Cert.KernelIdeal.S448x128 EltTy.f32)
local notation "r1V" => (Memref.whole Cert.KernelIdeal.cc1_scratch3 : Memref Cert.KernelIdeal.sig Kind.scVector Space.vmem Cert.KernelIdeal.S448x128 EltTy.f32)

section ValE

variable [FloatOps F]
variable (d : Dev nD) (L : grid1.Coords)

private theorem ibPay_apply_e (IB : S401408.Idx → Elt F .i32) (o : Fin 1 → ℕ) (ho : ∀ a, o a + S448.size a ≤ S401408.size a) (j : S448.Idx) :
    ibPay IB o ho j = IB (ix1 ⟨o 0 + (j 0).val, by have := ho 0; have := (j 0).isLt; simp only [S448, S401408, Matrix.cons_val_zero] at *; omega⟩) := by
  show (ibSl o ho).view.read (Elt F) IB j = _
  rw [show (ibSl o ho).view.read (Elt F) IB j = IB ((ibSl o ho).view.emb j) from (View.read_apply _ _).trans (cast_eq _ _)]
  congr 1
  funext a
  match a with
  | ⟨0, _⟩ => exact Fin.ext (by show o 0 + 1 * (j 0).val = o 0 + (j 0).val; omega)

private theorem read_xAll_e (X : S100000x128.Idx → Elt F .f32) :
    View.read (Elt F) ((xV).slice (Rect.unit (s := S100000x128) ![0, 0] S100000x128.size inb_S100000x128_S100000x128_0_0) (fun _ => rfl)).view X = X := by
  funext x
  rw [show View.read (Elt F) ((xV).slice (Rect.unit (s := S100000x128) ![0, 0] S100000x128.size inb_S100000x128_S100000x128_0_0) (fun _ => rfl)).view X x
    = X (((xV).slice (Rect.unit (s := S100000x128) ![0, 0] S100000x128.size inb_S100000x128_S100000x128_0_0) (fun _ => rfl)).view.emb x) from (View.read_apply _ _).trans (cast_eq _ _)]
  congr 1
  funext a
  match a with
  | ⟨0, _⟩ => exact Fin.ext (by show 0 + 1 * (x 0).val = (x 0).val; omega)
  | ⟨1, _⟩ => exact Fin.ext (by show 0 + 1 * (x 1).val = (x 1).val; omega)

theorem eA_congr (X : S100000x128.Idx → Elt F .f32) (IB : S401408.Idx → Elt F .i32) (e0 : S401408x128.Idx → Elt F .f32)
    (k : Fin k1_t2_loop.trips) (o : Fin 1 → ℕ) (ho : ∀ a, o a + S448.size a ≤ S401408.size a)
    (hoff : o 0 = 896 * (L 1).val + 448 * (L 0).val + 28672 * k.val)
    (fi : Buf (Elt F) ((i0V).view.loc (thrV d L))) (fr : Buf (Elt F) ((r0V).view.loc (thrV d L)))
    (hn : S448.numel = S448x128.size gathers_S100000x128_S448x128.axis')
    (h : ∀ x, (View.read (Elt F) (i0V).view (View.write (Elt F) (i0V).view fi (ibPay IB o ho) Finset.univ) x).toNat < S100000x128.size gathers_S100000x128_S448x128.axis) :
    ∀ i ∈ (eChunkA L k).view.set, (eChunkA L k).view.writes (Elt F) e0 [⟨Rect.whole S448x128, ReadAs.same.apply (View.read (Elt F) (r0V).view ((r0V).view.writes (Elt F) fr [⟨Rect.whole cc1_scratch2.ty.shape, SparseCore.gatherPayload gathers_S100000x128_S448x128 (View.read (Elt F) ((xV).slice (Rect.unit (s := S100000x128) ![0, 0] S100000x128.size inb_S100000x128_S100000x128_0_0) (fun _ => rfl)).view X) (SparseCore.rows (View.read (Elt F) (i0V).view (View.write (Elt F) (i0V).view fi (ibPay IB o ho) Finset.univ)) hn h)⟩]))⟩] i = gatherE X IB i := by
  intro i hi
  obtain ⟨y, -, rfl⟩ := Finset.mem_map.1 hi

  have hw := View.read_writes_cons_emb (eChunkA L k).view e0 (Rect.whole S448x128)
    (ReadAs.same.apply (View.read (Elt F) (r0V).view ((r0V).view.writes (Elt F) fr [⟨Rect.whole cc1_scratch2.ty.shape, SparseCore.gatherPayload gathers_S100000x128_S448x128 (View.read (Elt F) ((xV).slice (Rect.unit (s := S100000x128) ![0, 0] S100000x128.size inb_S100000x128_S100000x128_0_0) (fun _ => rfl)).view X) (SparseCore.rows (View.read (Elt F) (i0V).view (View.write (Elt F) (i0V).view fi (ibPay IB o ho) Finset.univ)) hn h)⟩]))) [] y
  rw [Rect.emb_whole_apply] at hw
  refine (((View.read_apply _ _).trans (cast_eq _ _)).symm.trans hw).trans ?_
  rw [rows0_out d L fr, read_xAll_e X, gather_apply X _ hn h y, list0_out d L fi, ibPay_apply_e]

  have hv0 : (((eChunkA L k).view.emb y) 0).val = o 0 + (y 0).val := by
    show k1_off8 L k 0 + 1 * (y 0).val = _
    rw [k1_off8_eq, hoff]; simp only [Matrix.cons_val_zero]; omega
  have hv1 : (((eChunkA L k).view.emb y) 1).val = (y 1).val := by
    show k1_off8 L k 1 + 1 * (y 1).val = _
    rw [k1_off8_eq]; simp only [Matrix.cons_val_one, Matrix.cons_val_zero]; omega
  show _ = X (ix2 (rowOf (IB (ix1 (((eChunkA L k).view.emb y) 0)))) (((eChunkA L k).view.emb y) 1))
  congr 1
  funext b
  match b with
  | ⟨0, _⟩ =>
    show rowOf (IB (ix1 _)) = rowOf (IB (ix1 _))
    congr 3
    exact Fin.ext hv0.symm
  | ⟨1, _⟩ => exact Fin.ext hv1.symm

theorem eB_congr (X : S100000x128.Idx → Elt F .f32) (IB : S401408.Idx → Elt F .i32) (e0 : S401408x128.Idx → Elt F .f32)
    (k : Fin k1_t2_loop.trips) (o : Fin 1 → ℕ) (ho : ∀ a, o a + S448.size a ≤ S401408.size a)
    (hoff : o 0 = 896 * (L 1).val + 448 * (L 0).val + 28672 * k.val + 14336)
    (fi : Buf (Elt F) ((i1V).view.loc (thrV d L))) (fr : Buf (Elt F) ((r1V).view.loc (thrV d L)))
    (hn : S448.numel = S448x128.size gathers_S100000x128_S448x128.axis')
    (h : ∀ x, (View.read (Elt F) (i1V).view (View.write (Elt F) (i1V).view fi (ibPay IB o ho) Finset.univ) x).toNat < S100000x128.size gathers_S100000x128_S448x128.axis) :
    ∀ i ∈ (eChunkB L k).view.set, (eChunkB L k).view.writes (Elt F) e0 [⟨Rect.whole S448x128, ReadAs.same.apply (View.read (Elt F) (r1V).view ((r1V).view.writes (Elt F) fr [⟨Rect.whole cc1_scratch3.ty.shape, SparseCore.gatherPayload gathers_S100000x128_S448x128 (View.read (Elt F) ((xV).slice (Rect.unit (s := S100000x128) ![0, 0] S100000x128.size inb_S100000x128_S100000x128_0_0) (fun _ => rfl)).view X) (SparseCore.rows (View.read (Elt F) (i1V).view (View.write (Elt F) (i1V).view fi (ibPay IB o ho) Finset.univ)) hn h)⟩]))⟩] i = gatherE X IB i := by
  intro i hi
  obtain ⟨y, -, rfl⟩ := Finset.mem_map.1 hi

  have hw := View.read_writes_cons_emb (eChunkB L k).view e0 (Rect.whole S448x128)
    (ReadAs.same.apply (View.read (Elt F) (r1V).view ((r1V).view.writes (Elt F) fr [⟨Rect.whole cc1_scratch3.ty.shape, SparseCore.gatherPayload gathers_S100000x128_S448x128 (View.read (Elt F) ((xV).slice (Rect.unit (s := S100000x128) ![0, 0] S100000x128.size inb_S100000x128_S100000x128_0_0) (fun _ => rfl)).view X) (SparseCore.rows (View.read (Elt F) (i1V).view (View.write (Elt F) (i1V).view fi (ibPay IB o ho) Finset.univ)) hn h)⟩]))) [] y
  rw [Rect.emb_whole_apply] at hw
  refine (((View.read_apply _ _).trans (cast_eq _ _)).symm.trans hw).trans ?_
  rw [rows1_out d L fr, read_xAll_e X, gather_apply X _ hn h y, list1_out d L fi, ibPay_apply_e]

  have hv0 : (((eChunkB L k).view.emb y) 0).val = o 0 + (y 0).val := by
    show k1_off10 L k 0 + 1 * (y 0).val = _
    rw [k1_off10_eq, hoff]; simp only [Matrix.cons_val_zero]; omega
  have hv1 : (((eChunkB L k).view.emb y) 1).val = (y 1).val := by
    show k1_off10 L k 1 + 1 * (y 1).val = _
    rw [k1_off10_eq]; simp only [Matrix.cons_val_one, Matrix.cons_val_zero]; omega
  show _ = X (ix2 (rowOf (IB (ix1 (((eChunkB L k).view.emb y) 0)))) (((eChunkB L k).view.emb y) 1))
  congr 1
  funext b
  match b with
  | ⟨0, _⟩ =>
    show rowOf (IB (ix1 _)) = rowOf (IB (ix1 _))
    congr 3
    exact Fin.ext hv0.symm
  | ⟨1, _⟩ => exact Fin.ext hv1.symm

end ValE

end Cert.KernelIdeal.Hand

end
-- ==== Proof.KI.TileTripE.lean ====
import proofs.«214604_g3212635537896_cont_8to1_b_1509_14_alg».proof.Proof.KI.TileInv
import proofs.«214604_g3212635537896_cont_8to1_b_1509_14_alg».proof.Proof.KI.TileValE
import proofs.«214604_g3212635537896_cont_8to1_b_1509_14_alg».proof.Proof.KI.TileTripF
import proofs.«214604_g3212635537896_cont_8to1_b_1509_14_alg».proof.Proof.Gen.KernelIdeal.Skeleton
import Idealize.ShloMosaic.Lib.SparseCore.Launch
import Idealize.ShloMosaic.Lib.SparseCore.Stream
import Idealize.ShloMosaic.Lib.Transfers
import Idealize.ShloMosaic.Lib.Writes
import Idealize.ShloMosaic.Lib.ValueIdx
import Idealize.ShloMosaic.Lib.Tactic

noncomputable section

namespace Cert.KernelIdeal.Hand

open Cert.KernelIdeal Cert.KernelIdeal.Gen
open Idealize.ShloMosaic Idealize.ShloMosaic.Tactic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
variable {U : Type} [URA U] [CountersIn U]

local notation "𝕄" => MT nD τ sig (HIx 1) (Elt F) ℕ U ℕ

local notation "xV" => (Memref.whole Cert.KernelIdeal.main_arg0_scv : Memref Cert.KernelIdeal.sig Kind.scVector Space.hbm Cert.KernelIdeal.S100000x128 EltTy.f32)
local notation "uV" => (Memref.whole Cert.KernelIdeal.main_v2_scv : Memref Cert.KernelIdeal.sig Kind.scVector Space.hbm Cert.KernelIdeal.S100000x128 EltTy.f32)
local notation "iuV" => (Memref.whole Cert.KernelIdeal.main_v4_scv : Memref Cert.KernelIdeal.sig Kind.scVector Space.hbm Cert.KernelIdeal.S200704 EltTy.i32)
local notation "ibV" => (Memref.whole Cert.KernelIdeal.main_v6_scv : Memref Cert.KernelIdeal.sig Kind.scVector Space.hbm Cert.KernelIdeal.S401408 EltTy.i32)
local notation "fV" => (Memref.whole Cert.KernelIdeal.main_v7_0_scv : Memref Cert.KernelIdeal.sig Kind.scVector Space.hbm Cert.KernelIdeal.S600000x128 EltTy.f32)
local notation "eV" => (Memref.whole Cert.KernelIdeal.main_v7_1_scv : Memref Cert.KernelIdeal.sig Kind.scVector Space.hbm Cert.KernelIdeal.S401408x128 EltTy.f32)
local notation "i0V" => (Memref.whole Cert.KernelIdeal.cc1_scratch0 : Memref Cert.KernelIdeal.sig Kind.scVector Space.vmem Cert.KernelIdeal.S448 EltTy.i32)
local notation "i1V" => (Memref.whole Cert.KernelIdeal.cc1_scratch1 : Memref Cert.KernelIdeal.sig Kind.scVector Space.vmem Cert.KernelIdeal.S448 EltTy.i32)
local notation "r0V" => (Memref.whole Cert.KernelIdeal.cc1_scratch2 : Memref Cert.KernelIdeal.sig Kind.scVector Space.vmem Cert.KernelIdeal.S448x128 EltTy.f32)
local notation "r1V" => (Memref.whole Cert.KernelIdeal.cc1_scratch3 : Memref Cert.KernelIdeal.sig Kind.scVector Space.vmem Cert.KernelIdeal.S448x128 EltTy.f32)

section Region2
variable [FloatOps F]
variable (d : Dev nD) (L : grid1.Coords)

theorem ibPay_lt (IB : S401408.Idx → Elt F .i32) (hIB : ∀ j, (IB j).toNat < 100000) (o : Fin 1 → ℕ) (ho : ∀ a, o a + S448.size a ≤ S401408.size a) :
    ∀ x, (ibPay IB o ho x).toNat < 100000 := by
  intro x
  show ((ibSl o ho).view.read (Elt F) IB x).toNat < 100000
  rw [show (ibSl o ho).view.read (Elt F) IB x = IB ((ibSl o ho).view.emb x) from (View.read_apply _ _).trans (cast_eq _ _)]
  exact hIB _

set_option maxHeartbeats 4000000 in
theorem tripE (O : CellTallies nD τ sig (HIx 1)) (W : Waits sig (HIx 1)) (X : S100000x128.Idx → Elt F .f32) (IB : S401408.Idx → Elt F .i32)
    (e0 : S401408x128.Idx → Elt F .f32) (qx qj : PosShare TreeShare) (hIB : ∀ j, (IB j).toNat < 100000) (v1 : BitVec 32) (k : Fin k1_t2_loop.trips) :
    (inv2 d L O W X IB e0 qx qj k.val ⟨⟩ : sProp 𝕄)
      ⊢ wp frame (wpE (defs₀ (F := F)) 𝒱₀ (thrV d L) none) Set.univ
          (k1_t2_body L xV (Memref.isWhole_whole _) uV (Memref.isWhole_whole _) iuV (Memref.isWhole_whole _) ibV (Memref.isWhole_whole _)
            fV (Memref.isWhole_whole _) eV (Memref.isWhole_whole _) i0V (Memref.isWhole_whole _) i1V (Memref.isWhole_whole _)
            r0V (Memref.isWhole_whole _) r1V (Memref.isWhole_whole _)
            cc1_scratch4 cc1_scratch5 cc1_scratch6 cc1_scratch7 cc1_scratch8 cc1_scratch9 v1 k ⟨⟩)
          (inv2 d L O W X IB e0 qx qj (k.val + 1)) := by
  have hk7 := trip2_lt k
  have hc2 := cond6_all k
  have hin0 := fun o ho fi => list0_inb d L (ibPay IB o ho) (ibPay_lt IB hIB o ho) fi
  have hin1 := fun o ho fi => list1_inb d L (ibPay IB o ho) (ibPay_lt IB hIB o ho) fi
  have hoffB : k1_off7 L k 0 = 896 * (L 1).val + 448 * (L 0).val + 28672 * k.val + 14336 := by rw [k1_off7_eq]; rfl
  rcases Nat.eq_zero_or_pos k.val with hk0 | hkpos
  ·
    have hc1 := (cond5_iff k).not.mpr (by omega)
    have hc3 := (cond7_iff k).not.mpr (by omega)
    have hc4 := (cond8_iff k).mpr (by omega)
    have hoff4 : k1_off9 L k 0 = 896 * (L 1).val + 448 * (L 0).val + 28672 * (k.val + 1) := by rw [k1_off9_eq]; show _ + _ + _ + 28672 = _; omega
    unfold inv2 idxPart2 slotPart2
    rw [todoS_eq k, SparseCore.bigSep_insert' (todoS_notMem k), show doneS k1_t2_loop.trips (k.val + 1) = doneS k1_t2_loop.trips k.val from by rw [hk0]; exact doneS_one]
    unfold ePair
    iintro ⟨#Hmw, Hu, Hidx, ⟨%fi1, Hi1⟩, Hs13, Hs14, Hs15, Hslot, Hdone, ⟨⟨HA, HB⟩, Htodo⟩, %W', %hW', HO⟩
    icases Hidx with (⟨%o, %ho, %fi0, %hk, Hfl12, Hiu⟩ | ⟨%hk7', Hrest⟩)
    swap
    · exact absurd hk7' (by omega)
    icases Hslot with (⟨-, ⟨%fr0, Hr0⟩, ⟨%fr1, Hr1⟩, Hs16, Hs17⟩ | ⟨%j, %hj, Hrest⟩)
    swap
    · exact absurd hj (by omega)
    unfold k1_t2_body
    sl_exec
    sl_step
    isplitl []; · iexact Hmw
    isplitl [Hu]; · iexact Hu
    isplitl [Hfl12 Hiu]
    · ileft
      iexists (k1_off9 L k), (k1_off9_inb L k hc4), _
      isplitr; · ipureintro; exact ⟨by omega, hoff4⟩
      isplitl [Hfl12]; · iexact Hfl12
      iexact Hiu
    isplitl [Hi1]; · iexists _; iexact Hi1
    isplitl [Hs13]; · iexact Hs13
    isplitl [Hs14]; · iexact Hs14
    isplitl [Hs15]; · iexact Hs15
    isplitl [Hs16 Hs17]
    · iright; iexists k
      isplitr; · ipureintro; rfl
      isplitl [Hs16]
      · iexists _
        iapply (flightLand0 d L (eChunkA L k) _ _ e0 (gatherE X IB))
        isplitl [Hs16]; · iexact Hs16
        ipureintro
        exact eA_congr d L X IB e0 k o ho hk.2 fi0 fr0 _ _
      · iexists _
        iapply (flightLand1 d L (eChunkB L k) _ _ e0 (gatherE X IB))
        isplitl [Hs17]; · iexact Hs17
        ipureintro
        exact eB_congr d L X IB e0 k (k1_off7 L k) (k1_off7_inb L k hc2) hoffB fi1 fr1 _ _
    isplitl [Hdone]; · iexact Hdone
    isplitl [Htodo]; · iexact Htodo
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  ·
    obtain ⟨j, hj⟩ : ∃ j : Fin k1_t2_loop.trips, j.val + 1 = k.val := ⟨⟨k.val - 1, by have := k.isLt; omega⟩, by show k.val - 1 + 1 = k.val; omega⟩
    have hc1 := (cond5_iff k).mpr (by omega)
    have hc3 := (cond7_iff k).mpr (by omega)
    have hdone : doneS k1_t2_loop.trips (k.val + 1) = insert j (doneS k1_t2_loop.trips k.val) := by rw [← hj]; exact doneS_eq j
    have hjn : j ∉ doneS k1_t2_loop.trips k.val := by rw [← hj]; exact doneS_notMem j
    rcases Nat.lt_or_ge k.val 13 with hk6 | hk6
    ·
      have hc4 := (cond8_iff k).mpr hk6
      have hoff4 : k1_off9 L k 0 = 896 * (L 1).val + 448 * (L 0).val + 28672 * (k.val + 1) := by rw [k1_off9_eq]; show _ + _ + _ + 28672 = _; omega
      unfold inv2 idxPart2 slotPart2
      rw [todoS_eq k, SparseCore.bigSep_insert' (todoS_notMem k), hdone, SparseCore.bigSep_insert' hjn]
      unfold ePair
      iintro ⟨#Hmw, Hu, Hidx, ⟨%fi1, Hi1⟩, Hs13, Hs14, Hs15, Hslot, Hdone, ⟨⟨HA, HB⟩, Htodo⟩, %W', %hW', HO⟩
      icases Hidx with (⟨%o, %ho, %fi0, %hk, Hfl12, Hiu⟩ | ⟨%hk7', Hrest⟩)
      swap
      · exact absurd hk7' (by omega)
      icases Hslot with (⟨%hk0', Hrest⟩ | ⟨%j', %hj', ⟨%fr0, Hfl16⟩, ⟨%fr1, Hfl17⟩⟩)
      · exact absurd hk0' (by omega)
      obtain rfl : j' = j := Fin.ext (by omega)
      unfold k1_t2_body
      sl_exec
      sl_step
      isplitl []; · iexact Hmw
      isplitl [Hu]; · iexact Hu
      isplitl [Hfl12 Hiu]
      · ileft
        iexists (k1_off9 L k), (k1_off9_inb L k hc4), _
        isplitr; · ipureintro; exact ⟨by omega, hoff4⟩
        isplitl [Hfl12]; · iexact Hfl12
        iexact Hiu
      isplitl [Hi1]; · iexists _; iexact Hi1
      isplitl [Hs13]; · iexact Hs13
      isplitl [Hs14]; · iexact Hs14
      isplitl [Hs15]; · iexact Hs15
      isplitl [Hfl16 Hfl17]
      · iright; iexists k
        isplitr; · ipureintro; rfl
        isplitl [Hfl16]
        · iexists _
          iapply (flightLand0 d L (eChunkA L k) _ _ e0 (gatherE X IB))
          isplitl [Hfl16]; · iexact Hfl16
          ipureintro
          exact eA_congr d L X IB e0 k o ho hk.2 fi0 fr0 _ _
        · iexists _
          iapply (flightLand1 d L (eChunkB L k) _ _ e0 (gatherE X IB))
          isplitl [Hfl17]; · iexact Hfl17
          ipureintro
          exact eB_congr d L X IB e0 k (k1_off7 L k) (k1_off7_inb L k hc2) hoffB fi1 fr1 _ _
      isplitl [Hdone Hfl16_dst Hfl17_dst]
      · isplitl [Hfl16_dst Hfl17_dst]
        · isplitl [Hfl16_dst]; · iexact Hfl16_dst
          iexact Hfl17_dst
        iexact Hdone
      isplitl [Htodo]; · iexact Htodo
      iexists _; isplitr
      swap; · iexact HO
      ipureintro; intro p hp
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      exact hW' p hp
    ·
      have hc4 := (cond8_iff k).not.mpr (by omega)
      unfold inv2 idxPart2 slotPart2
      rw [todoS_eq k, SparseCore.bigSep_insert' (todoS_notMem k), hdone, SparseCore.bigSep_insert' hjn]
      unfold ePair
      iintro ⟨#Hmw, Hu, Hidx, ⟨%fi1, Hi1⟩, Hs13, Hs14, Hs15, Hslot, Hdone, ⟨⟨HA, HB⟩, Htodo⟩, %W', %hW', HO⟩
      icases Hidx with (⟨%o, %ho, %fi0, %hk, Hfl12, Hiu⟩ | ⟨%hk7', Hrest⟩)
      swap
      · exact absurd hk7' (by omega)
      icases Hslot with (⟨%hk0', Hrest⟩ | ⟨%j', %hj', ⟨%fr0, Hfl16⟩, ⟨%fr1, Hfl17⟩⟩)
      · exact absurd hk0' (by omega)
      obtain rfl : j' = j := Fin.ext (by omega)
      unfold k1_t2_body
      sl_exec
      sl_step
      isplitl []; · iexact Hmw
      isplitl [Hu]; · iexact Hu
      isplitl [Hfl12 Hfl12_dst Hiu]
      · iright
        isplitr; · ipureintro; omega
        isplitl [Hfl12_dst]; · iexists _; iexact Hfl12_dst
        isplitl [Hfl12]; · iexact Hfl12
        iexact Hiu
      isplitl [Hi1]; · iexists _; iexact Hi1
      isplitl [Hs13]; · iexact Hs13
      isplitl [Hs14]; · iexact Hs14
      isplitl [Hs15]; · iexact Hs15
      isplitl [Hfl16 Hfl17]
      · iright; iexists k
        isplitr; · ipureintro; rfl
        isplitl [Hfl16]
        · iexists _
          iapply (flightLand0 d L (eChunkA L k) _ _ e0 (gatherE X IB))
          isplitl [Hfl16]; · iexact Hfl16
          ipureintro
          exact eA_congr d L X IB e0 k o ho hk.2 fi0 fr0 _ _
        · iexists _
          iapply (flightLand1 d L (eChunkB L k) _ _ e0 (gatherE X IB))
          isplitl [Hfl17]; · iexact Hfl17
          ipureintro
          exact eB_congr d L X IB e0 k (k1_off7 L k) (k1_off7_inb L k hc2) hoffB fi1 fr1 _ _
      isplitl [Hdone Hfl16_dst Hfl17_dst]
      · isplitl [Hfl16_dst Hfl17_dst]
        · isplitl [Hfl16_dst]; · iexact Hfl16_dst
          iexact Hfl17_dst
        iexact Hdone
      isplitl [Htodo]; · iexact Htodo
      iexists _; isplitr
      swap; · iexact HO
      ipureintro; intro p hp
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      exact hW' p hp

end Region2

end Cert.KernelIdeal.Hand

end
-- ==== Proof.KI.Tile.lean ====
import proofs.«214604_g3212635537896_cont_8to1_b_1509_14_alg».proof.Proof.KI.TileTripF
import proofs.«214604_g3212635537896_cont_8to1_b_1509_14_alg».proof.Proof.KI.TileTripE
import proofs.«214604_g3212635537896_cont_8to1_b_1509_14_alg».proof.Proof.KI.Pay
import proofs.«214604_g3212635537896_cont_8to1_b_1509_14_alg».proof.Proof.Gen.KernelIdeal.Skeleton
import Idealize.ShloMosaic.Lib.SparseCore.Launch
import Idealize.ShloMosaic.Lib.SparseCore.Stream
import Idealize.ShloMosaic.Lib.Transfers
import Idealize.ShloMosaic.Lib.Writes
import Idealize.ShloMosaic.Lib.ValueIdx
import Idealize.ShloMosaic.Lib.Tactic

noncomputable section

namespace Cert.KernelIdeal.Hand

open Cert.KernelIdeal Cert.KernelIdeal.Gen
open Idealize.ShloMosaic Idealize.ShloMosaic.Tactic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
variable {U : Type} [URA U] [CountersIn U]

local notation "𝕄" => MT nD τ sig (HIx 1) (Elt F) ℕ U ℕ

local notation "xV" => (Memref.whole Cert.KernelIdeal.main_arg0_scv : Memref Cert.KernelIdeal.sig Kind.scVector Space.hbm Cert.KernelIdeal.S100000x128 EltTy.f32)
local notation "uV" => (Memref.whole Cert.KernelIdeal.main_v2_scv : Memref Cert.KernelIdeal.sig Kind.scVector Space.hbm Cert.KernelIdeal.S100000x128 EltTy.f32)
local notation "iuV" => (Memref.whole Cert.KernelIdeal.main_v4_scv : Memref Cert.KernelIdeal.sig Kind.scVector Space.hbm Cert.KernelIdeal.S200704 EltTy.i32)
local notation "ibV" => (Memref.whole Cert.KernelIdeal.main_v6_scv : Memref Cert.KernelIdeal.sig Kind.scVector Space.hbm Cert.KernelIdeal.S401408 EltTy.i32)
local notation "fV" => (Memref.whole Cert.KernelIdeal.main_v7_0_scv : Memref Cert.KernelIdeal.sig Kind.scVector Space.hbm Cert.KernelIdeal.S600000x128 EltTy.f32)
local notation "eV" => (Memref.whole Cert.KernelIdeal.main_v7_1_scv : Memref Cert.KernelIdeal.sig Kind.scVector Space.hbm Cert.KernelIdeal.S401408x128 EltTy.f32)
local notation "i0V" => (Memref.whole Cert.KernelIdeal.cc1_scratch0 : Memref Cert.KernelIdeal.sig Kind.scVector Space.vmem Cert.KernelIdeal.S448 EltTy.i32)
local notation "i1V" => (Memref.whole Cert.KernelIdeal.cc1_scratch1 : Memref Cert.KernelIdeal.sig Kind.scVector Space.vmem Cert.KernelIdeal.S448 EltTy.i32)
local notation "r0V" => (Memref.whole Cert.KernelIdeal.cc1_scratch2 : Memref Cert.KernelIdeal.sig Kind.scVector Space.vmem Cert.KernelIdeal.S448x128 EltTy.f32)
local notation "r1V" => (Memref.whole Cert.KernelIdeal.cc1_scratch3 : Memref Cert.KernelIdeal.sig Kind.scVector Space.vmem Cert.KernelIdeal.S448x128 EltTy.f32)

section Tile
variable [FloatOps F]
variable (d : Dev nD) (L : grid1.Coords)

theorem tile_body (O : CellTallies nD τ sig (HIx 1)) (W : Waits sig (HIx 1)) (hO : ∀ g, O g none = 0)
    (X : S100000x128.Idx → Elt F .f32) (Uc : S100000x128.Idx → Elt F .f32) (IU : S200704.Idx → Elt F .i32) (IB : S401408.Idx → Elt F .i32)
    (f0 : S600000x128.Idx → Elt F .f32) (e0 : S401408x128.Idx → Elt F .f32) (qx qu qi qj : PosShare TreeShare)
    (hIU : ∀ j, (IU j).toNat < 100000) (hIB : ∀ j, (IB j).toNat < 100000) :
    iprop((levAts (K (F := F)).L (K (F := F)).lev : sProp 𝕄) ∗ tileReads d L X Uc IU IB qx qu qi qj ∗ tileF d L f0 ∗ tileE d L e0
        ∗ scopedBufs (thrV d L) ∗ scopedSems0 (thrV d L) ∗ owes (thrV d L) O W)
      ⊢ wp frame (wpE (defs₀ (F := F)) 𝒱₀ (thrV d L) none) Set.univ
          (cc1_k L xV (Memref.isWhole_whole _) uV (Memref.isWhole_whole _) iuV (Memref.isWhole_whole _) ibV (Memref.isWhole_whole _)
            fV (Memref.isWhole_whole _) eV (Memref.isWhole_whole _) i0V (Memref.isWhole_whole _) i1V (Memref.isWhole_whole _)
            r0V (Memref.isWhole_whole _) r1V (Memref.isWhole_whole _)
            cc1_scratch4 cc1_scratch5 cc1_scratch6 cc1_scratch7 cc1_scratch8 cc1_scratch9)
          fun _ => iprop(tileReads d L X Uc IU IB qx qu qi qj ∗ tileF d L (gatherF Uc IU f0) ∗ tileE d L (gatherE X IB)
            ∗ scopedBufs (thrV d L) ∗ scopedSems0 (thrV d L)
            ∗ ∃ W', ⌜∀ p ∈ W', p ∈ W ∨ p.2 = none⌝ ∗ owes (thrV d L) O W') := by
  simp only [cc1_k_eq_skeleton]; unfold cc1_k_skel
  rw [(K (F := F)).scopedBufs_V facts d ((L 0).castLE hcore1) ((L 1).castLE hsub1), SparseCore.Cfg.scopedSems0_V (Val := Elt F) d ((L 0).castLE hcore1) ((L 1).castLE hsub1),
    ownSems0_tile, ownBufs_tile]
  unfold tileReads
  iintro ⟨#Hlv, ⟨Hx, Hu, Hiu, Hib⟩, HF, HE, ⟨⟨%fi0, Hi0⟩, ⟨%fi1, Hi1⟩, ⟨%fr0, Hr0⟩, ⟨%fr1, Hr1⟩, Hbufs⟩, ⟨Hs12, Hs13, Hs14, Hs15, Hs16, Hs17, Hsems⟩, HO⟩
  ihave Hmw := (show (levAts (K (F := F)).L (K (F := F)).lev : sProp 𝕄) ⊢ Transfers.MayWaits (thrV d L) (default : HIx 1) O from
    (K (F := F)).mayWaits_none (thr := thrV d L) hO) $$ Hlv
  ihave Hi0' := (Entails.of_eq (show (((thrV d L).loc cc1_scratch0 ↦{fullShare} fi0 : sProp 𝕄)) = ((i0V).view.loc (thrV d L) ↦{fullShare} fi0) from rfl)) $$ Hi0
  ihave Hi1' := (Entails.of_eq (show (((thrV d L).loc cc1_scratch1 ↦{fullShare} fi1 : sProp 𝕄)) = ((i1V).view.loc (thrV d L) ↦{fullShare} fi1) from rfl)) $$ Hi1
  ihave Hr0' := (Entails.of_eq (show (((thrV d L).loc cc1_scratch2 ↦{fullShare} fr0 : sProp 𝕄)) = ((r0V).view.loc (thrV d L) ↦{fullShare} fr0) from rfl)) $$ Hr0
  ihave Hr1' := (Entails.of_eq (show (((thrV d L).loc cc1_scratch3 ↦{fullShare} fr1 : sProp 𝕄)) = ((r1V).view.loc (thrV d L) ↦{fullShare} fr1) from rfl)) $$ Hr1
  ihave HF' := (Entails.of_eq (show (tileF d L f0 : sProp 𝕄) = bigSep Finset.univ (fPair d L f0) from rfl)) $$ HF
  ihave HE' := (Entails.of_eq (show (tileE d L e0 : sProp 𝕄) = bigSep Finset.univ (ePair d L e0) from rfl)) $$ HE
  sl_exec
  sl_for (inv1 d L O W Uc IU f0 qu qi) $$ [Hmw Hu Hs12 Hiu Hi1' Hs13 Hs14 Hs15 Hr0' Hr1' Hs16 Hs17 HF' HO]
  case region =>
    intro k _
    exact tripF d L O W Uc IU f0 qu qi hIU _ k
  ·
    unfold inv1 idxPart1 slotPart1
    isplitl [Hmw]; · iexact Hmw
    isplitl [Hu]; · iexact Hu
    isplitl [Hs12 Hiu]
    · ileft
      iexists (k1_off1 L), (k1_off1_inb L), fi0
      isplitr; · ipureintro; exact ⟨by omega, by rw [k1_off1_eq]; rfl⟩
      isplitl [Hs12]; · iexact Hs12
      iexact Hiu
    isplitl [Hi1']; · iexists _; iexact Hi1'
    isplitl [Hs13]; · iexact Hs13
    isplitl [Hs14]; · iexact Hs14
    isplitl [Hs15]; · iexact Hs15
    isplitl [Hr0' Hr1' Hs16 Hs17]
    · ileft
      isplitr; · ipureintro; rfl
      isplitl [Hr0']; · iexists _; iexact Hr0'
      isplitl [Hr1']; · iexists _; iexact Hr1'
      isplitl [Hs16]; · iexact Hs16
      iexact Hs17
    isplitr
    · rw [doneS_zero, BI.bigSep_empty]; iempintro
    isplitl [HF']
    · rw [todoS_zero]; iexact HF'
    iexists W; isplitr
    · ipureintro; exact fun p hp => .inl hp
    · iexact HO
  iintro %_ HI
  have h7 : Scf.trips k1_t1_loop.lb k1_t1_loop.ub k1_t1_loop.st = 7 := trips1
  unfold inv1 idxPart1 slotPart1
  icases HI with ⟨-, Hu, Hidx, ⟨%fi1a, Hi1⟩, Hs13, Hs14, Hs15, Hslot, Hdone, -, %W1, %hW1, HO⟩
  icases Hidx with (⟨%o, %ho, %fi, %hk, Hfl, Hiu'⟩ | ⟨-, ⟨%fi0a, Hi0⟩, Hs12, Hiu⟩)
  · exact absurd hk.1 (by omega)
  icases Hslot with (⟨%h0, -⟩ | ⟨%j, %hj, ⟨%fr0a, Hfl8⟩, ⟨%fr1a, Hfl9⟩⟩)
  · exact absurd h0 (by omega)
  sl_exec
  sl_for (inv2 d L O W X IB e0 qx qj) $$ [Hmw Hx Hs12 Hib Hi1 Hs13 Hs14 Hs15 Hfl8_src Hfl9_src Hfl8 Hfl9 HE' HO]
  case region =>
    intro k _
    exact tripE d L O W X IB e0 qx qj hIB _ k
  ·
    unfold inv2 idxPart2 slotPart2
    isplitl [Hmw]; · iexact Hmw
    isplitl [Hx]; · iexact Hx
    isplitl [Hs12 Hib]
    · ileft
      iexists (k1_off6 L), (k1_off6_inb L), fi0a
      isplitr; · ipureintro; exact ⟨by omega, by rw [k1_off6_eq]; rfl⟩
      isplitl [Hs12]; · iexact Hs12
      iexact Hib
    isplitl [Hi1]; · iexists _; iexact Hi1
    isplitl [Hs13]; · iexact Hs13
    isplitl [Hs14]; · iexact Hs14
    isplitl [Hs15]; · iexact Hs15
    isplitl [Hfl8_src Hfl9_src Hfl8 Hfl9]
    · ileft
      isplitr; · ipureintro; rfl
      isplitl [Hfl8_src]; · iexists _; iexact Hfl8_src
      isplitl [Hfl9_src]; · iexists _; iexact Hfl9_src
      isplitl [Hfl8]; · iexact Hfl8
      iexact Hfl9
    isplitr
    · rw [doneS_zero, BI.bigSep_empty]; iempintro
    isplitl [HE']
    · rw [todoS_zero]; iexact HE'
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact hW1 p hp
  iintro %_ HI
  have h14 : Scf.trips k1_t2_loop.lb k1_t2_loop.ub k1_t2_loop.st = 14 := trips2
  unfold inv2 idxPart2 slotPart2
  icases HI with ⟨-, Hx, Hidx, ⟨%fi1b, Hi1⟩, Hs13, Hs14, Hs15, Hslot, HdoneE, -, %W2, %hW2, HO⟩
  icases Hidx with (⟨%o, %ho, %fi, %hk, Hfl, Hib'⟩ | ⟨-, ⟨%fi0b, Hi0⟩, Hs12, Hib⟩)
  · exact absurd hk.1 (by omega)
  icases Hslot with (⟨%h0, -⟩ | ⟨%j2, %hj2, ⟨%fr0b, Hfe8⟩, ⟨%fr1b, Hfe9⟩⟩)
  · exact absurd h0 (by omega)
  sl_exec
  sl_step

  isplitl [Hx Hu Hiu Hib]
  · isplitl [Hx]; · iexact Hx
    isplitl [Hu]; · iexact Hu
    isplitl [Hiu]; · iexact Hiu
    iexact Hib

  isplitl [Hdone Hfl8_dst Hfl9_dst]
  · have hU : (Finset.univ : Finset (Fin k1_t1_loop.trips))
        = insert j (doneS k1_t1_loop.trips (Scf.trips k1_t1_loop.lb k1_t1_loop.ub k1_t1_loop.st)) := by
      rw [h7]
      ext i
      have hi := trip1_lt i
      have hj' : j.val + 1 = 7 := hj.trans h7
      simp only [Finset.mem_univ, Finset.mem_insert, doneS, Finset.mem_filter, _root_.true_and, true_iff, Fin.ext_iff]
      omega
    have hn : j ∉ doneS k1_t1_loop.trips (Scf.trips k1_t1_loop.lb k1_t1_loop.ub k1_t1_loop.st) := by
      rw [h7]
      have hj' : j.val + 1 = 7 := hj.trans h7
      simp only [doneS, Finset.mem_filter, Finset.mem_univ, _root_.true_and]; omega
    have e : (tileF d L (gatherF Uc IU f0) : sProp 𝕄)
        = iprop(fPair d L (gatherF Uc IU f0) j
            ∗ bigSep (doneS k1_t1_loop.trips (Scf.trips k1_t1_loop.lb k1_t1_loop.ub k1_t1_loop.st)) (fPair d L (gatherF Uc IU f0))) := by
      show bigSep Finset.univ (fPair d L (gatherF Uc IU f0)) = _
      rw [hU, SparseCore.bigSep_insert' hn]
    rw [e]
    isplitl [Hfl8_dst Hfl9_dst]
    · unfold fPair
      isplitl [Hfl8_dst]; · iexact Hfl8_dst
      iexact Hfl9_dst
    iexact Hdone

  isplitl [HdoneE Hfe8_dst Hfe9_dst]
  · have hU : (Finset.univ : Finset (Fin k1_t2_loop.trips))
        = insert j2 (doneS k1_t2_loop.trips (Scf.trips k1_t2_loop.lb k1_t2_loop.ub k1_t2_loop.st)) := by
      rw [h14]
      ext i
      have hi := trip2_lt i
      have hj' : j2.val + 1 = 14 := hj2.trans h14
      simp only [Finset.mem_univ, Finset.mem_insert, doneS, Finset.mem_filter, _root_.true_and, true_iff, Fin.ext_iff]
      omega
    have hn : j2 ∉ doneS k1_t2_loop.trips (Scf.trips k1_t2_loop.lb k1_t2_loop.ub k1_t2_loop.st) := by
      rw [h14]
      have hj' : j2.val + 1 = 14 := hj2.trans h14
      simp only [doneS, Finset.mem_filter, Finset.mem_univ, _root_.true_and]; omega
    have e : (tileE d L (gatherE X IB) : sProp 𝕄)
        = iprop(ePair d L (gatherE X IB) j2
            ∗ bigSep (doneS k1_t2_loop.trips (Scf.trips k1_t2_loop.lb k1_t2_loop.ub k1_t2_loop.st)) (ePair d L (gatherE X IB))) := by
      show bigSep Finset.univ (ePair d L (gatherE X IB)) = _
      rw [hU, SparseCore.bigSep_insert' hn]
    rw [e]
    isplitl [Hfe8_dst Hfe9_dst]
    · unfold ePair
      isplitl [Hfe8_dst]; · iexact Hfe8_dst
      iexact Hfe9_dst
    iexact HdoneE

  isplitl [Hi0 Hi1 Hfe8_src Hfe9_src Hbufs]
  · isplitl [Hi0]; · iexists fi0b; iexact Hi0
    isplitl [Hi1]; · iexists fi1b; iexact Hi1
    isplitl [Hfe8_src]; · iexists fr0b; iexact Hfe8_src
    isplitl [Hfe9_src]; · iexists fr1b; iexact Hfe9_src
    iexact Hbufs

  isplitl [Hs12 Hs13 Hs14 Hs15 Hfe8 Hfe9 Hsems]
  · isplitl [Hs12]; · iexact Hs12
    isplitl [Hs13]; · iexact Hs13
    isplitl [Hs14]; · iexact Hs14
    isplitl [Hs15]; · iexact Hs15
    isplitl [Hfe8]; · iexact Hfe8
    isplitl [Hfe9]; · iexact Hfe9
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW2 p hp

theorem tile_body_all : TileBody (F := F) :=
  fun d L O W hO X Uc IU IB f0 e0 qx qu qi qj hIU hIB => tile_body d L O W hO X Uc IU IB f0 e0 qx qu qi qj hIU hIB

end Tile

end Cert.KernelIdeal.Hand

end
-- ==== Proof.KI.Value2.lean ====
import proofs.«214604_g3212635537896_cont_8to1_b_1509_14_alg».proof.Proof.KI.Region2
import Idealize.ShloMosaic.Lib.Pipeline.Value
import Idealize.ShloMosaic.Lib.ValueIdx

set_option maxRecDepth 16384

noncomputable section

namespace Cert.KernelIdeal.Hand

open Cert.KernelIdeal.Gen
open Idealize.ShloMosaic Idealize.ShloMosaic.TcCoe Idealize.SL.Sem Idealize.ShloMosaic.ValueIdx
open Idealize.ShloMosaic.SparseCore.Cfg (HIx)
open Idealize.ShloMosaic.Pipeline (Dat)

variable {F : FTy → Type} [FloatOps F]

variable (V : (c : Dev nD) → (b : Ref sig .tc) → Buf (Elt F) ((c : Thread nD τ).loc b))
  (O : Dev nD → CellTallies nD τ sig (HIx 1)) (B : Dev nD → Set (SemLoc sig × HIx 1))

theorem index2_0 : ∀ t : Fin cfg2.N, win2_0.index t (0 : Fin 2) = t.val ∧ win2_0.index t (1 : Fin 2) = 0 :=
  (by decide +kernel : ∀ t : Fin grid2.N, _)

theorem index2_1 : ∀ t : Fin cfg2.N, win2_1.index t (0 : Fin 2) = 0 ∧ win2_1.index t (1 : Fin 2) = 0 :=
  (by decide +kernel : ∀ t : Fin grid2.N, _)
theorem index2_2 : ∀ t : Fin cfg2.N, win2_2.index t (0 : Fin 2) = 0 ∧ win2_2.index t (1 : Fin 2) = 0 :=
  (by decide +kernel : ∀ t : Fin grid2.N, _)
theorem index2_3 : ∀ t : Fin cfg2.N, win2_3.index t (0 : Fin 2) = 0 ∧ win2_3.index t (1 : Fin 2) = 0 :=
  (by decide +kernel : ∀ t : Fin grid2.N, _)
theorem index2_4 : ∀ t : Fin cfg2.N, win2_4.index t (0 : Fin 2) = 0 ∧ win2_4.index t (1 : Fin 2) = 0 :=
  (by decide +kernel : ∀ t : Fin grid2.N, _)

theorem index2_5 : ∀ t : Fin cfg2.N, win2_5.index t (0 : Fin 2) = t.val + 100 ∧ win2_5.index t (1 : Fin 2) = 0 :=
  (by decide +kernel : ∀ t : Fin grid2.N, _)

theorem point_lt (t : Fin cfg2.N) : t.val < 200 := lt_of_lt_of_eq t.isLt N_2

theorem iblk2_1 (c : Dev nD) (t : Fin cfg2.N) : iblk2 V c 1 t = V c main_arg7 := by
  obtain ⟨e0, e1⟩ := index2_1 t
  funext j
  show V c main_arg7 (((cfg2.win 1).blk t).view.emb j) = V c main_arg7 j
  refine congrArg _ (funext fun a => Fin.ext ?_)
  match a with
  | ⟨0, _⟩ => show win2_1.index t (0 : Fin 2) * 256 + 1 * (j 0).val = (j 0).val; omega
  | ⟨1, _⟩ => show win2_1.index t (1 : Fin 2) * 256 + 1 * (j 1).val = (j 1).val; omega

theorem iblk2_2 (c : Dev nD) (t : Fin cfg2.N) : iblk2 V c 2 t = V c main_v8 := by
  obtain ⟨e0, e1⟩ := index2_2 t
  funext j
  show V c main_v8 (((cfg2.win 2).blk t).view.emb j) = V c main_v8 j
  refine congrArg _ (funext fun a => Fin.ext ?_)
  match a with
  | ⟨0, _⟩ => show win2_2.index t (0 : Fin 2) * 1 + 1 * (j 0).val = (j 0).val; omega
  | ⟨1, _⟩ => show win2_2.index t (1 : Fin 2) * 256 + 1 * (j 1).val = (j 1).val; omega

theorem iblk2_3 (c : Dev nD) (t : Fin cfg2.N) : iblk2 V c 3 t = V c main_arg9 := by
  obtain ⟨e0, e1⟩ := index2_3 t
  funext j
  show V c main_arg9 (((cfg2.win 3).blk t).view.emb j) = V c main_arg9 j
  refine congrArg _ (funext fun a => Fin.ext ?_)
  match a with
  | ⟨0, _⟩ => show win2_3.index t (0 : Fin 2) * 256 + 1 * (j 0).val = (j 0).val; omega
  | ⟨1, _⟩ => show win2_3.index t (1 : Fin 2) * 256 + 1 * (j 1).val = (j 1).val; omega

theorem iblk2_4 (c : Dev nD) (t : Fin cfg2.N) : iblk2 V c 4 t = V c main_v9 := by
  obtain ⟨e0, e1⟩ := index2_4 t
  funext j
  show V c main_v9 (((cfg2.win 4).blk t).view.emb j) = V c main_v9 j
  refine congrArg _ (funext fun a => Fin.ext ?_)
  match a with
  | ⟨0, _⟩ => show win2_4.index t (0 : Fin 2) * 1 + 1 * (j 0).val = (j 0).val; omega
  | ⟨1, _⟩ => show win2_4.index t (1 : Fin 2) * 256 + 1 * (j 1).val = (j 1).val; omega

theorem blk2_0_apply (c : Dev nD) (t : Fin cfg2.N) (r : Fin 2000) (q : Fin 128) :
    blk2_0 V c t (ix2 r q)
      = V c main_v7_1 (ix2 ⟨2000 * t.val + r.val, by have := point_lt t; have := r.isLt; omega⟩ q) := by
  obtain ⟨e0, e1⟩ := index2_0 t
  unfold blk2_0 iblk2
  show V c main_v7_1 (((cfg2.win 0).blk t).view.emb _) = V c main_v7_1 _
  refine congrArg _ (funext fun a => Fin.ext ?_)
  match a with
  | ⟨0, _⟩ => show win2_0.index t (0 : Fin 2) * 2000 + 1 * r.val = 2000 * t.val + r.val; omega
  | ⟨1, _⟩ => show win2_0.index t (1 : Fin 2) * 128 + 1 * q.val = q.val; omega

def outRows (c : Dev nD) : S600000x128.Idx → Elt F .f32 := fun i =>
  out2 (blk2_0 V c ⟨((i 0).val - 200000) / 2000,
      lt_of_lt_of_eq (by have h : (i 0).val < 600000 := (i 0).isLt; omega : ((i 0).val - 200000) / 2000 < 200) N_2.symm⟩)
    (V c main_arg7) (V c main_v8) (V c main_arg9) (V c main_v9)
    (ix2 ⟨((i 0).val - 200000) % 2000, Nat.mod_lt _ (by decide)⟩ (i 1))

theorem outRows_at (c : Dev nD) (t : Fin cfg2.N) (j : S2000x128.Idx) (i : S600000x128.Idx)
    (h0 : (i 0).val = (t.val + 100) * 2000 + (j 0).val) (h1 : (i 1).val = (j 1).val) :
    outRows V c i = out2 (blk2_0 V c t) (V c main_arg7) (V c main_v8) (V c main_arg9) (V c main_v9) j := by
  have hj0 : (j 0).val < 2000 := (j 0).isLt
  have ht : (⟨((i 0).val - 200000) / 2000,
      lt_of_lt_of_eq (by have h : (i 0).val < 600000 := (i 0).isLt; omega : ((i 0).val - 200000) / 2000 < 200) N_2.symm⟩ : Fin cfg2.N) = t :=
    Fin.ext (by show ((i 0).val - 200000) / 2000 = t.val; omega)
  have hj : (ix2 ⟨((i 0).val - 200000) % 2000, Nat.mod_lt _ (by decide)⟩ (i 1) : S2000x128.Idx) = j := by
    funext a
    match a with
    | ⟨0, _⟩ => exact Fin.ext (by show ((i 0).val - 200000) % 2000 = (j 0).val; omega)
    | ⟨1, _⟩ => exact Fin.ext h1
  unfold outRows
  rw [ht, hj]

theorem cut_eq_read_of_pointwise (t : Fin cfg2.N) (X : S2000x128.Idx → Elt F .f32) (G : S600000x128.Idx → Elt F .f32)
    (h : ∀ j : S2000x128.Idx, X j = G (((cfg2.win 5).blk t).view.emb j)) :
    (cfg2.win 5).cut (grid2.coords t) X = ((cfg2.win 5).blk t).view.read (Elt F) G :=
  funext fun j => h j

theorem emb2_5_row (t : Fin cfg2.N) (j : S2000x128.Idx) :
    ((((cfg2.win 5).blk t).view.emb j) 0).val = win2_5.index t (0 : Fin 2) * 2000 + 1 * (j 0).val := rfl
theorem emb2_5_col (t : Fin cfg2.N) (j : S2000x128.Idx) :
    ((((cfg2.win 5).blk t).view.emb j) 1).val = win2_5.index t (1 : Fin 2) * 128 + 1 * (j 1).val := rfl

theorem flushed2_5 (c : Dev nD) (t : Fin cfg2.N) :
    (dat2 V O B c).flushed 5 t = ((cfg2.win 5).blk t).view.read (Elt F) (outRows V c) := by
  show (cfg2.win 5).cut (grid2.coords t) ((dat2 V O B c).after 5 t) = _
  rw [after2_5, iblk2_1, iblk2_2, iblk2_3, iblk2_4]
  obtain ⟨e0, e1⟩ := index2_5 t
  refine cut_eq_read_of_pointwise t _ _ fun j => ?_
  have hj0 : (j 0).val < 2000 := (j 0).isLt
  exact (outRows_at V c t j _ (by rw [emb2_5_row, e0]; omega) (by rw [emb2_5_col, e1]; omega)).symm

theorem mem_blk2_5 (t : Fin cfg2.N) (i : S600000x128.Idx) :
    i ∈ ((cfg2.win 5).blk t).view.set ↔ ∀ a : Fin 2, win2_5.index t a * S2000x128.size a ≤ (i a).val
      ∧ (i a).val < win2_5.index t a * S2000x128.size a + S2000x128.size a := by
  show i ∈ ((View.whole main_v10).slice (win2_5.rect t)).set ↔ _
  rw [View.set_slice_whole, Rect.mem_set_unit]
  exact Iff.rfl

theorem covered2_5 (i : S600000x128.Idx) :
    (∃ t : Fin cfg2.N, (cfg2.win 5).flush t = true ∧ i ∈ ((cfg2.win 5).blk t).view.set) ↔ 200000 ≤ (i 0).val := by
  have hi0 : (i 0).val < 600000 := (i 0).isLt
  have hi1 : (i 1).val < 128 := (i 1).isLt
  constructor
  · rintro ⟨t, -, hi⟩
    rw [mem_blk2_5] at hi
    have b0 : win2_5.index t (0 : Fin 2) * 2000 ≤ (i 0).val ∧ (i 0).val < win2_5.index t (0 : Fin 2) * 2000 + 2000 := hi 0
    obtain ⟨e0, e1⟩ := index2_5 t
    omega
  · intro h
    let t : Fin cfg2.N := ⟨((i 0).val - 200000) / 2000, lt_of_lt_of_eq (by omega : ((i 0).val - 200000) / 2000 < 200) N_2.symm⟩
    have tv : t.val = ((i 0).val - 200000) / 2000 := rfl
    obtain ⟨e0, e1⟩ := index2_5 t
    refine ⟨t, flush2_5 t, ?_⟩
    rw [mem_blk2_5]
    intro a
    match a with
    | ⟨0, _⟩ => show win2_5.index t (0 : Fin 2) * 2000 ≤ (i 0).val ∧ (i 0).val < win2_5.index t (0 : Fin 2) * 2000 + 2000; omega
    | ⟨1, _⟩ => show win2_5.index t (1 : Fin 2) * 128 ≤ (i 1).val ∧ (i 1).val < win2_5.index t (1 : Fin 2) * 128 + 128; omega

theorem arrAt2_5 (c : Dev nD) :
    (dat2 V O B c).arrAt 5 cfg2.N = fun i : S600000x128.Idx =>
      if (i 0).val < 200000 then V c main_v10 i else outRows V c i := by
  funext i
  rw [(dat2 V O B c).arrAt_eq_piecewise 5 (outRows V c) (fun t _ => flushed2_5 V O B c t) i, A_eq2]
  by_cases h : (i 0).val < 200000
  · rw [if_pos h, if_neg (by rw [covered2_5]; omega)]
  · rw [if_neg h, if_pos ((covered2_5 i).mpr (by omega))]

theorem arrAt2_5_high (c : Dev nD) (i : S600000x128.Idx) (h : 200000 ≤ (i 0).val) :
    (dat2 V O B c).arrAt 5 cfg2.N i = outRows V c i := by
  rw [arrAt2_5]; exact if_neg (by omega)

theorem arrAt2_5_low (c : Dev nD) (i : S600000x128.Idx) (h : (i 0).val < 200000) :
    (dat2 V O B c).arrAt 5 cfg2.N i = V c main_v10 i := by
  rw [arrAt2_5]; exact if_pos h

end Cert.KernelIdeal.Hand

end
-- ==== Proof.KI.ChainAt.lean ====
import proofs.«214604_g3212635537896_cont_8to1_b_1509_14_alg».proof.Proof.KI.Args
import proofs.«214604_g3212635537896_cont_8to1_b_1509_14_alg».proof.Proof.KI.Value2
import Idealize.ShloMosaic.Lib.Pipeline.Value
import Idealize.ShloMosaic.Lib.ValueIdx

set_option maxRecDepth 16384

noncomputable section

namespace Cert.KernelIdeal.Hand

open Cert.KernelIdeal Cert.KernelIdeal.Gen

open Idealize.ShloMosaic Idealize.ShloMosaic.TcCoe Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

variable (m : (ℓ : Loc nD τ sig) → Buf (Elt F) ℓ)

theorem W4_of_launch (d : Dev nD) (b : Ref sig .tc)
    (hA : b ≠ main_v0 ∧ b ≠ main_v1) (h0 : ∀ w, Pipeline.arrRef spec0 w ≠ b)
    (hB : b ≠ main_c ∧ b ≠ main_v3 ∧ b ≠ main_v4 ∧ b ≠ main_c_0 ∧ b ≠ main_v5 ∧ b ≠ main_v6)
    (hS : b ≠ main_v7_0 ∧ b ≠ main_v7_1) :
    W4 m d (Proc.devRef .tc b) = m ((d : Thread nD τ).loc b) :=
  (W4_of_ne m d b hS.1 hS.2).trans <|
    (W3_of_ne m d b hB.1 hB.2.1 hB.2.2.1 hB.2.2.2.1 hB.2.2.2.2.1 hB.2.2.2.2.2).trans <|
    (W2_of_ne m d b h0).trans <| W1_of_ne m d b hA.1 hA.2

theorem W1_main_arg0 (d : Dev nD) : W1 m d (Proc.devRef .tc main_arg0) = m ((d : Thread nD τ).loc main_arg0) :=
  W1_of_ne m d main_arg0 (by decide) (by decide)
theorem W1_main_arg3 (d : Dev nD) : W1 m d (Proc.devRef .tc main_arg3) = m ((d : Thread nD τ).loc main_arg3) :=
  W1_of_ne m d main_arg3 (by decide) (by decide)
theorem W1_main_arg5 (d : Dev nD) : W1 m d (Proc.devRef .tc main_arg5) = m ((d : Thread nD τ).loc main_arg5) :=
  W1_of_ne m d main_arg5 (by decide) (by decide)

theorem W1_main_v0 (d : Dev nD) :
    W1 m d (Proc.devRef .tc main_v0) = shapeCast S1x128 (m ((d : Thread nD τ).loc main_arg4)) shapeCasts_S128_S1x128 := by
  show StableHlo.after opsA (W0 m d) (Proc.devRef .tc main_v0) = _
  simp only [opsA, op_v0, op_v1]
  after_results
  rfl

theorem W1_main_v1 (d : Dev nD) :
    W1 m d (Proc.devRef .tc main_v1) = shapeCast S1x128 (m ((d : Thread nD τ).loc main_arg6)) shapeCasts_S128_S1x128 := by
  show StableHlo.after opsA (W0 m d) (Proc.devRef .tc main_v1) = _
  simp only [opsA, op_v0, op_v1]
  after_results
  rfl

theorem row_of_vec_apply {α : Type} {n : Nat} (x : (⟨1, ![n]⟩ : Shape).Idx → α)
    (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_one, Shape.rowMajor_val_two]
    show k.val = 0 * n + k.val
    omega)

theorem W1_main_v0_apply (d : Dev nD) (k : Fin 128) :
    (W1 m d (Proc.devRef .tc main_v0) : S1x128.Idx → Elt F .f32) (ix2 0 k) = (m ((d : Thread nD τ).loc main_arg4) : S128.Idx → Elt F .f32) (ix1 k) := by
  rw [W1_main_v0]; exact row_of_vec_apply _ _ k

theorem W1_main_v1_apply (d : Dev nD) (k : Fin 128) :
    (W1 m d (Proc.devRef .tc main_v1) : S1x128.Idx → Elt F .f32) (ix2 0 k) = (m ((d : Thread nD τ).loc main_arg6) : S128.Idx → Elt F .f32) (ix1 k) := by
  rw [W1_main_v1]; exact row_of_vec_apply _ _ k

theorem W3_main_v2 (d : Dev nD) :
    W3 m d (Proc.devRef .tc main_v2) = (dat0 (V1 m) (Ow (F := F) 0) (Bd (F := F) 0) d).arrAt 5 cfg0.N :=
  (W3_of_ne m d main_v2 (by decide) (by decide) (by decide) (by decide) (by decide) (by decide)).trans (W2_arr m d 5)

theorem W2_main_arg1 (d : Dev nD) : W2 m d (Proc.devRef .tc main_arg1) = m ((d : Thread nD τ).loc main_arg1) :=
  (W2_of_ne m d main_arg1 (by decide)).trans (W1_of_ne m d main_arg1 (by decide) (by decide))
theorem W2_main_arg2 (d : Dev nD) : W2 m d (Proc.devRef .tc main_arg2) = m ((d : Thread nD τ).loc main_arg2) :=
  (W2_of_ne m d main_arg2 (by decide)).trans (W1_of_ne m d main_arg2 (by decide) (by decide))

theorem W3_main_arg0 (d : Dev nD) : W3 m d (Proc.devRef .tc main_arg0) = m ((d : Thread nD τ).loc main_arg0) :=
  (W3_of_ne m d main_arg0 (by decide) (by decide) (by decide) (by decide) (by decide) (by decide)).trans <|
    (W2_in m d 0 rfl).trans (W1_main_arg0 m d)

theorem W3_main_v4_apply (d : Dev nD) (r : Fin 200000) :
    (W3 m d (Proc.devRef .tc main_v4) : S200704.Idx → Elt F .i32) (ix1 ⟨r.val, by have := r.isLt; omega⟩)
      = (m ((d : Thread nD τ).loc main_arg1) : S200000.Idx → Elt F .i32) (ix1 r) := by
  have h : W3 m d (Proc.devRef .tc main_v4)
      = concatenate S200704 0 [⟨S200000, W2 m d (Proc.devRef .tc main_arg1)⟩,
          ⟨S704, broadcastInDim S704 ![] bcast_S_S704 (constantI S_ 32 0#32)⟩] concatenates_S200000_S704_S200704_d0 := by
    show StableHlo.after opsB (W2 m d) (Proc.devRef .tc main_v4) = _
    simp only [opsB, op_c, op_v3, op_v4, op_c_0, op_v5, op_v6]
    after_results
  rw [h, W2_main_arg1]
  exact concatenate_pair_apply_left 0 _ _ concatenates_S200000_S704_S200704_d0 (ix1 ⟨r.val, by have := r.isLt; omega⟩) rfl
    (ix1 r) (fun b => by match b with | ⟨0, _⟩ => rfl)

theorem W3_main_v6_apply (d : Dev nD) (r : Fin 400000) :
    (W3 m d (Proc.devRef .tc main_v6) : S401408.Idx → Elt F .i32) (ix1 ⟨r.val, by have := r.isLt; omega⟩)
      = (m ((d : Thread nD τ).loc main_arg2) : S400000.Idx → Elt F .i32) (ix1 r) := by
  have h : W3 m d (Proc.devRef .tc main_v6)
      = concatenate S401408 0 [⟨S400000, W2 m d (Proc.devRef .tc main_arg2)⟩,
          ⟨S1408, broadcastInDim S1408 ![] bcast_S_S1408 (constantI S_ 32 0#32)⟩] concatenates_S400000_S1408_S401408_d0 := by
    show StableHlo.after opsB (W2 m d) (Proc.devRef .tc main_v6) = _
    simp only [opsB, op_c, op_v3, op_v4, op_c_0, op_v5, op_v6]
    after_results
  rw [h, W2_main_arg2]
  exact concatenate_pair_apply_left 0 _ _ concatenates_S400000_S1408_S401408_d0 (ix1 ⟨r.val, by have := r.isLt; omega⟩) rfl
    (ix1 r) (fun b => by match b with | ⟨0, _⟩ => rfl)

theorem W4_main_v7_0 (d : Dev nD) :
    W4 m d (Proc.devRef .tc main_v7_0)
      = gatherF (W3 m d main_v2) (W3 m d main_v4) (W3 m d main_v7_0) := by
  unfold W4
  rw [Function.update_of_ne (StableHlo.devRef_ne_of_ne (by decide : main_v7_0 ≠ main_v7_1)), Function.update_self]

theorem W4_main_v7_1 (d : Dev nD) :
    W4 m d (Proc.devRef .tc main_v7_1) = gatherE (W3 m d main_arg0) (W3 m d main_v6) := by
  unfold W4
  rw [Function.update_self]

theorem W4_main_v7_0_apply (d : Dev nD) (r : Fin 200000) (c : Fin 128) :
    (W4 m d (Proc.devRef .tc main_v7_0) : S600000x128.Idx → Elt F .f32) (ix2 ⟨r.val, by have := r.isLt; omega⟩ c)
      = (dat0 (V1 m) (Ow (F := F) 0) (Bd (F := F) 0) d).arrAt 5 cfg0.N
          (ix2 (rowOf ((m ((d : Thread nD τ).loc main_arg1) : S200000.Idx → Elt F .i32) (ix1 r))) c) := by
  rw [W4_main_v7_0]
  unfold gatherF
  have hr : ((ix2 (⟨r.val, by have := r.isLt; omega⟩ : Fin 600000) c : S600000x128.Idx) 0).val < 200704 := by
    show r.val < 200704; have := r.isLt; omega
  rw [dif_pos hr]
  have hw := W3_main_v4_apply m d r
  have h2 := W3_main_v2 m d
  show (W3 m d (Proc.devRef .tc main_v2) : S100000x128.Idx → Elt F .f32)
      (ix2 (rowOf ((W3 m d (Proc.devRef .tc main_v4) : S200704.Idx → Elt F .i32) (ix1 ⟨r.val, _⟩))) c) = _
  rw [hw, h2]

theorem W4_main_v7_1_apply (d : Dev nD) (a : Fin 400000) (c : Fin 128) :
    (W4 m d (Proc.devRef .tc main_v7_1) : S401408x128.Idx → Elt F .f32) (ix2 ⟨a.val, by have := a.isLt; omega⟩ c)
      = (m ((d : Thread nD τ).loc main_arg0) : S100000x128.Idx → Elt F .f32)
          (ix2 (rowOf ((m ((d : Thread nD τ).loc main_arg2) : S400000.Idx → Elt F .i32) (ix1 a))) c) := by
  rw [W4_main_v7_1]
  unfold gatherE
  have hw := W3_main_v6_apply m d a
  have h0 := W3_main_arg0 m d
  show (W3 m d (Proc.devRef .tc main_arg0) : S100000x128.Idx → Elt F .f32)
      (ix2 (rowOf ((W3 m d (Proc.devRef .tc main_v6) : S401408.Idx → Elt F .i32) (ix1 ⟨a.val, _⟩))) c) = _
  rw [hw, h0]

theorem W5_main_v10 (d : Dev nD) : W5 m d (Proc.devRef .tc main_v10) = W4 m d (Proc.devRef .tc main_v7_0) := by
  show StableHlo.after opsC (W4 m d) (Proc.devRef .tc main_v10) = _
  simp only [opsC, op_v8, op_v9, op_v10]
  after_results
  rfl

theorem W5_main_v7_1 (d : Dev nD) : W5 m d (Proc.devRef .tc main_v7_1) = W4 m d (Proc.devRef .tc main_v7_1) :=
  W5_of_ne m d main_v7_1 (by decide) (by decide) (by decide)

theorem W4_main_arg8 (d : Dev nD) : W4 m d (Proc.devRef .tc main_arg8) = m ((d : Thread nD τ).loc main_arg8) :=
  W4_of_launch m d main_arg8 (by decide) (by decide) (by decide) (by decide)
theorem W4_main_arg10 (d : Dev nD) : W4 m d (Proc.devRef .tc main_arg10) = m ((d : Thread nD τ).loc main_arg10) :=
  W4_of_launch m d main_arg10 (by decide) (by decide) (by decide) (by decide)

theorem W5_main_v8 (d : Dev nD) :
    W5 m d (Proc.devRef .tc main_v8) = shapeCast S1x256 (m ((d : Thread nD τ).loc main_arg8)) shapeCasts_S256_S1x256 := by
  have h : W5 m d (Proc.devRef .tc main_v8) = shapeCast S1x256 (W4 m d (Proc.devRef .tc main_arg8)) shapeCasts_S256_S1x256 := by
    show StableHlo.after opsC (W4 m d) (Proc.devRef .tc main_v8) = _
    simp only [opsC, op_v8, op_v9, op_v10]
    after_results
    rfl
  rw [h, W4_main_arg8]

theorem W5_main_v9 (d : Dev nD) :
    W5 m d (Proc.devRef .tc main_v9) = shapeCast S1x256 (m ((d : Thread nD τ).loc main_arg10)) shapeCasts_S256_S1x256 := by
  have h : W5 m d (Proc.devRef .tc main_v9) = shapeCast S1x256 (W4 m d (Proc.devRef .tc main_arg10)) shapeCasts_S256_S1x256 := by
    show StableHlo.after opsC (W4 m d) (Proc.devRef .tc main_v9) = _
    simp only [opsC, op_v8, op_v9, op_v10]
    after_results
    rfl
  rw [h, W4_main_arg10]

theorem W5_main_v8_apply (d : Dev nD) (k : Fin 256) :
    (W5 m d (Proc.devRef .tc main_v8) : S1x256.Idx → Elt F .f32) (ix2 0 k) = (m ((d : Thread nD τ).loc main_arg8) : S256.Idx → Elt F .f32) (ix1 k) := by
  rw [W5_main_v8]; exact row_of_vec_apply _ _ k

theorem W5_main_v9_apply (d : Dev nD) (k : Fin 256) :
    (W5 m d (Proc.devRef .tc main_v9) : S1x256.Idx → Elt F .f32) (ix2 0 k) = (m ((d : Thread nD τ).loc main_arg10) : S256.Idx → Elt F .f32) (ix1 k) := by
  rw [W5_main_v9]; exact row_of_vec_apply _ _ k

theorem W7_main_v10_low (d : Dev nD) (r : Fin 200000) (c : Fin 128) :
    (W7 m d (Proc.devRef .tc main_v10) : S600000x128.Idx → Elt F .f32) (ix2 ⟨r.val, by have := r.isLt; omega⟩ c)
      = (dat0 (V1 m) (Ow (F := F) 0) (Bd (F := F) 0) d).arrAt 5 cfg0.N
          (ix2 (rowOf ((m ((d : Thread nD τ).loc main_arg1) : S200000.Idx → Elt F .i32) (ix1 r))) c) := by
  rw [W7_main_v10, arrAt2_5_low (V5 m) (Ow (F := F) 1) (Bd (F := F) 1) d _ (by show r.val < 200000; exact r.isLt)]
  show (W5 m d (Proc.devRef .tc main_v10) : S600000x128.Idx → Elt F .f32) _ = _
  rw [W5_main_v10]
  exact W4_main_v7_0_apply m d r c

end Cert.KernelIdeal.Hand

end
-- ==== Proof.KI.Body0Value.lean ====
import proofs.«214604_g3212635537896_cont_8to1_b_1509_14_alg».proof.Proof.KI.Body0
import proofs.«214604_g3212635537896_cont_8to1_b_1509_14_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal.Gen
open Idealize.ShloMosaic Idealize.ShloMosaic.ValueIdx

theorem lhs_dot_0 (j : S2000x128.Idx) (k : dot_S2000x128_S128x128_S2000x128_1_0_0_1_n_n.contr.Idx) :
    (dot_S2000x128_S128x128_S2000x128_1_0_0_1_n_n.lhsIdx j k 0).val = (j 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

theorem lhs_dot_1 (j : S2000x128.Idx) (k : dot_S2000x128_S128x128_S2000x128_1_0_0_1_n_n.contr.Idx) :
    (dot_S2000x128_S128x128_S2000x128_1_0_0_1_n_n.lhsIdx j k 1).val = (k ⟨0, by decide⟩).val :=
  dot_S2000x128_S128x128_S2000x128_1_0_0_1_n_n.lhsIdx_val_of_single (cl := 1) rfl j k

theorem rhs_dot_0 (j : S2000x128.Idx) (k : dot_S2000x128_S128x128_S2000x128_1_0_0_1_n_n.contr.Idx) :
    (dot_S2000x128_S128x128_S2000x128_1_0_0_1_n_n.rhsIdx j k 0).val = (k ⟨0, by decide⟩).val :=
  dot_S2000x128_S128x128_S2000x128_1_0_0_1_n_n.rhsIdx_val_of_single (cr := 0) rfl j k

theorem rhs_dot_1 (j : S2000x128.Idx) (k : dot_S2000x128_S128x128_S2000x128_1_0_0_1_n_n.contr.Idx) :
    (dot_S2000x128_S128x128_S2000x128_1_0_0_1_n_n.rhsIdx j k 1).val = (j 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

theorem matmul0_apply (A : FVec Ideal S2000x128 .f32) (B : FVec Ideal S128x128 .f32) (p : Fin 2000) (q : Fin 128) :
    matmul (F := Ideal) dot_S2000x128_S128x128_S2000x128_1_0_0_1_n_n none A B (constant (F := Ideal) S2000x128 .f32 0x00000000#32) (ix2 p q)
      = ∑ k : Fin 128, A (ix2 p k) * B (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have hl : dot_S2000x128_S128x128_S2000x128_1_0_0_1_n_n.lhsIdx (ix2 p q) ((contrEquiv1 dot_S2000x128_S128x128_S2000x128_1_0_0_1_n_n 128 rfl rfl).symm k) = ix2 p k := by
    funext a
    match a with
    | ⟨0, _⟩ => exact Fin.ext (lhs_dot_0 _ _)
    | ⟨1, _⟩ => exact Fin.ext ((lhs_dot_1 _ _).trans hk)
  have hr : dot_S2000x128_S128x128_S2000x128_1_0_0_1_n_n.rhsIdx (ix2 p q) ((contrEquiv1 dot_S2000x128_S128x128_S2000x128_1_0_0_1_n_n 128 rfl rfl).symm k) = ix2 k q := by
    funext a
    match a with
    | ⟨0, _⟩ => exact Fin.ext ((rhs_dot_0 _ _).trans hk)
    | ⟨1, _⟩ => exact Fin.ext (rhs_dot_1 _ _)
  rw [hl, hr]

theorem k0_pay1_apply (v0 : FVec Ideal S2000x128 .f32) (v1 : FVec Ideal S128x128 .f32) (v3 : FVec Ideal S1x128 .f32)
    (v9 : FVec Ideal S128x128 .f32) (v12 : FVec Ideal S1x128 .f32) (p : Fin 2000) (q : Fin 128) :
    k0_pay1 (F := Ideal) v0 v1 v3 v9 v12 (ix2 p q)
      = (v0 (ix2 p q) + ∑ k : Fin 128, max ((∑ l : Fin 128, v0 (ix2 p l) * v1 (ix2 l k)) + v3 (ix2 0 k)) 0 * v9 (ix2 k q))
          + v12 (ix2 0 q) := by
  unfold k0_pay1
  simp only [shapeCast_self]
  rw [addf_apply, addf_apply, matmul0_apply, broadcastTo_1b_ab_apply]
  refine congrArg (fun z => (v0 (ix2 p q) + z) + v12 (ix2 0 q)) (Finset.sum_congr rfl fun k _ => ?_)
  rw [maximumf_apply, addf_apply, matmul0_apply, broadcastTo_1b_ab_apply, broadcast_apply]
  show max _ (Ideal.ofBits .f32 0x00000000#32) * _ = _
  rw [Ideal.ofBits_zero_f32]

theorem zeros2 : (![0, 0] : Fin 2 → Nat) = fun _ => 0 := funext fun a => by fin_cases a <;> rfl

theorem out0_apply (x0 : Vec Ideal S2000x128 .f32) (w1 : Vec Ideal S128x128 .f32) (b1 : Vec Ideal S1x128 .f32)
    (w2 : Vec Ideal S128x128 .f32) (b2 : Vec Ideal S1x128 .f32) (p : Fin 2000) (q : Fin 128) :
    out0 (F := Ideal) x0 w1 b1 w2 b2 (ix2 p q)
      = Cert.Spec.resMlp (fun l k => w1 (ix2 l k)) (fun k => b1 (ix2 0 k)) (fun k j => w2 (ix2 k j)) (fun j => b2 (ix2 0 j))
          (fun l => x0 (ix2 p l)) q := by
  unfold out0
  rw [View.canon_unit_zero zeros2]
  simp only [View.ld_unit_zero (S := S2000x128) zeros2, View.ld_unit_zero (S := S128x128) zeros2, View.ld_unit_zero (S := S1x128) zeros2]
  rw [k0_pay1_apply]
  exact Cert.Spec.resMlp_assoc (fun l k => w1 (ix2 l k)) (fun k => b1 (ix2 0 k)) (fun k j => w2 (ix2 k j)) (fun j => b2 (ix2 0 j))
    (fun l => x0 (ix2 p l)) q

end Cert.KernelIdeal.Hand

end
-- ==== Proof.KI.Value0.lean ====
import proofs.«214604_g3212635537896_cont_8to1_b_1509_14_alg».proof.Proof.KI.Region0
import proofs.«214604_g3212635537896_cont_8to1_b_1509_14_alg».proof.Proof.KI.Body0Value
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.SparseCore.Cfg (HIx)
open Idealize.SL Idealize.SL.Sem
open Idealize.ShloMosaic.Pipeline (Dat Cfg Window)

variable {F : FTy → Type} [FloatOps F]

section Generic

variable (V : (c : Dev nD) → (b : Ref sig .tc) → Buf (Elt F) ((c : Thread nD τ).loc b)) (O : Dev nD → CellTallies nD τ sig (HIx 1))
  (B : Dev nD → Set (SemLoc sig × HIx 1))

theorem N0_eq : cfg0.N = 50 := by decide

theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem iblk0_1_eq (c : Dev nD) (t : Fin cfg0.N) : iblk0 V c 1 t = (V c main_arg3 : S128x128.Idx → Elt F .f32) := by
  obtain ⟨-, -, e0, e1, -⟩ := idx_facts0 t
  funext x
  show V c main_arg3 (((cfg0.win 1).blk t).view.emb x) = V c main_arg3 x
  refine congrArg _ (funext fun a => Fin.ext ?_)
  match a with
  | ⟨0, _⟩ => show win0_1.index t (0 : Fin 2) * 128 + 1 * (x 0).val = (x 0).val; omega
  | ⟨1, _⟩ => show win0_1.index t (1 : Fin 2) * 128 + 1 * (x 1).val = (x 1).val; omega

theorem iblk0_2_eq (c : Dev nD) (t : Fin cfg0.N) : iblk0 V c 2 t = (V c main_v0 : S1x128.Idx → Elt F .f32) := by
  obtain ⟨-, -, -, -, e0, e1, -⟩ := idx_facts0 t
  funext x
  show V c main_v0 (((cfg0.win 2).blk t).view.emb x) = V c main_v0 x
  refine congrArg _ (funext fun a => Fin.ext ?_)
  match a with
  | ⟨0, _⟩ => show win0_2.index t (0 : Fin 2) * 1 + 1 * (x 0).val = (x 0).val; omega
  | ⟨1, _⟩ => show win0_2.index t (1 : Fin 2) * 128 + 1 * (x 1).val = (x 1).val; omega

theorem iblk0_3_eq (c : Dev nD) (t : Fin cfg0.N) : iblk0 V c 3 t = (V c main_arg5 : S128x128.Idx → Elt F .f32) := by
  obtain ⟨-, -, -, -, -, -, e0, e1, -⟩ := idx_facts0 t
  funext x
  show V c main_arg5 (((cfg0.win 3).blk t).view.emb x) = V c main_arg5 x
  refine congrArg _ (funext fun a => Fin.ext ?_)
  match a with
  | ⟨0, _⟩ => show win0_3.index t (0 : Fin 2) * 128 + 1 * (x 0).val = (x 0).val; omega
  | ⟨1, _⟩ => show win0_3.index t (1 : Fin 2) * 128 + 1 * (x 1).val = (x 1).val; omega

theorem iblk0_4_eq (c : Dev nD) (t : Fin cfg0.N) : iblk0 V c 4 t = (V c main_v1 : S1x128.Idx → Elt F .f32) := by
  obtain ⟨-, -, -, -, -, -, -, -, e0, e1, -⟩ := idx_facts0 t
  funext x
  show V c main_v1 (((cfg0.win 4).blk t).view.emb x) = V c main_v1 x
  refine congrArg _ (funext fun a => Fin.ext ?_)
  match a with
  | ⟨0, _⟩ => show win0_4.index t (0 : Fin 2) * 1 + 1 * (x 0).val = (x 0).val; omega
  | ⟨1, _⟩ => show win0_4.index t (1 : Fin 2) * 128 + 1 * (x 1).val = (x 1).val; omega

theorem iblk0_0_apply (c : Dev nD) (t : Fin cfg0.N) (p : Fin 2000) (l : Fin 128) (n : Fin 100000)
    (hn : n.val = t.val * 2000 + p.val) :
    (iblk0 V c 0 t : S2000x128.Idx → Elt F .f32) (ix2 p l) = (V c main_arg0 : S100000x128.Idx → Elt F .f32) (ix2 n l) := by
  obtain ⟨e0, e1, -⟩ := idx_facts0 t
  show V c main_arg0 (((cfg0.win 0).blk t).view.emb (ix2 p l)) = V c main_arg0 (ix2 n l)
  refine congrArg _ (funext fun a => Fin.ext ?_)
  match a with
  | ⟨0, _⟩ => show win0_0.index t (0 : Fin 2) * 2000 + 1 * p.val = n.val; omega
  | ⟨1, _⟩ => show win0_0.index t (1 : Fin 2) * 128 + 1 * l.val = l.val; omega

def u0 (c : Dev nD) : S100000x128.Idx → Elt F .f32 := fun i =>
  out0 (iblk0 V c 0 ⟨(i 0).val / 2000, by have h : (i 0).val < 100000 := (i 0).isLt; rw [N0_eq]; omega⟩)
    (V c main_arg3 : S128x128.Idx → Elt F .f32) (V c main_v0 : S1x128.Idx → Elt F .f32)
    (V c main_arg5 : S128x128.Idx → Elt F .f32) (V c main_v1 : S1x128.Idx → Elt F .f32)
    (ix2 (⟨(i 0).val % 2000, Nat.mod_lt _ (by decide)⟩ : Fin 2000) (i 1))

theorem cut5_eq_read (t : Fin cfg0.N) (X : S2000x128.Idx → Elt F .f32) (G : S100000x128.Idx → Elt F .f32)
    (h : ∀ (p : Fin 2000) (q : Fin 128) (n : Fin 100000), n.val = t.val * 2000 + p.val → X (ix2 p q) = G (ix2 n q)) :
    (cfg0.win 5).cut (grid0.coords t) X = ((cfg0.win 5).blk t).view.read (Elt F) G := by
  obtain ⟨-, -, -, -, -, -, -, -, -, -, e0, e1⟩ := idx_facts0 t
  have htN : t.val < 50 := Nat.lt_of_lt_of_eq t.isLt N0_eq
  refine funext fun (j : S2000x128.Idx) => ?_
  show X ((cfg0.win 5).xinj (grid0.coords t) j) = G (((cfg0.win 5).blk t).view.emb j)
  have hj0 : (j 0).val < 2000 := (j 0).isLt
  have hj1 : (j 1).val < 128 := (j 1).isLt
  have hX : (cfg0.win 5).xinj (grid0.coords t) j = ix2 (⟨(j 0).val, hj0⟩ : Fin 2000) (⟨(j 1).val, hj1⟩ : Fin 128) := by
    funext a; apply Fin.ext
    match a with
    | ⟨0, _⟩ => rfl
    | ⟨1, _⟩ => rfl
  have hG : ((cfg0.win 5).blk t).view.emb j
      = ix2 (⟨t.val * 2000 + (j 0).val, by omega⟩ : Fin 100000) (⟨(j 1).val, hj1⟩ : Fin 128) := by
    funext a; apply Fin.ext
    match a with
    | ⟨0, _⟩ => show win0_5.index t (0 : Fin 2) * 2000 + 1 * (j 0).val = t.val * 2000 + (j 0).val; omega
    | ⟨1, _⟩ => show win0_5.index t (1 : Fin 2) * 128 + 1 * (j 1).val = (j 1).val; omega
  rw [hX, hG]
  exact h _ _ _ rfl

theorem u0_block (c : Dev nD) (t : Fin cfg0.N) (p : Fin 2000) (q : Fin 128) (n : Fin 100000)
    (hn : n.val = t.val * 2000 + p.val) :
    u0 V c (ix2 n q)
      = out0 (iblk0 V c 0 t) (V c main_arg3 : S128x128.Idx → Elt F .f32) (V c main_v0 : S1x128.Idx → Elt F .f32)
          (V c main_arg5 : S128x128.Idx → Elt F .f32) (V c main_v1 : S1x128.Idx → Elt F .f32) (ix2 p q) := by
  have hp := p.isLt
  have ht : (⟨n.val / 2000, by have h := n.isLt; rw [N0_eq]; omega⟩ : Fin cfg0.N) = t :=
    Fin.ext (by show n.val / 2000 = t.val; omega)
  have hpe : (⟨n.val % 2000, Nat.mod_lt _ (by decide)⟩ : Fin 2000) = p :=
    Fin.ext (by show n.val % 2000 = p.val; omega)
  unfold u0
  show out0 (iblk0 V c 0 ⟨n.val / 2000, _⟩) _ _ _ _ (ix2 (⟨n.val % 2000, _⟩ : Fin 2000) q) = _
  rw [ht, hpe]

theorem flushed0_5_eq (c : Dev nD) (t : Fin cfg0.N) :
    (dat0 V O B c).flushed 5 t = ((cfg0.win 5).blk t).view.read (Elt F) (u0 V c) := by
  show (cfg0.win 5).cut (grid0.coords t) ((dat0 V O B c).after 5 t) = _
  rw [after0_5, iblk0_1_eq, iblk0_2_eq, iblk0_3_eq, iblk0_4_eq]
  exact cut5_eq_read t _ _ fun p q n hn => (u0_block V c t p q n hn).symm

theorem mem_blk0_5 (t : Fin cfg0.N) (i : S100000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v2).slice (win0_5.rect t)).set ↔ _
  rw [View.set_slice_whole, Rect.mem_set_unit]
  exact Iff.rfl

theorem cover0_5 (i : S100000x128.Idx) :
    ∃ t : Fin cfg0.N, (cfg0.win 5).flush t = true ∧ i ∈ ((cfg0.win 5).blk t).view.set := by
  have h0 : (i 0).val < 100000 := (i 0).isLt
  have h1 : (i 1).val < 128 := (i 1).isLt
  refine ⟨⟨(i 0).val / 2000, by rw [N0_eq]; omega⟩, flush0_5 _, ?_⟩
  obtain ⟨-, -, -, -, -, -, -, -, -, -, e0, e1⟩ := idx_facts0 ⟨(i 0).val / 2000, by rw [N0_eq]; omega⟩
  rw [mem_blk0_5]
  intro a
  match a with
  | ⟨0, _⟩ =>
    show win0_5.index _ (0 : Fin 2) * 2000 ≤ (i 0).val ∧ (i 0).val < win0_5.index _ (0 : Fin 2) * 2000 + 2000
    rw [e0]; show (i 0).val / 2000 * 2000 ≤ (i 0).val ∧ (i 0).val < (i 0).val / 2000 * 2000 + 2000; omega
  | ⟨1, _⟩ =>
    show win0_5.index _ (1 : Fin 2) * 128 ≤ (i 1).val ∧ (i 1).val < win0_5.index _ (1 : Fin 2) * 128 + 128
    rw [e1]; omega

theorem arrAt0_5 (c : Dev nD) : (dat0 V O B c).arrAt 5 cfg0.N = u0 V c :=
  (dat0 V O B c).arrAt_eq_of_cover 5 (u0 V c) (fun t _ => flushed0_5_eq V O B c t) cover0_5

end Generic

section AtIdeal

variable (V : (c : Dev nD) → (b : Ref sig .tc) → Buf (Elt Ideal) ((c : Thread nD τ).loc b)) (O : Dev nD → CellTallies nD τ sig (HIx 1))
  (B : Dev nD → Set (SemLoc sig × HIx 1))

theorem u_apply (c : Dev nD) (n : Fin 100000) (q : Fin 128) :
    ((dat0 (F := Ideal) V O B c).arrAt 5 cfg0.N : S100000x128.Idx → EReal) (ix2 n q)
      = Cert.Spec.resMlp (fun l k => (V c main_arg3 : S128x128.Idx → EReal) (ix2 l k))
          (fun k => (V c main_v0 : S1x128.Idx → EReal) (ix2 0 k))
          (fun k j => (V c main_arg5 : S128x128.Idx → EReal) (ix2 k j))
          (fun j => (V c main_v1 : S1x128.Idx → EReal) (ix2 0 j))
          (fun l => (V c main_arg0 : S100000x128.Idx → EReal) (ix2 n l)) q := by
  have hn := n.isLt
  have hdec : n.val = (⟨n.val / 2000, by rw [N0_eq]; omega⟩ : Fin cfg0.N).val * 2000
      + (⟨n.val % 2000, Nat.mod_lt _ (by decide)⟩ : Fin 2000).val := by
    show n.val = n.val / 2000 * 2000 + n.val % 2000; omega
  rw [arrAt0_5, u0_block V c ⟨n.val / 2000, by rw [N0_eq]; omega⟩ ⟨n.val % 2000, Nat.mod_lt _ (by decide)⟩ q n hdec,
    out0_apply]
  exact congrArg (fun v => Cert.Spec.resMlp (fun l k => (V c main_arg3 : S128x128.Idx → EReal) (ix2 l k))
      (fun k => (V c main_v0 : S1x128.Idx → EReal) (ix2 0 k))
      (fun k j => (V c main_arg5 : S128x128.Idx → EReal) (ix2 k j))
      (fun j => (V c main_v1 : S1x128.Idx → EReal) (ix2 0 j)) v q)
    (funext fun l => iblk0_0_apply V c _ _ l n hdec)

end AtIdeal

end Cert.KernelIdeal.Hand

end
-- ==== Proof.KI.Body2Value.lean ====
import proofs.«214604_g3212635537896_cont_8to1_b_1509_14_alg».proof.Proof.KI.Body2
import proofs.«214604_g3212635537896_cont_8to1_b_1509_14_alg».proof.Proof.Spec
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.Hand

open Cert.KernelIdeal.Gen
open Idealize.ShloMosaic Idealize.ShloMosaic.ValueIdx

theorem lhs_dot256_0 (j : S1000x256.Idx) (k : dot_S1000x256_S256x256_S1000x256_1_0_0_1_n_n.contr.Idx) :
    (dot_S1000x256_S256x256_S1000x256_1_0_0_1_n_n.lhsIdx j k 0).val = (j 0).val := by
  simp [DotDims.lhsIdx, dot_S1000x256_S256x256_S1000x256_1_0_0_1_n_n]; rfl

theorem lhs_dot256_1 (j : S1000x256.Idx) (k : dot_S1000x256_S256x256_S1000x256_1_0_0_1_n_n.contr.Idx) :
    (dot_S1000x256_S256x256_S1000x256_1_0_0_1_n_n.lhsIdx j k 1).val = (k ⟨0, by decide⟩).val :=
  dot_S1000x256_S256x256_S1000x256_1_0_0_1_n_n.lhsIdx_val_of_single (cl := 1) rfl j k

theorem rhs_dot256_0 (j : S1000x256.Idx) (k : dot_S1000x256_S256x256_S1000x256_1_0_0_1_n_n.contr.Idx) :
    (dot_S1000x256_S256x256_S1000x256_1_0_0_1_n_n.rhsIdx j k 0).val = (k ⟨0, by decide⟩).val :=
  dot_S1000x256_S256x256_S1000x256_1_0_0_1_n_n.rhsIdx_val_of_single (cr := 0) rfl j k

theorem rhs_dot256_1 (j : S1000x256.Idx) (k : dot_S1000x256_S256x256_S1000x256_1_0_0_1_n_n.contr.Idx) :
    (dot_S1000x256_S256x256_S1000x256_1_0_0_1_n_n.rhsIdx j k 1).val = (j 1).val := by
  simp [DotDims.rhsIdx, dot_S1000x256_S256x256_S1000x256_1_0_0_1_n_n]; rfl

theorem matmul256_apply (A : FVec Ideal S1000x256 .f32) (B : FVec Ideal S256x256 .f32) (p : Fin 1000) (q : Fin 256) :
    matmul dot_S1000x256_S256x256_S1000x256_1_0_0_1_n_n none A B (constant S1000x256 .f32 0x00000000#32) (ix2 p q)
      = ∑ l : Fin 256, A (ix2 p l) * B (ix2 l q) := by
  show FloatOps.matmul _ none A B _ (ix2 p q) = _
  rw [Ideal.matmul_constant_zero_apply,
    ← Equiv.sum_comp (contrEquiv1 dot_S1000x256_S256x256_S1000x256_1_0_0_1_n_n 256 rfl rfl).symm]
  refine Finset.sum_congr rfl fun l _ => ?_
  have c2 := contrEquiv1_symm_val dot_S1000x256_S256x256_S1000x256_1_0_0_1_n_n 256 rfl rfl l
  have hl : dot_S1000x256_S256x256_S1000x256_1_0_0_1_n_n.lhsIdx (ix2 p q) ((contrEquiv1 dot_S1000x256_S256x256_S1000x256_1_0_0_1_n_n 256 rfl rfl).symm l) = ix2 p l := by
    funext ax; apply Fin.ext
    match ax with
    | ⟨0, _⟩ => exact lhs_dot256_0 _ _
    | ⟨1, _⟩ => exact (lhs_dot256_1 _ _).trans c2
  have hr : dot_S1000x256_S256x256_S1000x256_1_0_0_1_n_n.rhsIdx (ix2 p q) ((contrEquiv1 dot_S1000x256_S256x256_S1000x256_1_0_0_1_n_n 256 rfl rfl).symm l) = ix2 l q := by
    funext ax; apply Fin.ext
    match ax with
    | ⟨0, _⟩ => exact (rhs_dot256_0 _ _).trans c2
    | ⟨1, _⟩ => exact rhs_dot256_1 _ _
  rw [hl, hr]

theorem wide_apply (x0 : FVec Ideal S2000x128 .f32) (p : Fin 1000) (q : Fin 256) :
    shapeCast S1000x256 (shapeCast S2000x128 x0 shapeCasts_S2000x128_S2000x128) shapeCasts_S2000x128_S1000x256 (ix2 p q)
      = x0 (ix2 ⟨2 * p.val + q.val / 128, by have := p.isLt; have := q.isLt; omega⟩ ⟨q.val % 128, Nat.mod_lt _ (by decide)⟩) := by
  rw [shapeCast_self]
  refine shapeCast_apply _ _ _ _ ?_
  rw [Shape.rowMajor_val_two, Shape.rowMajor_val_two]
  show (2 * p.val + q.val / 128) * 128 + q.val % 128 = p.val * 256 + q.val
  omega

theorem narrow_apply (Y : FVec Ideal S1000x256 .f32) (r : Fin 2000) (c : Fin 128) :
    shapeCast S2000x128 Y shapeCasts_S1000x256_S2000x128 (ix2 r c)
      = Y (ix2 ⟨r.val / 2, by have := r.isLt; omega⟩ ⟨(r.val % 2) * 128 + c.val, by have := c.isLt; omega⟩) := by
  refine shapeCast_apply _ _ _ _ ?_
  rw [Shape.rowMajor_val_two, Shape.rowMajor_val_two]
  show r.val / 2 * 256 + ((r.val % 2) * 128 + c.val) = r.val * 128 + c.val
  omega

theorem bias_apply (b : FVec Ideal S1x256 .f32) (p : Fin 1000) (q : Fin 256) :
    broadcastTo S1000x256 (shapeCast S1x256 b shapeCasts_S1x256_S1x256) broadcasts_S1x256_S1000x256 (ix2 p q) = b (ix2 0 q) := by
  rw [shapeCast_self]
  refine broadcastTo_apply _ _ _ _ fun a => ?_
  match a with
  | ⟨0, _⟩ => rfl
  | ⟨1, _⟩ => rfl

theorem mlp256_apply (X : FVec Ideal S1000x256 .f32) (w1 : FVec Ideal S256x256 .f32) (b1 : FVec Ideal S1x256 .f32)
    (w2 : FVec Ideal S256x256 .f32) (b2 : FVec Ideal S1x256 .f32) (p : Fin 1000) (q : Fin 256) :
    addf (addf X (matmul dot_S1000x256_S256x256_S1000x256_1_0_0_1_n_n none
        (maximumf (addf (matmul dot_S1000x256_S256x256_S1000x256_1_0_0_1_n_n none X w1 (constant S1000x256 .f32 0x00000000#32))
            (broadcastTo S1000x256 (shapeCast S1x256 b1 shapeCasts_S1x256_S1x256) broadcasts_S1x256_S1000x256))
          (broadcast S1000x256 (Scalar.ofBits .f32 0x00000000#32)))
        w2 (constant S1000x256 .f32 0x00000000#32)))
      (broadcastTo S1000x256 (shapeCast S1x256 b2 shapeCasts_S1x256_S1x256) broadcasts_S1x256_S1000x256) (ix2 p q)
      = (X (ix2 p q) + ∑ k : Fin 256, max ((∑ l : Fin 256, X (ix2 p l) * w1 (ix2 l k)) + b1 (ix2 0 k)) 0 * w2 (ix2 k q))
          + b2 (ix2 0 q) := by
  rw [addf_apply, addf_apply, bias_apply, matmul256_apply]
  refine congrArg (fun t => (X (ix2 p q) + t) + b2 (ix2 0 q)) (Finset.sum_congr rfl fun k _ => ?_)
  rw [maximumf_apply, addf_apply, matmul256_apply, bias_apply, broadcast_apply]
  show max _ (Ideal.ofBits .f32 0x00000000#32) * _ = _
  rw [Ideal.ofBits_zero_f32]

theorem off2_zero : (![0, 0] : Fin 2 → ℕ) = fun _ => 0 := by
  funext a; match a with | ⟨0, _⟩ => rfl | ⟨1, _⟩ => rfl

theorem out2_apply (x0 : Vec Ideal S2000x128 .f32) (w1 : Vec Ideal S256x256 .f32) (b1 : Vec Ideal S1x256 .f32)
    (w2 : Vec Ideal S256x256 .f32) (b2 : Vec Ideal S1x256 .f32) (r : Fin 2000) (c : Fin 128) :
    out2 (F := Ideal) x0 w1 b1 w2 b2 (ix2 r c)
      = Cert.Spec.resMlp (fun l k => w1 (ix2 l k)) (fun k => b1 (ix2 0 k)) (fun k j => w2 (ix2 k j)) (fun j => b2 (ix2 0 j))
          (fun q : Fin 256 => x0 (ix2 ⟨2 * (r.val / 2) + q.val / 128, by have := r.isLt; have := q.isLt; omega⟩
            ⟨q.val % 128, Nat.mod_lt _ (by decide)⟩))
          ⟨(r.val % 2) * 128 + c.val, by have := c.isLt; omega⟩ := by
  unfold out2
  rw [View.canon_unit_zero off2_zero]
  simp only [View.ld_unit_zero (S := S2000x128) off2_zero, View.ld_unit_zero (S := S256x256) off2_zero,
    View.ld_unit_zero (S := S1x256) off2_zero]
  unfold k2_pay1
  rw [narrow_apply, mlp256_apply, ← Cert.Spec.resMlp_assoc]
  simp only [wide_apply]

end Cert.KernelIdeal.Hand

end
-- ==== Proof.KI.Value2I.lean ====
import proofs.«214604_g3212635537896_cont_8to1_b_1509_14_alg».proof.Proof.KI.Value2
import proofs.«214604_g3212635537896_cont_8to1_b_1509_14_alg».proof.Proof.KI.Body2Value
import proofs.«214604_g3212635537896_cont_8to1_b_1509_14_alg».proof.Proof.Spec

set_option maxRecDepth 16384

noncomputable section

open scoped BigOperators

namespace Cert.KernelIdeal.Hand

open Cert.KernelIdeal.Gen
open Idealize.ShloMosaic Idealize.ShloMosaic.TcCoe Idealize.SL.Sem Idealize.ShloMosaic.ValueIdx
open Idealize.ShloMosaic.SparseCore.Cfg (HIx)
open Idealize.ShloMosaic.Pipeline (Dat)

variable (V : (c : Dev nD) → (b : Ref sig .tc) → Buf (Elt Ideal) ((c : Thread nD τ).loc b))
  (O : Dev nD → CellTallies nD τ sig (HIx 1)) (B : Dev nD → Set (SemLoc sig × HIx 1))

theorem out2_blk_apply (c : Dev nD) (t : Fin cfg2.N) (r : Fin 2000) (q : Fin 128) :
    out2 (F := Ideal) (blk2_0 V c t) (V c main_arg7) (V c main_v8) (V c main_arg9) (V c main_v9) (ix2 r q)
      = Cert.Spec.resMlp (fun l k => V c main_arg7 (ix2 l k)) (fun k => V c main_v8 (ix2 0 k))
          (fun k j => V c main_arg9 (ix2 k j)) (fun j => V c main_v9 (ix2 0 j))
          (fun p : Fin 256 => V c main_v7_1 (ix2 ⟨2000 * t.val + (2 * (r.val / 2) + p.val / 128),
              by have := point_lt t; have := r.isLt; have := p.isLt; omega⟩ ⟨p.val % 128, Nat.mod_lt _ (by decide)⟩))
          ⟨(r.val % 2) * 128 + q.val, by have := q.isLt; omega⟩ := by
  rw [out2_apply]
  simp only [blk2_0_apply]

theorem out_apply (c : Dev nD) (R : Fin 400000) (q : Fin 128) :
    (dat2 (F := Ideal) V O B c).arrAt 5 cfg2.N (ix2 ⟨200000 + R.val, by have := R.isLt; omega⟩ q)
      = Cert.Spec.resMlp (fun l k => V c main_arg7 (ix2 l k)) (fun k => V c main_v8 (ix2 0 k))
          (fun k j => V c main_arg9 (ix2 k j)) (fun j => V c main_v9 (ix2 0 j))
          (fun p : Fin 256 => V c main_v7_1 (ix2 ⟨2 * (R.val / 2) + p.val / 128, by have := R.isLt; have := p.isLt; omega⟩
            ⟨p.val % 128, Nat.mod_lt _ (by decide)⟩))
          ⟨(R.val % 2) * 128 + q.val, by have := q.isLt; omega⟩ := by
  have hR : R.val < 400000 := R.isLt

  let t : Fin cfg2.N := ⟨R.val / 2000, lt_of_lt_of_eq (by omega : R.val / 2000 < 200) N_2.symm⟩
  let r : Fin 2000 := ⟨R.val % 2000, Nat.mod_lt _ (by decide)⟩
  have tv : t.val = R.val / 2000 := rfl
  have rv : r.val = R.val % 2000 := rfl
  rw [arrAt2_5_high V O B c _ (by show 200000 ≤ 200000 + R.val; omega),
    outRows_at V c t (ix2 r q) _ (by show 200000 + R.val = (t.val + 100) * 2000 + r.val; omega) rfl,
    out2_blk_apply]

  have e1 : ∀ p : Fin 256, (⟨2000 * t.val + (2 * (r.val / 2) + p.val / 128),
        by have := point_lt t; have := r.isLt; have := p.isLt; omega⟩ : Fin 401408)
      = ⟨2 * (R.val / 2) + p.val / 128, by have := p.isLt; omega⟩ := fun p => Fin.ext (by show 2000 * t.val + (2 * (r.val / 2) + p.val / 128) = 2 * (R.val / 2) + p.val / 128; omega)
  have e2 : (⟨(r.val % 2) * 128 + q.val, by have := q.isLt; omega⟩ : Fin 256)
      = ⟨(R.val % 2) * 128 + q.val, by have := q.isLt; omega⟩ := Fin.ext (by show (r.val % 2) * 128 + q.val = (R.val % 2) * 128 + q.val; omega)
  simp only [e1, e2]

end Cert.KernelIdeal.Hand

end
-- ==== Proof.KI.ValueChain.lean ====
import proofs.«214604_g3212635537896_cont_8to1_b_1509_14_alg».proof.Proof.KI.ChainAt
import proofs.«214604_g3212635537896_cont_8to1_b_1509_14_alg».proof.Proof.KI.Value0
import proofs.«214604_g3212635537896_cont_8to1_b_1509_14_alg».proof.Proof.KI.Value2I
import proofs.«214604_g3212635537896_cont_8to1_b_1509_14_alg».proof.Proof.Spec

set_option maxRecDepth 16384

noncomputable section

open scoped BigOperators

namespace Cert.KernelIdeal.Hand

open Cert.KernelIdeal Cert.KernelIdeal.Gen

open Idealize.ShloMosaic Idealize.ShloMosaic.TcCoe Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable (m : (ℓ : Loc nD τ sig) → Buf (Elt Ideal) ℓ)

theorem resMlp_congr {n : ℕ} {W1 W1' : Fin n → Fin n → EReal} {b1 b1' : Fin n → EReal} {W2 W2' : Fin n → Fin n → EReal}
    {b2 b2' : Fin n → EReal} {v v' : Fin n → EReal}
    (h1 : ∀ l k, W1 l k = W1' l k) (hb1 : ∀ k, b1 k = b1' k) (h2 : ∀ k j, W2 k j = W2' k j) (hb2 : ∀ j, b2 j = b2' j)
    (hv : ∀ l, v l = v' l) (j : Fin n) :
    Cert.Spec.resMlp W1 b1 W2 b2 v j = Cert.Spec.resMlp W1' b1' W2' b2' v' j := by
  have e1 : W1 = W1' := funext fun l => funext (h1 l)
  have e2 : b1 = b1' := funext hb1
  have e3 : W2 = W2' := funext fun k => funext (h2 k)
  have e4 : b2 = b2' := funext hb2
  have e5 : v = v' := funext hv
  rw [e1, e2, e3, e4, e5]

theorem kernel_out_low (d : Dev nD) (r : Fin 200000) (c : Fin 128) :
    (W7 m d (Proc.devRef .tc main_v10) : S600000x128.Idx → EReal) (ix2 ⟨r.val, by have := r.isLt; omega⟩ c)
      = Cert.Spec.resMlp (fun l k => (m ((d : Thread nD τ).loc main_arg3) : S128x128.Idx → EReal) (ix2 l k)) (fun k => (m ((d : Thread nD τ).loc main_arg4) : S128.Idx → EReal) (ix1 k))
          (fun k j => (m ((d : Thread nD τ).loc main_arg5) : S128x128.Idx → EReal) (ix2 k j)) (fun j => (m ((d : Thread nD τ).loc main_arg6) : S128.Idx → EReal) (ix1 j))
          (fun l => (m ((d : Thread nD τ).loc main_arg0) : S100000x128.Idx → EReal) (ix2 (Cert.Spec.node ((m ((d : Thread nD τ).loc main_arg1) : S200000.Idx → BitVec 32) (ix1 r))) l)) c :=
  (W7_main_v10_low m d r c).trans <|
    (u_apply (V1 m) (Ow (F := Ideal) 0) (Bd (F := Ideal) 0) d _ c).trans <|
      resMlp_congr (fun l k => congrFun (W1_main_arg3 m d) (ix2 l k)) (fun k => W1_main_v0_apply m d k)
        (fun k j => congrFun (W1_main_arg5 m d) (ix2 k j)) (fun j => W1_main_v1_apply m d j)
        (fun l => congrFun (W1_main_arg0 m d) _) c

theorem kernel_out_high (d : Dev nD) (R : Fin 400000) (c : Fin 128) :
    (W7 m d (Proc.devRef .tc main_v10) : S600000x128.Idx → EReal) (ix2 ⟨200000 + R.val, by have := R.isLt; omega⟩ c)
      = Cert.Spec.resMlp (fun l k => (m ((d : Thread nD τ).loc main_arg7) : S256x256.Idx → EReal) (ix2 l k)) (fun k => (m ((d : Thread nD τ).loc main_arg8) : S256.Idx → EReal) (ix1 k))
          (fun k j => (m ((d : Thread nD τ).loc main_arg9) : S256x256.Idx → EReal) (ix2 k j)) (fun j => (m ((d : Thread nD τ).loc main_arg10) : S256.Idx → EReal) (ix1 j))
          (fun p : Fin 256 => (m ((d : Thread nD τ).loc main_arg0) : S100000x128.Idx → EReal)
            (ix2 (Cert.Spec.node ((m ((d : Thread nD τ).loc main_arg2) : S400000.Idx → BitVec 32)
              (ix1 ⟨2 * (R.val / 2) + p.val / 128, by have := R.isLt; have := p.isLt; omega⟩)))
              ⟨p.val % 128, Nat.mod_lt _ (by decide)⟩))
          ⟨(R.val % 2) * 128 + c.val, by have := c.isLt; have := Nat.mod_lt R.val (show 0 < 2 by decide); omega⟩ :=
  (congrFun (W7_main_v10 m d) _).trans <|
    (out_apply (V5 m) (Ow (F := Ideal) 1) (Bd (F := Ideal) 1) d R c).trans <|
      resMlp_congr (fun l k => congrFun (W5_main_arg7 m d) (ix2 l k)) (fun k => W5_main_v8_apply m d k)
        (fun k j => congrFun (W5_main_arg9 m d) (ix2 k j)) (fun j => W5_main_v9_apply m d j)
        (fun p => (congrFun (W5_main_v7_1 m d) _).trans
          (W4_main_v7_1_apply m d ⟨2 * (R.val / 2) + p.val / 128, by have := R.isLt; have := p.isLt; omega⟩
            ⟨p.val % 128, Nat.mod_lt _ (by decide)⟩)) _

theorem kernel_out_eq (d : Dev nD)
    (h1 : ∀ i, ((m ((d : Thread nD τ).loc main_arg1) : S200000.Idx → BitVec 32) i).toNat < 100000)
    (h2 : ∀ i, ((m ((d : Thread nD τ).loc main_arg2) : S400000.Idx → BitVec 32) i).toNat < 100000) :
    W7 m d (Proc.devRef .tc main_v10)
      = Cert.Spec.outArr (m ((d : Thread nD τ).loc main_arg0)) (m ((d : Thread nD τ).loc main_arg1)) (m ((d : Thread nD τ).loc main_arg2)) (m ((d : Thread nD τ).loc main_arg3)) (m ((d : Thread nD τ).loc main_arg4)) (m ((d : Thread nD τ).loc main_arg5)) (m ((d : Thread nD τ).loc main_arg6)) (m ((d : Thread nD τ).loc main_arg7)) (m ((d : Thread nD τ).loc main_arg8)) (m ((d : Thread nD τ).loc main_arg9)) (m ((d : Thread nD τ).loc main_arg10)) := by
  funext i
  obtain ⟨r, c, rfl⟩ : ∃ (r : Fin 600000) (c : Fin 128), i = ix2 r c := ⟨i 0, i 1, eq_ix2 i⟩
  show _ = Cert.Spec.out (fun p q => (m ((d : Thread nD τ).loc main_arg0) : S100000x128.Idx → EReal) (ix2 p q)) (fun r => (m ((d : Thread nD τ).loc main_arg1) : S200000.Idx → BitVec 32) (ix1 r))
    (fun r => (m ((d : Thread nD τ).loc main_arg2) : S400000.Idx → BitVec 32) (ix1 r))
    (fun l k => (m ((d : Thread nD τ).loc main_arg3) : S128x128.Idx → EReal) (ix2 l k)) (fun k => (m ((d : Thread nD τ).loc main_arg4) : S128.Idx → EReal) (ix1 k))
    (fun k j => (m ((d : Thread nD τ).loc main_arg5) : S128x128.Idx → EReal) (ix2 k j)) (fun j => (m ((d : Thread nD τ).loc main_arg6) : S128.Idx → EReal) (ix1 j))
    (fun l k => (m ((d : Thread nD τ).loc main_arg7) : S256x256.Idx → EReal) (ix2 l k)) (fun k => (m ((d : Thread nD τ).loc main_arg8) : S256.Idx → EReal) (ix1 k))
    (fun k j => (m ((d : Thread nD τ).loc main_arg9) : S256x256.Idx → EReal) (ix2 k j)) (fun j => (m ((d : Thread nD τ).loc main_arg10) : S256.Idx → EReal) (ix1 j)) r c
  unfold Cert.Spec.out
  by_cases hr : r.val < 200000
  · rw [dif_pos hr]
    exact kernel_out_low m d ⟨r.val, hr⟩ c
  · rw [dif_neg hr]
    have hR : r.val - 200000 < 400000 := by have := r.isLt; omega
    have hi : (ix2 r c : S600000x128.Idx)
        = ix2 (⟨200000 + (⟨r.val - 200000, hR⟩ : Fin 400000).val, by show 200000 + (r.val - 200000) < 600000; omega⟩ : Fin 600000) c :=
      congrArg (fun x : Fin 600000 => (ix2 x c : S600000x128.Idx))
        (Fin.ext (by show r.val = 200000 + (r.val - 200000); omega))
    rw [hi]
    exact kernel_out_high m d ⟨r.val - 200000, hR⟩ c

theorem kernel_idx_eq (d : Dev nD) :
    W7 m d (Proc.devRef .tc main_v11) = Cert.Spec.outIdxArr (m ((d : Thread nD τ).loc main_arg1)) (m ((d : Thread nD τ).loc main_arg2)) := by
  rw [W7_main_v11]
  funext i
  obtain ⟨r, rfl⟩ : ∃ r : Fin 600000, i = ix1 r := ⟨i 0, eq_ix1 i⟩
  show _ = Cert.Spec.outIdx (fun r => (m ((d : Thread nD τ).loc main_arg1) : S200000.Idx → BitVec 32) (ix1 r)) (fun r => (m ((d : Thread nD τ).loc main_arg2) : S400000.Idx → BitVec 32) (ix1 r)) r
  unfold Cert.Spec.outIdx
  by_cases hr : r.val < 200000
  · rw [dif_pos hr]
    exact concatenate_pair_apply_left 0 _ _ concatenates_S200000_S400000_S600000_d0 (ix1 r) rfl
      (ix1 (⟨r.val, hr⟩ : Fin 200000)) (fun b => by match b with | ⟨0, _⟩ => rfl)
  · rw [dif_neg hr]
    have hR : r.val - 200000 < 400000 := by have := r.isLt; omega
    refine concatenate_pair_apply_right 0 _ _ concatenates_S200000_S400000_S600000_d0 (ix1 r) rfl rfl
      (ix1 (⟨r.val - 200000, hR⟩ : Fin 400000)) (fun b hb => ?_) ?_
    · exact absurd (Fin.ext (by have := b.isLt; show b.val = 0; change b.val < 1 at this; omega)) hb
    · show (r.val - 200000) + 200000 = r.val
      omega

end Cert.KernelIdeal.Hand

end
-- ==== Proof.lean ====
/-
  The kernel and the reference compute one function and leave their arguments unchanged.

  A row `v` goes through a residual two-layer perceptron, `v + (relu (v · W1 + b1) · W2 + b2)`. Result row
  `r < 200000` is that map, with the 128-wide weights, of the node row named by word `r` of the first index list. Rows
  `200000 + 2 P` and `200000 + 2 P + 1` are the two halves of the map, with the 256-wide weights, of the node rows named
  by words `2 P` and `2 P + 1` of the second list laid side by side. The second result is the two lists one after the
  other. The kernel maps every node row and then selects; the reference selects and then maps.

  The bit-level program and the program read over the extended reals are one text, so one frame, generic in the float
  instance, serves both.
-/
import proofs.«214604_g3212635537896_cont_8to1_b_1509_14_alg».proof.Defs
import proofs.«214604_g3212635537896_cont_8to1_b_1509_14_alg».proof.Proof.Gen.Kernel
import proofs.«214604_g3212635537896_cont_8to1_b_1509_14_alg».proof.Proof.Gen.KernelIdeal
import proofs.«214604_g3212635537896_cont_8to1_b_1509_14_alg».proof.Proof.Gen.ReferenceIdeal
import proofs.«214604_g3212635537896_cont_8to1_b_1509_14_alg».proof.Proof.Gen.Pre_input_domain
import proofs.«214604_g3212635537896_cont_8to1_b_1509_14_alg».proof.Proof.Spec
import proofs.«214604_g3212635537896_cont_8to1_b_1509_14_alg».proof.Proof.PreDecode
import proofs.«214604_g3212635537896_cont_8to1_b_1509_14_alg».proof.Proof.RefRun
import proofs.«214604_g3212635537896_cont_8to1_b_1509_14_alg».proof.Proof.RefValue
import proofs.«214604_g3212635537896_cont_8to1_b_1509_14_alg».proof.Proof.KI.Run
import proofs.«214604_g3212635537896_cont_8to1_b_1509_14_alg».proof.Proof.KI.Tile
import proofs.«214604_g3212635537896_cont_8to1_b_1509_14_alg».proof.Proof.KI.ValueChain
import Idealize.ShloMosaic.Adequacy
import Idealize.ShloMosaic.Init

noncomputable section

namespace Cert.Proof

open Idealize.ShloMosaic Idealize.SL.Sem

section SameText

variable {F : FTy → Type} [FloatOps F]

-- The two programs are one text: at each label both sides unfold to the same body.
theorem body_unary (t : Fin Cert.Kernel.grid0.N) (s : (w : Fin 6) → Fin (Cert.Kernel.win0 w).nbuf) :
    Cert.Kernel.defs₀ (F := F) .tc 0 (t, s) = Cert.KernelIdeal.defs₀ (F := F) .tc 0 (t, s) := rfl

theorem body_gather (c : Fin Cert.Kernel.τ.nSC) (s : Fin Cert.Kernel.τ.nSub) (x : Cert.Kernel.Λ₀.Args 1) :
    Cert.Kernel.defs₀ (F := F) (.scVector c s) 1 x = Cert.KernelIdeal.defs₀ (F := F) (.scVector c s) 1 x := rfl

theorem body_binary (t : Fin Cert.Kernel.grid2.N) (s : (w : Fin 6) → Fin (Cert.Kernel.win2 w).nbuf) :
    Cert.Kernel.defs₀ (F := F) .tc 2 (t, s) = Cert.KernelIdeal.defs₀ (F := F) .tc 2 (t, s) := rfl

theorem label0 (k : Proc Cert.Kernel.τ) (a : Cert.Kernel.Λ₀.Args 0) :
    Cert.Kernel.defs₀ (F := F) k 0 a = Cert.KernelIdeal.defs₀ (F := F) k 0 a := by
  cases k with
  | tc => exact body_unary a.1 a.2
  | _ => rfl

theorem label1 (k : Proc Cert.Kernel.τ) (a : Cert.Kernel.Λ₀.Args 1) :
    Cert.Kernel.defs₀ (F := F) k 1 a = Cert.KernelIdeal.defs₀ (F := F) k 1 a := by
  cases k with
  | scVector c s => exact body_gather c s a
  | _ => rfl

theorem label2 (k : Proc Cert.Kernel.τ) (a : Cert.Kernel.Λ₀.Args 2) :
    Cert.Kernel.defs₀ (F := F) k 2 a = Cert.KernelIdeal.defs₀ (F := F) k 2 a := by
  cases k with
  | tc => exact body_binary a.1 a.2
  | _ => rfl

theorem defs₀_eq : Cert.Kernel.defs₀ (F := F) = Cert.KernelIdeal.defs₀ (F := F) := by
  funext k l a
  rcases l with ⟨_ | _ | _ | n, hl⟩
  · exact label0 k a
  · exact label1 k a
  · exact label2 k a
  · omega

theorem defs_eq : Cert.Kernel.defs (F := F) = Cert.KernelIdeal.defs (F := F) :=
  congrArg (fun d => Cert.Kernel.sc.defs (Pipeline.defs Cert.Kernel.pcfgs d)) defs₀_eq

end SameText

-- Under the precondition, on each device every word of the two index lists is below 100000.
theorem ranges (m : (ℓ : Loc Cert.KernelIdeal.nD Cert.KernelIdeal.τ Cert.KernelIdeal.sig) → Buf (Elt Ideal) ℓ) (h : Cert.Pre_KernelIdeal m) (d : Dev Cert.KernelIdeal.nD) :
    (∀ i, (m ((d.tc : Thread Cert.KernelIdeal.nD Cert.KernelIdeal.τ).loc Cert.KernelIdeal.main_arg1) i).toNat < 100000) ∧ (∀ i, (m ((d.tc : Thread Cert.KernelIdeal.nD Cert.KernelIdeal.τ).loc Cert.KernelIdeal.main_arg2) i).toNat < 100000) :=
  Cert.PreDecode.idx_ranges (F := Ideal) _ _ _ _ _ _ _ _ _ _ _ (h d)

-- The generic frame read at the bit-level instance, carried to the bit-level program along `defs_eq`; everything else of the two programs agrees by unfolding.
theorem frame_k : Cert.frame_Kernel := fun m ρ hpre => by
  have h := Cert.KernelIdeal.Hand.frame (F := Bits) m ρ Cert.KernelIdeal.Hand.tile_body_all
    (fun d => (Cert.PreDecode.idx_ranges (F := Bits) _ _ _ _ _ _ _ _ _ _ _ (hpre d)).1)
    (fun d => (Cert.PreDecode.idx_ranges (F := Bits) _ _ _ _ _ _ _ _ _ _ _ (hpre d)).2)
  rw [← defs_eq] at h
  exact h

theorem frame_ki : Cert.frame_KernelIdeal := fun m ρ hpre =>
  Cert.KernelIdeal.Hand.frame (F := Ideal) m ρ Cert.KernelIdeal.Hand.tile_body_all (fun d => (ranges m hpre d).1) (fun d => (ranges m hpre d).2)

theorem frame_ri : Cert.frame_ReferenceIdeal := Cert.RefValue.frame

theorem preserves : Cert.preserves_Kernel_KernelIdeal := trivial

-- Both runs end with the specification's two arrays of the kernel's arguments: the reference's after its arguments are rewritten to the kernel's.
theorem algebraic : Cert.algebraic_KernelIdeal_ReferenceIdeal := by
  intro m ρ m' ρ' hpre hagree
  have hr := fun d => ranges m hpre d
  refine ⟨fun c => Cert.Spec.outArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.Spec.outIdxArr (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · exact (θ_run (Cert.KernelIdeal.defs (F := Ideal)) _ _).mono
      (fun _ h c => ⟨(h c).1.trans (Cert.KernelIdeal.Hand.kernel_out_eq m c (hr c).1 (hr c).2),
        (h c).2.1.trans (Cert.KernelIdeal.Hand.kernel_idx_eq m c), (h c).2.2⟩)
      (Cert.KernelIdeal.Hand.run_main (F := Ideal) m ρ Cert.KernelIdeal.Hand.tile_body_all (fun d => (hr d).1) (fun d => (hr d).2))
  · refine (θ_run Cert.ReferenceIdeal.defs _ _).mono (fun _ h c => ⟨(h c).1.trans ?_, (h c).2.1.trans ?_, (h c).2.2⟩)
      (Cert.RefValue.run m' ρ')
    · obtain ⟨e0, e1, e2, e3, e4, e5, e6, e7, e8, e9, e10⟩ := hagree c
      rw [e0, e1, e2, e3, e4, e5, e6, e7, e8, e9, e10]
      exact Cert.RefValue.res0_eq _ _ _ _ _ _ _ _ _ _ _ (hr c).1 (hr c).2
    · obtain ⟨-, e1, e2, -⟩ := hagree c
      rw [e1, e2]
      exact Cert.RefValue.res1_eq _ _

theorem claim : Cert.Claim :=
  ⟨Cert.Kernel.Gen.facts, Cert.KernelIdeal.Gen.facts, Cert.ReferenceIdeal.Gen.facts, Cert.Pre_input_domain.Gen.facts,
    frame_k, frame_ki, frame_ri, preserves, algebraic⟩

end Cert.Proof

end
